-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S64x64 .f32) (main_arg8 : FVec F S64 .f32) (main_arg9 : FVec F S64x64 .f32) (main_arg10 : FVec F S64 .f32) (main_arg11 : FVec F S64 .f32) (main_arg12 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : IVec S2x1000000 32) (main_arg14 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S100000x1 : Shape := ⟨2, ![100000, 1]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S512x64 : Shape := ⟨2, ![512, 64]⟩
abbrev S2000x64 : Shape := ⟨2, ![2000, 64]⟩
abbrev S2000x1 : Shape := ⟨2, ![2000, 1]⟩
abbrev S2000x512 : Shape := ⟨2, ![2000, 512]⟩
abbrev S512x128 : Shape := ⟨2, ![512, 128]⟩

abbrev nBuf : Space → Nat
  | .hbm => 81
  | .vmem => 52
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S2x1000000, .i32⟩
  | .hbm, ⟨14, _⟩ => ⟨S100000, .i32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S100000x1, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S100000x64, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S_, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S100000x64, .f32⟩
  | .hbm, ⟨49, _⟩ => ⟨S512x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .hbm, ⟨68, _⟩ => ⟨S1x64, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S1x64, .f32⟩
  | .hbm, ⟨73, _⟩ => ⟨S_, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x64, .f32⟩
  | .hbm, ⟨79, _⟩ => ⟨S512x64, .f32⟩
  | .hbm, ⟨80, _⟩ => ⟨S512x128, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S2000x1, .i32⟩
  | .local _ .vmem, ⟨21, _⟩ => ⟨S2000x1, .i32⟩
  | .local _ .vmem, ⟨22, _⟩ => ⟨S2000x64, .f32⟩
  | .local _ .vmem, ⟨23, _⟩ => ⟨S2000x64, .f32⟩
  | .local _ .vmem, ⟨24, _⟩ => ⟨S512x64, .f32⟩
  | .local _ .vmem, ⟨25, _⟩ => ⟨S512x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x1, .i32⟩
  | .local _ .vmem, ⟨47, _⟩ => ⟨S2000x1, .i32⟩
  | .local _ .vmem, ⟨48, _⟩ => ⟨S2000x64, .f32⟩
  | .local _ .vmem, ⟨49, _⟩ => ⟨S2000x64, .f32⟩
  | .local _ .vmem, ⟨50, _⟩ => ⟨S512x64, .f32⟩
  | .local _ .vmem, ⟨51, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg8_0 : Ref sig .tc := ⟨.vmem, 37, rfl⟩
abbrev cc2_scratch0 : Ref sig .tc := ⟨.vmem, 38, rfl⟩
abbrev cc2_scratch1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem8_0 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem5_1 : DmaSem sig := 42
abbrev cc3_sem6_0 : DmaSem sig := 43
abbrev cc3_sem6_1 : DmaSem sig := 44
abbrev cc3_sem7_0 : DmaSem sig := 45

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v39 : BitVec 1 := Scalar.cmpi .eq arg0 c49_i32
  let v40 : BitVec 32 := Scalar.extui v39
  let c0_i32_19 : BitVec 32 := 0#32
  let v41 : BitVec 1 := Scalar.cmpi .ne v40 c0_i32_19
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S512x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_25 : BitVec 32 := 0#32
  let v44 : BitVec 1 := Scalar.cmpi .ne v43 c0_i32_25
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v39 : BitVec 1 := Scalar.cmpi .eq arg0 c49_i32
  let v40 : BitVec 32 := Scalar.extui v39
  let c0_i32_19 : BitVec 32 := 0#32
  let v41 : BitVec 1 := Scalar.cmpi .ne v40 c0_i32_19
  v41

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S512x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S100000_S100000x1 : S100000.ShapeCasts S100000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  concatenates_S512x64_S512x64_S512x128_d1 : Shape.Concatenates [S512x64, S512x64] S512x128 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S2000x512_S2000x64_S512x64_0_0_1_1_n_n_wf : DotDims.WF S2000x512 S2000x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .i32 = 32 ∨ (Rect.block (s := S100000x1) S2000x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x64.size a ≤ S512x64.size a
  hwx1_7 : ∀ i : grid1.Coords, EltTy.bits .f32 = 32 ∨ (Rect.block (s := S512x64) S512x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .i32 = 32 ∨ (Rect.block (s := S100000x1) S2000x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x64.size a ≤ S512x64.size a
  hwx3_7 : ∀ i : grid3.Coords, EltTy.bits .f32 = 32 ∨ (Rect.block (s := S512x64) S512x64.size (cc3_transform_7 i) (hinb3_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v19_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S2000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S512x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v26_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41_0) S10000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v41_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v41_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v48_0) S2000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v48_1) S512x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S512x64 : Shape := ⟨2, ![512, 64]⟩
abbrev S100000x1 : Shape := ⟨2, ![100000, 1]⟩
abbrev S512x128 : Shape := ⟨2, ![512, 128]⟩

abbrev nBuf : Space → Nat
  | .hbm => 160
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S2x1000000, .i32⟩
  | 14 => ⟨S100000, .i32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S100000x64, .f32⟩
  | 56 => ⟨S100000x64, .f32⟩
  | 57 => ⟨S100000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S_, .f32⟩
  | 75 => ⟨S64, .f32⟩
  | 76 => ⟨S64, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x64, .f32⟩
  | 94 => ⟨S_, .f32⟩
  | 95 => ⟨S100000x64, .f32⟩
  | 96 => ⟨S1000000x1, .i32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S_, .i32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S_, .f32⟩
  | 126 => ⟨S_, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S64, .f32⟩
  | 3 => ⟨S_, .f32⟩
  | 4 => ⟨S_, .i1⟩
  | 5 => ⟨S_, .f32⟩
  | 6 => ⟨S_, .f32⟩
  | 7 => ⟨S64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S64, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S512x64, .f32⟩
  | 25 => ⟨S100000x1, .i32⟩
  | 26 => ⟨S512x64, .f32⟩
  | 27 => ⟨S_, .f32⟩
  | 28 => ⟨S512x64, .f32⟩
  | 29 => ⟨S100000x1, .i32⟩
  | 30 => ⟨S512x64, .f32⟩
  | 31 => ⟨S512x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_4 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_5 : Ref sig .tc := ⟨.hbm, 85, rfl⟩
abbrev main_v42 : Ref sig .tc := ⟨.hbm, 86, rfl⟩
abbrev main_v43 : Ref sig .tc := ⟨.hbm, 87, rfl⟩
abbrev main_c_6 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_7 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_8 : Ref sig .tc := ⟨.hbm, 109, rfl⟩
abbrev main_v63 : Ref sig .tc := ⟨.hbm, 110, rfl⟩
abbrev main_cst_9 : Ref sig .tc := ⟨.hbm, 111, rfl⟩
abbrev main_v64 : Ref sig .tc := ⟨.hbm, 112, rfl⟩
abbrev main_v65 : Ref sig .tc := ⟨.hbm, 113, rfl⟩
abbrev main_c_10 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_cst_3 : Ref sig .tc := ⟨.hbm, 131, rfl⟩
abbrev main_call1_v12 : Ref sig .tc := ⟨.hbm, 132, rfl⟩
abbrev main_call1_cst_4 : Ref sig .tc := ⟨.hbm, 133, rfl⟩
abbrev main_call1_call0_v0 : Ref sig .tc := ⟨.hbm, 134, rfl⟩
abbrev main_call1_call0_v1 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_11 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_12 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_cst_13 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x128_d1 : Shape.Concatenates [S512x64, S512x64] S512x128 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

class Facts : Prop extends Facts₀ where

variable [Facts]
-- ==== Proof.KI_R0Runs.lean ====
/- A perceptron region's body run to its end in each of its three control cases (first grid point, a middle one, the last), over arbitrary whole buffers. -/
import proofs.«406896_j45226005626971_1_alg».proof.Proof.KI_LaunchP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

abbrev VO0_6 : View sig .tc .vmem S10000x64 .f32 := (Memref.whole cc0_stg6_0 : Memref sig .tc .vmem S10000x64 .f32).view
abbrev VO0_7 : View sig .tc .vmem S1x64 .f32 := (Memref.whole cc0_stg7_0 : Memref sig .tc .vmem S1x64 .f32).view
abbrev VO0_8 : View sig .tc .vmem S1x64 .f32 := (Memref.whole cc0_stg8_0 : Memref sig .tc .vmem S1x64 .f32).view
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10000x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

set_option maxHeartbeats 4000000 in
noncomputable def kernelRun0_A (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i)
    (x0 : Vec F S10000x64 .f32) (x1 : Vec F S10000x64 .f32) (x2 : Vec F S64x64 .f32) (x3 : Vec F S1x64 .f32) (x4 : Vec F S64x64 .f32) (x5 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (xi7 xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

set_option maxHeartbeats 4000000 in
noncomputable def kernelRun0_B (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i)
    (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (xi7 xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

set_option maxHeartbeats 4000000 in
noncomputable def kernelRun0_C (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i)
    (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Fr

end
-- ==== Proof.KI_R0Data.lean ====
/- A perceptron region: what each control case leaves in each buffer, the contents after every grid point, and that the body meets its specification at every point. -/
import proofs.«406896_j45226005626971_1_alg».proof.Proof.KI_R0Runs
import proofs.«406896_j45226005626971_1_alg».proof.Proof.KI_RegionsP
import Idealize.ShloMosaic.Lib.Pipeline.RegionsLoop

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i) (x0 : Vec F S10000x64 .f32) (x1 : Vec F S10000x64 .f32) (x2 : Vec F S64x64 .f32) (x3 : Vec F S1x64 .f32) (x4 : Vec F S64x64 .f32) (x5 : Vec F S1x64 .f32)

def out0_A_6 : Vec F S10000x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

def out0_A_7 : Vec F S1x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

def out0_A_8 : Vec F S1x64 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

def sout0_A_0 : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

def sout0_A_1 : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5}

theorem cover0_A_6 (y : S10000x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S10000x64.size (by sl_kernel_rfl) y

theorem scover0_A_0 (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x64.size (by sl_kernel_rfl) y

theorem scover0_A_1 (y : S1x64.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x64.size (by sl_kernel_rfl) y

end

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

def out0_B_6 : Vec F S10000x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

def out0_B_7 : Vec F S1x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

def out0_B_8 : Vec F S1x64 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

def sout0_B_0 : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

def sout0_B_1 : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5 xs0 xs1}

theorem cover0_B_6 (y : S10000x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x64.size (by sl_kernel_rfl) y

theorem scover0_B_0 (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

theorem scover0_B_1 (y : S1x64.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

end

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

def out0_C_6 : Vec F S10000x64 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

def out0_C_7 : Vec F S1x64 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

def out0_C_8 : Vec F S1x64 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

def sout0_C_0 : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

def sout0_C_1 : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5 xs0 xs1}

theorem cover0_C_6 (y : S10000x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x64.size (by sl_kernel_rfl) y

theorem cover0_C_7 (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

theorem cover0_C_8 (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

theorem scover0_C_0 (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

theorem scover0_C_1 (y : S1x64.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

end

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

def outsAt0 (c : Dev nD) : (n : ℕ) → n < cfg0.N → Vec F S10000x64 .f32 × Vec F S1x64 .f32 × Vec F S1x64 .f32 × Vec F S1x64 .f32 × Vec F S1x64 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 10 = 0 then
      if h1 : (n + 1) % 10 = 9 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 10 = 9 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 10 = 0) (h1 : ¬t.val % 10 = 9) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 10 = 0
  · by_cases h1 : t.val % 10 = 9
    · exfalso; omega
    ·
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold out0_A_6 sout0_A_0 sout0_A_1; (try dsimp only)
      by_cases hz : t.val = 0
      ·
        rw [PhiS0_castSucc V c t, PhiS0_zero V c _ _ hz, PhiA0_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover0_A_0
              · unfold owns; iexists _; isplitr
                swap; · iexact HS1
                ipureintro; exact View.read_writes_of_cover _ _ _ _ _ scover0_A_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover0_A_6
        isplitl [H7]; · iexists _; iexact H7
        iexists _; iexact H8
      ·
        rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover0_A_0
              · unfold owns; iexists _; isplitr
                swap; · iexact HS1
                ipureintro; exact View.read_writes_of_cover _ _ _ _ _ scover0_A_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover0_A_6
        isplitl [H7]; · iexists _; iexact H7
        iexists _; iexact H8
  · by_cases h1 : t.val % 10 = 9
    ·
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C_6 out0_C_7 out0_C_8 sout0_C_0 sout0_C_1; (try dsimp only)
      by_cases hz : t.val = 0
      · exfalso; omega
      ·
        rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover0_C_0
              · unfold owns; iexists _; isplitr
                swap; · iexact HS1
                ipureintro; exact View.read_writes_of_cover _ _ _ _ _ scover0_C_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover0_C_6
        isplitl [H7]
        · unfold owns; iexists _; isplitr
          swap; · iexact H7
          ipureintro; exact View.read_writes_of_cover _ _ _ _ _ cover0_C_7
        unfold owns; iexists _; isplitr
        swap; · iexact H8
        ipureintro; exact View.read_writes_of_cover _ _ _ _ _ cover0_C_8
    ·
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      by_cases hz : t.val = 0
      · exfalso; omega
      ·
        rw [PhiS0_castSucc V c t, PhiS0_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover0_B_0
              · unfold owns; iexists _; isplitr
                swap; · iexact HS1
                ipureintro; exact View.read_writes_of_cover _ _ _ _ _ scover0_B_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover0_B_6
        isplitl [H7]; · iexists _; iexact H7
        iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end Cert.KernelIdeal.Fr

end
-- ==== Proof.KI_R1Runs.lean ====
/- A normalise-and-pool region's body run to its end in each of its three control cases, over arbitrary whole buffers. -/
import proofs.«406896_j45226005626971_1_alg».proof.Proof.KI_RegionsP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

abbrev VO1_6 : View sig .tc .vmem S2000x64 .f32 := (Memref.whole cc1_stg6_0 : Memref sig .tc .vmem S2000x64 .f32).view
abbrev VO1_7 : View sig .tc .vmem S512x64 .f32 := (Memref.whole cc1_stg7_0 : Memref sig .tc .vmem S512x64 .f32).view
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x64 .f32 := win1_7.stage (cfg1.slots t 7)
abbrev hs1_7 (t : Fin cfg1.N) : (ms1_7 t).IsWhole := hstage1_7 ((cfg1.slots t 7).cast nbuf1_7)
abbrev scM1_0 : Memref sig .tc .vmem S512x64 .f32 := Memref.whole cc1_scratch0
abbrev VS1_0 : View sig .tc .vmem S512x64 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 1000000 in
noncomputable def kernelRun1_A (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond1_0 i) (hc1 : ¬cond1_1 i)
    (x0 : Vec F S2000x64 .f32) (x1 : Vec F S1x64 .f32) (x2 : Vec F S1x64 .f32) (x3 : Vec F S1x64 .f32) (x4 : Vec F S1x64 .f32) (x5 : Vec F S2000x1 .i32) :
    Σ' (L6 : List (View.Piece (Elt F) S2000x64 .f32)), { LS0 : List (View.Piece (Elt F) S512x64 .f32) //
      ∀ (xi7 : Vec F S512x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 1000000 in
noncomputable def kernelRun1_B (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : ¬cond1_1 i)
    (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32) :
    Σ' (L6 : List (View.Piece (Elt F) S2000x64 .f32)), { LS0 : List (View.Piece (Elt F) S512x64 .f32) //
      ∀ (xi7 : Vec F S512x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 1000000 in
noncomputable def kernelRun1_C (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : cond1_1 i)
    (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32) :
    Σ' (L6 : List (View.Piece (Elt F) S2000x64 .f32)) (L7 : List (View.Piece (Elt F) S512x64 .f32)), { LS0 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fr

end
-- ==== Proof.KI_R1Data.lean ====
/- A normalise-and-pool region: what each control case leaves in each buffer, as the body's arithmetic of the point's blocks; the contents after every grid point; and that the body meets its specification at every point. -/
import proofs.«406896_j45226005626971_1_alg».proof.Proof.KI_RegionsP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«406896_j45226005626971_1_alg».proof.Proof.KI_R1Runs
import Idealize.ShloMosaic.Lib.Pipeline.Value

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32)

def out1_A_6 : Vec F S2000x64 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 x0 x1 x2 x3 x4 x5).1)

def sout1_A_0 : Vec F S512x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x0 x1 x2 x3 x4 x5).2.1)

variable {c i arg1 harg1 arg2 harg2 arg3 harg3 arg4 harg4 arg5 harg5 arg6 harg6 arg7 harg7 arg8 harg8 arg9 harg9 hc0 hc1 x0 x1 x2 x3 x4 x5}

theorem cover1_A_6 (y : S2000x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).1 S2000x64.size (by sl_kernel_rfl) y

theorem scover1_A_0 (y : S512x64.Idx) :
    ∃ pc ∈ (kernelRun1_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3 x4 x5).2.1 S512x64.size (by sl_kernel_rfl) y

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

def out1_B_6 : Vec F S2000x64 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 x0 x1 x2 x3 x4 x5 xs0).1)

def sout1_B_0 : Vec F S512x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x0 x1 x2 x3 x4 x5 xs0).2.1)

variable {c i arg1 harg1 arg2 harg2 arg3 harg3 arg4 harg4 arg5 harg5 arg6 harg6 arg7 harg7 arg8 harg8 arg9 harg9 hc0 hc1 x0 x1 x2 x3 x4 x5 xs0}

theorem cover1_B_6 (y : S2000x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).1 S2000x64.size (by sl_kernel_rfl) y

theorem scover1_B_0 (y : S512x64.Idx) :
    ∃ pc ∈ (kernelRun1_B c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 x4 x5 xs0).2.1 S512x64.size (by sl_kernel_rfl) y

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

def out1_C_6 : Vec F S2000x64 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x0 x1 x2 x3 x4 x5 xs0).1)

def sout1_C_0 : Vec F S512x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x0 x1 x2 x3 x4 x5 xs0).2.2.1)

def out1_C_7 : Vec F S512x64 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 x0 x1 x2 x3 x4 x5 xs0).2.1)

variable {c i arg1 harg1 arg2 harg2 arg3 harg3 arg4 harg4 arg5 harg5 arg6 harg6 arg7 harg7 arg8 harg8 arg9 harg9 hc0 hc1 x0 x1 x2 x3 x4 x5 xs0}

theorem cover1_C_6 (y : S2000x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).1 S2000x64.size (by sl_kernel_rfl) y

theorem scover1_C_0 (y : S512x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.2.1 S512x64.size (by sl_kernel_rfl) y

theorem cover1_C_7 (y : S512x64.Idx) :
    ∃ pc ∈ (kernelRun1_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 x4 x5 xs0).2.1 S512x64.size (by sl_kernel_rfl) y

end

def outsAt1 (c : Dev nD) : (n : ℕ) → n < cfg1.N → Vec F S2000x64 .f32 × Vec F S512x64 .f32 × Vec F S512x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr rfl) (fun h => absurd ((hcond1_1 ⟨0, hn⟩).mp h) (show ¬((0 : ℕ) = 49) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr rfl) (fun h => absurd ((hcond1_1 ⟨0, hn⟩).mp h) (show ¬((0 : ℕ) = 49) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr rfl) (fun h => absurd ((hcond1_1 ⟨0, hn⟩).mp h) (show ¬((0 : ℕ) = 49) from by decide)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h1 : n + 1 = 49 then
      (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

theorem outsAt1_A (c : Dev nD) (t : Fin cfg1.N) (h0 : t.val = 0) (h1 : ¬t.val = 49) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 49) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 49) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6' (c : Dev nD) (t : Fin cfg1.N) : (dat1 V c).after 6 t = (outsAt1 V c t.val t.isLt).1 := by dsimp only [dat1]
theorem after1_7' (c : Dev nD) (t : Fin cfg1.N) : (dat1 V c).after 7 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val = 0
  · have h1 : ¬t.val = 49 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6']
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold out1_A_6 sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ scover1_A_0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ cover1_A_6
    iexists _; iexact H7
  · by_cases h1 : t.val = 49
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6']
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7']
      rw [outsAt1_C V c t h0 h1]
      unfold out1_C_6 out1_C_7 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ scover1_C_0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ cover1_C_6
      unfold owns; iexists _; isplitr
      swap; · iexact H7
      ipureintro; exact View.read_writes_of_cover _ _ _ _ _ cover1_C_7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6']
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold out1_B_6 sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ scover1_B_0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ cover1_B_6
      iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

theorem hz1 : (![0, 0] : Fin 2 → Nat) = fun _ => 0 := funext fun a => by fin_cases a <;> rfl

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32)

theorem out1_A_6_eq :
    out1_A_6 c i arg1 harg1 arg2 harg2 arg3 harg3 arg4 harg4 arg5 harg5 arg6 harg6 arg7 harg7 arg8 harg8 arg9 harg9 hc0 hc1 x0 x1 x2 x3 x4 x5 = k1_pay3 x2 x3 x0 x1 x4 := by
  unfold out1_A_6
  rw [View.read_writes_eq_canon _ _ _ cover1_A_6]
  unfold kernelRun1_A
  dsimp only
  sl_unfold_words
  rw [View.canon_unit_zero (S := S2000x64) hz1]
  simp only [View.readAt_eq_ld, harg1.read_unread, harg2.read_unread, harg3.read_unread, harg4.read_unread, harg5.read_unread, harg6.read_unread, View.ld_unit_zero (S := S1x64) hz1, View.ld_unit_zero (S := S2000x64) hz1, View.ld_unit_zero (S := S2000x1) hz1, View.ld_unit_zero (S := S512x64) hz1, View.readCov_unit_zero (S := S512x64) _ hz1]

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem out1_B_6_eq :
    out1_B_6 c i arg1 harg1 arg2 harg2 arg3 harg3 arg4 harg4 arg5 harg5 arg6 harg6 arg7 harg7 arg8 harg8 arg9 harg9 hc0 hc1 x0 x1 x2 x3 x4 x5 xs0 = k1_pay3 x2 x3 x0 x1 x4 := by
  unfold out1_B_6
  rw [View.read_writes_eq_canon _ _ _ cover1_B_6]
  unfold kernelRun1_B
  dsimp only
  sl_unfold_words
  rw [View.canon_unit_zero (S := S2000x64) hz1]
  simp only [View.readAt_eq_ld, harg1.read_unread, harg2.read_unread, harg3.read_unread, harg4.read_unread, harg5.read_unread, harg6.read_unread, harg9.read_unread, View.ld_unit_zero (S := S1x64) hz1, View.ld_unit_zero (S := S2000x64) hz1, View.ld_unit_zero (S := S2000x1) hz1, View.ld_unit_zero (S := S512x64) hz1, View.readCov_unit_zero (S := S512x64) _ hz1]

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem out1_C_6_eq :
    out1_C_6 c i arg1 harg1 arg2 harg2 arg3 harg3 arg4 harg4 arg5 harg5 arg6 harg6 arg7 harg7 arg8 harg8 arg9 harg9 hc0 hc1 x0 x1 x2 x3 x4 x5 xs0 = k1_pay3 x2 x3 x0 x1 x4 := by
  unfold out1_C_6
  rw [View.read_writes_eq_canon _ _ _ cover1_C_6]
  unfold kernelRun1_C
  dsimp only
  sl_unfold_words
  rw [View.canon_unit_zero (S := S2000x64) hz1]
  simp only [View.readAt_eq_ld, harg1.read_unread, harg2.read_unread, harg3.read_unread, harg4.read_unread, harg5.read_unread, harg6.read_unread, harg9.read_unread, View.ld_unit_zero (S := S1x64) hz1, View.ld_unit_zero (S := S2000x64) hz1, View.ld_unit_zero (S := S2000x1) hz1, View.ld_unit_zero (S := S512x64) hz1, View.readCov_unit_zero (S := S512x64) _ hz1]

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32)

theorem sout1_A_0_eq :
    sout1_A_0 c i arg1 harg1 arg2 harg2 arg3 harg3 arg4 harg4 arg5 harg5 arg6 harg6 arg7 harg7 arg8 harg8 arg9 harg9 hc0 hc1 x0 x1 x2 x3 x4 x5 = k1_pay1 (k1_pay4 x2 x3 x0 x1 x4 x5 (k1_pay2 (F := F))) := by
  unfold sout1_A_0
  rw [View.read_writes_eq_canon _ _ _ scover1_A_0]
  unfold kernelRun1_A
  dsimp only
  sl_unfold_words
  rw [View.canon_cons_unit_zero (S := S512x64) hz1]
  simp only [View.readAt_eq_ld, harg1.read_unread, harg2.read_unread, harg3.read_unread, harg4.read_unread, harg5.read_unread, harg6.read_unread, View.ld_unit_zero (S := S1x64) hz1, View.ld_unit_zero (S := S2000x64) hz1, View.ld_unit_zero (S := S2000x1) hz1, View.ld_unit_zero (S := S512x64) hz1, View.readCov_unit_zero (S := S512x64) _ hz1]

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : ¬cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem sout1_B_0_eq :
    sout1_B_0 c i arg1 harg1 arg2 harg2 arg3 harg3 arg4 harg4 arg5 harg5 arg6 harg6 arg7 harg7 arg8 harg8 arg9 harg9 hc0 hc1 x0 x1 x2 x3 x4 x5 xs0 = k1_pay1 (k1_pay4 x2 x3 x0 x1 x4 x5 xs0) := by
  unfold sout1_B_0
  rw [View.read_writes_eq_canon _ _ _ scover1_B_0]
  unfold kernelRun1_B
  dsimp only
  sl_unfold_words
  rw [View.canon_unit_zero (S := S512x64) hz1]
  simp only [View.readAt_eq_ld, harg1.read_unread, harg2.read_unread, harg3.read_unread, harg4.read_unread, harg5.read_unread, harg6.read_unread, harg9.read_unread, View.ld_unit_zero (S := S1x64) hz1, View.ld_unit_zero (S := S2000x64) hz1, View.ld_unit_zero (S := S2000x1) hz1, View.ld_unit_zero (S := S512x64) hz1, View.readCov_unit_zero (S := S512x64) _ hz1]

end

section
variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond1_0 i) (hc1 : cond1_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem sout1_C_0_eq :
    sout1_C_0 c i arg1 harg1 arg2 harg2 arg3 harg3 arg4 harg4 arg5 harg5 arg6 harg6 arg7 harg7 arg8 harg8 arg9 harg9 hc0 hc1 x0 x1 x2 x3 x4 x5 xs0 = k1_pay1 (k1_pay4 x2 x3 x0 x1 x4 x5 xs0) := by
  unfold sout1_C_0
  rw [View.read_writes_eq_canon _ _ _ scover1_C_0]
  unfold kernelRun1_C
  dsimp only
  sl_unfold_words
  rw [View.canon_unit_zero (S := S512x64) hz1]
  simp only [View.readAt_eq_ld, harg1.read_unread, harg2.read_unread, harg3.read_unread, harg4.read_unread, harg5.read_unread, harg6.read_unread, harg9.read_unread, View.ld_unit_zero (S := S1x64) hz1, View.ld_unit_zero (S := S2000x64) hz1, View.ld_unit_zero (S := S2000x1) hz1, View.ld_unit_zero (S := S512x64) hz1, View.readCov_unit_zero (S := S512x64) _ hz1]

theorem out1_C_7_eq :
    out1_C_7 c i arg1 harg1 arg2 harg2 arg3 harg3 arg4 harg4 arg5 harg5 arg6 harg6 arg7 harg7 arg8 harg8 arg9 harg9 hc0 hc1 x0 x1 x2 x3 x4 x5 xs0 = k1_pay1 (k1_pay4 x2 x3 x0 x1 x4 x5 xs0) := by
  unfold out1_C_7
  rw [View.read_writes_eq_canon _ _ _ cover1_C_7]
  unfold kernelRun1_C
  dsimp only
  sl_unfold_words
  rw [View.canon_unit_zero (S := S512x64) hz1]
  simp only [View.readAt_eq_ld, harg1.read_unread, harg2.read_unread, harg3.read_unread, harg4.read_unread, harg5.read_unread, harg6.read_unread, harg9.read_unread, View.ld_unit_zero (S := S1x64) hz1, View.ld_unit_zero (S := S2000x64) hz1, View.ld_unit_zero (S := S2000x1) hz1, View.ld_unit_zero (S := S512x64) hz1, View.readCov_unit_zero (S := S512x64) _ hz1]

end

def scAt1 (c : Dev nD) : (n : Nat) → n < cfg1.N → Vec F S512x64 .f32 := fun n hn => (outsAt1 V c n hn).2.2

theorem after1_6 (c : Dev nD) (t : Fin cfg1.N) :
    (dat1 V c).after 6 t = k1_pay3 (iblk1 V c 2 t) (iblk1 V c 3 t) (iblk1 V c 0 t) (iblk1 V c 1 t) (iblk1 V c 4 t) := by
  rw [after1_6']
  have hN : t.val < 50 := lt_of_lt_of_eq t.isLt (show cfg1.N = 50 from N_1)
  by_cases h0 : t.val = 0
  · have h1 : ¬t.val = 49 := by omega
    rw [outsAt1_A V c t h0 h1]; dsimp only
    exact out1_A_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
  · by_cases h1 : t.val = 49
    · rw [outsAt1_C V c t h0 h1]; dsimp only
      exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2
    · rw [outsAt1_B V c t h0 h1]; dsimp only
      exact out1_B_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2

theorem scAt1_first (c : Dev nD) (t : Fin cfg1.N) (h0 : t.val = 0) :
    scAt1 V c t.val t.isLt = k1_pay1 (k1_pay4 (iblk1 V c 2 t) (iblk1 V c 3 t) (iblk1 V c 0 t) (iblk1 V c 1 t) (iblk1 V c 4 t) (iblk1 V c 5 t) (k1_pay2 (F := F))) := by
  unfold scAt1
  have hN : t.val < 50 := lt_of_lt_of_eq t.isLt (show cfg1.N = 50 from N_1)
  have h1 : ¬t.val = 49 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

theorem scAt1_later (c : Dev nD) (t : Fin cfg1.N) (h0 : ¬t.val = 0) :
    scAt1 V c t.val t.isLt = k1_pay1 (k1_pay4 (iblk1 V c 2 t) (iblk1 V c 3 t) (iblk1 V c 0 t) (iblk1 V c 1 t) (iblk1 V c 4 t) (iblk1 V c 5 t) (scAt1 V c (t.val - 1) (Nat.lt_of_le_of_lt (Nat.sub_le _ _) t.isLt))) := by
  unfold scAt1
  by_cases h1 : t.val = 49
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2

theorem scAt1_zero (c : Dev nD) (h : 0 < cfg1.N) :
    scAt1 V c 0 h = k1_pay1 (k1_pay4 (iblk1 V c 2 ⟨0, h⟩) (iblk1 V c 3 ⟨0, h⟩) (iblk1 V c 0 ⟨0, h⟩) (iblk1 V c 1 ⟨0, h⟩) (iblk1 V c 4 ⟨0, h⟩) (iblk1 V c 5 ⟨0, h⟩) (k1_pay2 (F := F))) :=
  scAt1_first V c ⟨0, h⟩ rfl

theorem scAt1_succ (c : Dev nD) (n : Nat) (h : n + 1 < cfg1.N) :
    scAt1 V c (n + 1) h = k1_pay1 (k1_pay4 (iblk1 V c 2 ⟨n + 1, h⟩) (iblk1 V c 3 ⟨n + 1, h⟩) (iblk1 V c 0 ⟨n + 1, h⟩) (iblk1 V c 1 ⟨n + 1, h⟩) (iblk1 V c 4 ⟨n + 1, h⟩) (iblk1 V c 5 ⟨n + 1, h⟩) (scAt1 V c n (Nat.lt_of_succ_lt h))) :=
  scAt1_later V c ⟨n + 1, h⟩ (Nat.succ_ne_zero n)

theorem after1_7_last (c : Dev nD) (t : Fin cfg1.N) (ht : t.val = 49) :
    (dat1 V c).after 7 t = scAt1 V c t.val t.isLt := by
  rw [after1_7']; unfold scAt1
  have h0 : ¬t.val = 0 := by omega
  have h1 : t.val = 49 := ht
  rw [outsAt1_C V c t h0 h1]; dsimp only
  exact (out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2).trans
    (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2).symm

end Cert.KernelIdeal.Fr

end
-- ==== Proof.KI_R2Runs.lean ====
/- A perceptron region's body run to its end in each of its three control cases (first grid point, a middle one, the last), over arbitrary whole buffers. -/
import proofs.«406896_j45226005626971_1_alg».proof.Proof.KI_LaunchP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

abbrev VO2_6 : View sig .tc .vmem S10000x64 .f32 := (Memref.whole cc2_stg6_0 : Memref sig .tc .vmem S10000x64 .f32).view
abbrev VO2_7 : View sig .tc .vmem S1x64 .f32 := (Memref.whole cc2_stg7_0 : Memref sig .tc .vmem S1x64 .f32).view
abbrev VO2_8 : View sig .tc .vmem S1x64 .f32 := (Memref.whole cc2_stg8_0 : Memref sig .tc .vmem S1x64 .f32).view
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S10000x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
abbrev scM2_0 : Memref sig .tc .vmem S1x64 .f32 := Memref.whole cc2_scratch0
abbrev scM2_1 : Memref sig .tc .vmem S1x64 .f32 := Memref.whole cc2_scratch1
abbrev VS2_0 : View sig .tc .vmem S1x64 .f32 := scM2_0.view
abbrev VS2_1 : View sig .tc .vmem S1x64 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

set_option maxHeartbeats 4000000 in
noncomputable def kernelRun2_A (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i)
    (x0 : Vec F S10000x64 .f32) (x1 : Vec F S10000x64 .f32) (x2 : Vec F S64x64 .f32) (x3 : Vec F S1x64 .f32) (x4 : Vec F S64x64 .f32) (x5 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (xi7 xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

set_option maxHeartbeats 4000000 in
noncomputable def kernelRun2_B (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i)
    (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (xi7 xi8 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

set_option maxHeartbeats 4000000 in
noncomputable def kernelRun2_C (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i)
    (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32) :
    Σ' (L6 : List (View.Piece (Elt F) S10000x64 .f32)) (L7 : List (View.Piece (Elt F) S1x64 .f32)) (L8 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Fr

end
-- ==== Proof.KI_R2Data.lean ====
/- A perceptron region: what each control case leaves in each buffer, the contents after every grid point, and that the body meets its specification at every point. -/
import proofs.«406896_j45226005626971_1_alg».proof.Proof.KI_R2Runs
import proofs.«406896_j45226005626971_1_alg».proof.Proof.KI_RegionsP
import Idealize.ShloMosaic.Lib.Pipeline.RegionsLoop

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i) (x0 : Vec F S10000x64 .f32) (x1 : Vec F S10000x64 .f32) (x2 : Vec F S64x64 .f32) (x3 : Vec F S1x64 .f32) (x4 : Vec F S64x64 .f32) (x5 : Vec F S1x64 .f32)

def out2_A_6 : Vec F S10000x64 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

def out2_A_7 : Vec F S1x64 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

def out2_A_8 : Vec F S1x64 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

def sout2_A_0 : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

def sout2_A_1 : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5}

theorem cover2_A_6 (y : S10000x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S10000x64.size (by sl_kernel_rfl) y

theorem scover2_A_0 (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x64.size (by sl_kernel_rfl) y

theorem scover2_A_1 (y : S1x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x64.size (by sl_kernel_rfl) y

end

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

def out2_B_6 : Vec F S10000x64 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

def out2_B_7 : Vec F S1x64 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

def out2_B_8 : Vec F S1x64 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

def sout2_B_0 : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

def sout2_B_1 : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5 xs0 xs1}

theorem cover2_B_6 (y : S10000x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x64.size (by sl_kernel_rfl) y

theorem scover2_B_0 (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

theorem scover2_B_1 (y : S1x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

end

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

def out2_C_6 : Vec F S10000x64 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

def out2_C_7 : Vec F S1x64 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

def out2_C_8 : Vec F S1x64 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

def sout2_C_0 : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

def sout2_C_1 : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

variable {c i arg1 harg1 arg2 harg2 arg3 harg3 arg4 harg4 arg5 harg5 arg6 harg6 arg7 harg7 arg8 harg8 arg9 harg9 arg10 harg10 arg11 harg11 hc0 hc1 x0 x1 x2 x3 x4 x5 xs0 xs1}

theorem cover2_C_6 (y : S10000x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S10000x64.size (by sl_kernel_rfl) y

theorem cover2_C_7 (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x64.size (by sl_kernel_rfl) y

theorem cover2_C_8 (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x64.size (by sl_kernel_rfl) y

theorem scover2_C_0 (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x64.size (by sl_kernel_rfl) y

theorem scover2_C_1 (y : S1x64.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x64.size (by sl_kernel_rfl) y

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

def outsAt2 (c : Dev nD) : (n : ℕ) → n < cfg2.N → Vec F S10000x64 .f32 × Vec F S1x64 .f32 × Vec F S1x64 .f32 × Vec F S1x64 .f32 × Vec F S1x64 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 10 = 0 then
      if h1 : (n + 1) % 10 = 9 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 10 = 9 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 10 = 0) (h1 : ¬t.val % 10 = 9) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 10 = 0) (h1 : ¬t.val % 10 = 9) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 10 = 0) (h1 : t.val % 10 = 9) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases h0 : t.val % 10 = 0
  · by_cases h1 : t.val % 10 = 9
    · exfalso; omega
    ·
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_A V c t h0 h1]
      unfold out2_A_6 sout2_A_0 sout2_A_1; (try dsimp only)
      by_cases hz : t.val = 0
      ·
        rw [PhiS2_castSucc V c t, PhiS2_zero V c _ _ hz, PhiA2_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover2_A_0
              · unfold owns; iexists _; isplitr
                swap; · iexact HS1
                ipureintro; exact View.read_writes_of_cover _ _ _ _ _ scover2_A_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover2_A_6
        isplitl [H7]; · iexists _; iexact H7
        iexists _; iexact H8
      ·
        rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover2_A_0
              · unfold owns; iexists _; isplitr
                swap; · iexact HS1
                ipureintro; exact View.read_writes_of_cover _ _ _ _ _ scover2_A_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover2_A_6
        isplitl [H7]; · iexists _; iexact H7
        iexists _; iexact H8
  · by_cases h1 : t.val % 10 = 9
    ·
      rw [show (dat2 V c).leavesExact 7 t = owns (c : Thread nD τ) (ms2_7 t) fullShare ((dat2 V c).after 7 t) from by
        unfold Dat.leavesExact; rw [liveAt2_7 t ((hcond2_1 t).mpr h1)], after2_7]
      rw [show (dat2 V c).leavesExact 8 t = owns (c : Thread nD τ) (ms2_8 t) fullShare ((dat2 V c).after 8 t) from by
        unfold Dat.leavesExact; rw [liveAt2_8 t ((hcond2_1 t).mpr h1)], after2_8]
      rw [outsAt2_C V c t h0 h1]
      unfold out2_C_6 out2_C_7 out2_C_8 sout2_C_0 sout2_C_1; (try dsimp only)
      by_cases hz : t.val = 0
      · exfalso; omega
      ·
        rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover2_C_0
              · unfold owns; iexists _; isplitr
                swap; · iexact HS1
                ipureintro; exact View.read_writes_of_cover _ _ _ _ _ scover2_C_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover2_C_6
        isplitl [H7]
        · unfold owns; iexists _; isplitr
          swap; · iexact H7
          ipureintro; exact View.read_writes_of_cover _ _ _ _ _ cover2_C_7
        unfold owns; iexists _; isplitr
        swap; · iexact H8
        ipureintro; exact View.read_writes_of_cover _ _ _ _ _ cover2_C_8
    ·
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold out2_B_6 sout2_B_0 sout2_B_1; (try dsimp only)
      by_cases hz : t.val = 0
      · exfalso; omega
      ·
        rw [PhiS2_castSucc V c t, PhiS2_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ scover2_B_0
              · unfold owns; iexists _; isplitr
                swap; · iexact HS1
                ipureintro; exact View.read_writes_of_cover _ _ _ _ _ scover2_B_1
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ cover2_B_6
        isplitl [H7]; · iexists _; iexact H7
        iexists _; iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout2 (c : Dev nD) : (dat2 V c).Φ (Fin.last cfg2.N) ⊢ (Pipeline.ΦA spec2 c : sProp 𝕄) :=
  Phi_out2 V c _ (by rw [Fin.val_last]; have : cfg2.N = 10 := N_2; omega)

end Cert.KernelIdeal.Fr

end
-- ==== Proof.KI_R3Runs.lean ====
/- A normalise-and-pool region's body run to its end in each of its three control cases, over arbitrary whole buffers. -/
import proofs.«406896_j45226005626971_1_alg».proof.Proof.KI_RegionsP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

abbrev cond3_1 (i : grid3.Coords) : Prop := k3_cond2 i = 1#1
theorem hcond3_1 : ∀ t : Fin cfg3.N, cond3_1 (grid3.coords t) ↔ t.val = 49 :=
  (by decide +kernel : ∀ t : Fin grid3.N, cond3_1 (grid3.coords t) ↔ t.val = 49)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem idleAt3_7_A : ∀ t : Fin cfg3.N, cond3_0 (grid3.coords t) → ¬cond3_1 (grid3.coords t) → cfg3.idle 7 (grid3.coords t) = true := by decide +kernel
theorem noFlush3_7_A : ∀ t : Fin cfg3.N, cond3_0 (grid3.coords t) → ¬cond3_1 (grid3.coords t) → (cfg3.win 7).flush t = false := by decide +kernel
theorem idleAt3_7_B : ∀ t : Fin cfg3.N, ¬cond3_0 (grid3.coords t) → ¬cond3_1 (grid3.coords t) → cfg3.idle 7 (grid3.coords t) = true := by decide +kernel
theorem noFlush3_7_B : ∀ t : Fin cfg3.N, ¬cond3_0 (grid3.coords t) → ¬cond3_1 (grid3.coords t) → (cfg3.win 7).flush t = false := by decide +kernel
theorem liveAt3_7_C : ∀ t : Fin cfg3.N, ¬cond3_0 (grid3.coords t) → cond3_1 (grid3.coords t) → cfg3.idle 7 (grid3.coords t) = false := by decide +kernel

abbrev VO3_6 : View sig .tc .vmem S2000x64 .f32 := (Memref.whole cc3_stg6_0 : Memref sig .tc .vmem S2000x64 .f32).view
abbrev VO3_7 : View sig .tc .vmem S512x64 .f32 := (Memref.whole cc3_stg7_0 : Memref sig .tc .vmem S512x64 .f32).view
abbrev ms3_0 (t : Fin cfg3.N) : Memref sig .tc .vmem S2000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2000x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x64 .f32 := win3_7.stage (cfg3.slots t 7)
abbrev hs3_7 (t : Fin cfg3.N) : (ms3_7 t).IsWhole := hstage3_7 ((cfg3.slots t 7).cast nbuf3_7)
abbrev scM3_0 : Memref sig .tc .vmem S512x64 .f32 := Memref.whole cc3_scratch0
abbrev VS3_0 : View sig .tc .vmem S512x64 .f32 := scM3_0.view

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 1000000 in
noncomputable def kernelRun3_A (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond3_0 i) (hc1 : ¬cond3_1 i)
    (x0 : Vec F S2000x64 .f32) (x1 : Vec F S1x64 .f32) (x2 : Vec F S1x64 .f32) (x3 : Vec F S1x64 .f32) (x4 : Vec F S1x64 .f32) (x5 : Vec F S2000x1 .i32) :
    Σ' (L6 : List (View.Piece (Elt F) S2000x64 .f32)), { LS0 : List (View.Piece (Elt F) S512x64 .f32) //
      ∀ (xi7 : Vec F S512x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 1000000 in
noncomputable def kernelRun3_B (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : ¬cond3_1 i)
    (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32) :
    Σ' (L6 : List (View.Piece (Elt F) S2000x64 .f32)), { LS0 : List (View.Piece (Elt F) S512x64 .f32) //
      ∀ (xi7 : Vec F S512x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8 arg9 harg9) K } := by
  refine ⟨?_, ?_, fun xi7 E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

set_option maxHeartbeats 1000000 in
noncomputable def kernelRun3_C (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : cond3_1 i)
    (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32) :
    Σ' (L6 : List (View.Piece (Elt F) S2000x64 .f32)) (L7 : List (View.Piece (Elt F) S512x64 .f32)), { LS0 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fr

end
-- ==== Proof.KI_R3Data.lean ====
/- A normalise-and-pool region: what each control case leaves in each buffer, as the body's arithmetic of the point's blocks; the contents after every grid point; and that the body meets its specification at every point. -/
import proofs.«406896_j45226005626971_1_alg».proof.Proof.KI_RegionsP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«406896_j45226005626971_1_alg».proof.Proof.KI_R3Runs
import Idealize.ShloMosaic.Lib.Pipeline.Value

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32)

def out3_A_6 : Vec F S2000x64 .f32 :=
  VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4 x5).1)

def sout3_A_0 : Vec F S512x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4 x5).2.1)

variable {c i arg1 harg1 arg2 harg2 arg3 harg3 arg4 harg4 arg5 harg5 arg6 harg6 arg7 harg7 arg8 harg8 arg9 harg9 hc0 hc1 x0 x1 x2 x3 x4 x5}

theorem cover3_A_6 (y : S2000x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).1 S2000x64.size (by sl_kernel_rfl) y

theorem scover3_A_0 (y : S512x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5).2.1 S512x64.size (by sl_kernel_rfl) y

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

def out3_B_6 : Vec F S2000x64 .f32 :=
  VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 x5 xs0).1)

def sout3_B_0 : Vec F S512x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 x5 xs0).2.1)

variable {c i arg1 harg1 arg2 harg2 arg3 harg3 arg4 harg4 arg5 harg5 arg6 harg6 arg7 harg7 arg8 harg8 arg9 harg9 hc0 hc1 x0 x1 x2 x3 x4 x5 xs0}

theorem cover3_B_6 (y : S2000x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).1 S2000x64.size (by sl_kernel_rfl) y

theorem scover3_B_0 (y : S512x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 xs0).2.1 S512x64.size (by sl_kernel_rfl) y

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

def out3_C_6 : Vec F S2000x64 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 x5 xs0).1)

def sout3_C_0 : Vec F S512x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 x5 xs0).2.2.1)

def out3_C_7 : Vec F S512x64 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 hc0 hc1 x0 x1 x2 x3 x4 x5 xs0).2.1)

variable {c i arg1 harg1 arg2 harg2 arg3 harg3 arg4 harg4 arg5 harg5 arg6 harg6 arg7 harg7 arg8 harg8 arg9 harg9 hc0 hc1 x0 x1 x2 x3 x4 x5 xs0}

theorem cover3_C_6 (y : S2000x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).1 S2000x64.size (by sl_kernel_rfl) y

theorem scover3_C_0 (y : S512x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.2.1 S512x64.size (by sl_kernel_rfl) y

theorem cover3_C_7 (y : S512x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 xs0).2.1 S512x64.size (by sl_kernel_rfl) y

end

def outsAt3 (c : Dev nD) : (n : ℕ) → n < cfg3.N → Vec F S2000x64 .f32 × Vec F S512x64 .f32 × Vec F S512x64 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr rfl) (fun h => absurd ((hcond3_1 ⟨0, hn⟩).mp h) (show ¬((0 : ℕ) = 49) from by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr rfl) (fun h => absurd ((hcond3_1 ⟨0, hn⟩).mp h) (show ¬((0 : ℕ) = 49) from by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr rfl) (fun h => absurd ((hcond3_1 ⟨0, hn⟩).mp h) (show ¬((0 : ℕ) = 49) from by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h1 : n + 1 = 49 then
      (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)
    else
      (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => absurd ((hcond3_0 ⟨n + 1, hn⟩).mp h) (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)

theorem outsAt3_A (c : Dev nD) (t : Fin cfg3.N) (h0 : t.val = 0) (h1 : ¬t.val = 49) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact absurd h0 (Nat.succ_ne_zero n)

theorem outsAt3_B (c : Dev nD) (t : Fin cfg3.N) (h0 : ¬t.val = 0) (h1 : ¬t.val = 49) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt3_C (c : Dev nD) (t : Fin cfg3.N) (h0 : ¬t.val = 0) (h1 : t.val = 49) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact absurd rfl h0
  | succ n => exact (dif_pos h1).trans rfl

def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6' (c : Dev nD) (t : Fin cfg3.N) : (dat3 V c).after 6 t = (outsAt3 V c t.val t.isLt).1 := by dsimp only [dat3]
theorem after3_7' (c : Dev nD) (t : Fin cfg3.N) : (dat3 V c).after 7 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 50 := lt_of_lt_of_eq t.isLt (show cfg3.N = 50 from N_3)
  by_cases h0 : t.val = 0
  · have h1 : ¬t.val = 49 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [show (dat3 V c).leavesExact 5 t = owns (c : Thread nD τ) (ms3_5 t) fullShare ((dat3 V c).after 5 t) from by
      unfold Dat.leavesExact; rw [liveAt3_5 t], after3_5]
    rw [show (dat3 V c).leavesExact 6 t = owns (c : Thread nD τ) (ms3_6 t) fullShare ((dat3 V c).after 6 t) from by
      unfold Dat.leavesExact; rw [liveAt3_6 t], after3_6']
    rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
    rw [outsAt3_A V c t h0 h1]
    unfold out3_A_6 sout3_A_0; (try dsimp only)
    rw [PhiS3_castSucc V c t, PhiS3_zero V c _ _ h0, PhiA3_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ scover3_A_0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ cover3_A_6
    iexists _; iexact H7
  · by_cases h1 : t.val = 49
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6 t], after3_6']
      rw [show (dat3 V c).leavesExact 7 t = owns (c : Thread nD τ) (ms3_7 t) fullShare ((dat3 V c).after 7 t) from by
        unfold Dat.leavesExact; rw [liveAt3_7_C t (fun h => h0 ((hcond3_0 t).mp h)) ((hcond3_1 t).mpr h1)], after3_7']
      rw [outsAt3_C V c t h0 h1]
      unfold out3_C_6 out3_C_7 sout3_C_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ scover3_C_0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ cover3_C_6
      unfold owns; iexists _; isplitr
      swap; · iexact H7
      ipureintro; exact View.read_writes_of_cover _ _ _ _ _ cover3_C_7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6 t], after3_6']
      rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [outsAt3_B V c t h0 h1]
      unfold out3_B_6 sout3_B_0; (try dsimp only)
      rw [PhiS3_castSucc V c t, PhiS3_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ scover3_B_0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ cover3_B_6
      iexists _; iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ (Pipeline.ΦA spec3 c : sProp 𝕄) :=
  Phi_out3 V c _ (by rw [Fin.val_last]; have : cfg3.N = 50 := N_3; omega)

theorem hz3 : (![0, 0] : Fin 2 → Nat) = fun _ => 0 := funext fun a => by fin_cases a <;> rfl

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32)

theorem out3_A_6_eq :
    out3_A_6 c i arg1 harg1 arg2 harg2 arg3 harg3 arg4 harg4 arg5 harg5 arg6 harg6 arg7 harg7 arg8 harg8 arg9 harg9 hc0 hc1 x0 x1 x2 x3 x4 x5 = k3_pay3 x2 x3 x0 x1 x4 := by
  unfold out3_A_6
  rw [View.read_writes_eq_canon _ _ _ cover3_A_6]
  unfold kernelRun3_A
  dsimp only
  sl_unfold_words
  rw [View.canon_unit_zero (S := S2000x64) hz3]
  simp only [View.readAt_eq_ld, harg1.read_unread, harg2.read_unread, harg3.read_unread, harg4.read_unread, harg5.read_unread, harg6.read_unread, View.ld_unit_zero (S := S1x64) hz3, View.ld_unit_zero (S := S2000x64) hz3, View.ld_unit_zero (S := S2000x1) hz3, View.ld_unit_zero (S := S512x64) hz3, View.readCov_unit_zero (S := S512x64) _ hz3]

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem out3_B_6_eq :
    out3_B_6 c i arg1 harg1 arg2 harg2 arg3 harg3 arg4 harg4 arg5 harg5 arg6 harg6 arg7 harg7 arg8 harg8 arg9 harg9 hc0 hc1 x0 x1 x2 x3 x4 x5 xs0 = k3_pay3 x2 x3 x0 x1 x4 := by
  unfold out3_B_6
  rw [View.read_writes_eq_canon _ _ _ cover3_B_6]
  unfold kernelRun3_B
  dsimp only
  sl_unfold_words
  rw [View.canon_unit_zero (S := S2000x64) hz3]
  simp only [View.readAt_eq_ld, harg1.read_unread, harg2.read_unread, harg3.read_unread, harg4.read_unread, harg5.read_unread, harg6.read_unread, harg9.read_unread, View.ld_unit_zero (S := S1x64) hz3, View.ld_unit_zero (S := S2000x64) hz3, View.ld_unit_zero (S := S2000x1) hz3, View.ld_unit_zero (S := S512x64) hz3, View.readCov_unit_zero (S := S512x64) _ hz3]

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem out3_C_6_eq :
    out3_C_6 c i arg1 harg1 arg2 harg2 arg3 harg3 arg4 harg4 arg5 harg5 arg6 harg6 arg7 harg7 arg8 harg8 arg9 harg9 hc0 hc1 x0 x1 x2 x3 x4 x5 xs0 = k3_pay3 x2 x3 x0 x1 x4 := by
  unfold out3_C_6
  rw [View.read_writes_eq_canon _ _ _ cover3_C_6]
  unfold kernelRun3_C
  dsimp only
  sl_unfold_words
  rw [View.canon_unit_zero (S := S2000x64) hz3]
  simp only [View.readAt_eq_ld, harg1.read_unread, harg2.read_unread, harg3.read_unread, harg4.read_unread, harg5.read_unread, harg6.read_unread, harg9.read_unread, View.ld_unit_zero (S := S1x64) hz3, View.ld_unit_zero (S := S2000x64) hz3, View.ld_unit_zero (S := S2000x1) hz3, View.ld_unit_zero (S := S512x64) hz3, View.readCov_unit_zero (S := S512x64) _ hz3]

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32)

theorem sout3_A_0_eq :
    sout3_A_0 c i arg1 harg1 arg2 harg2 arg3 harg3 arg4 harg4 arg5 harg5 arg6 harg6 arg7 harg7 arg8 harg8 arg9 harg9 hc0 hc1 x0 x1 x2 x3 x4 x5 = k3_pay1 (k3_pay4 x2 x3 x0 x1 x4 x5 (k3_pay2 (F := F))) := by
  unfold sout3_A_0
  rw [View.read_writes_eq_canon _ _ _ scover3_A_0]
  unfold kernelRun3_A
  dsimp only
  sl_unfold_words
  rw [View.canon_cons_unit_zero (S := S512x64) hz3]
  simp only [View.readAt_eq_ld, harg1.read_unread, harg2.read_unread, harg3.read_unread, harg4.read_unread, harg5.read_unread, harg6.read_unread, View.ld_unit_zero (S := S1x64) hz3, View.ld_unit_zero (S := S2000x64) hz3, View.ld_unit_zero (S := S2000x1) hz3, View.ld_unit_zero (S := S512x64) hz3, View.readCov_unit_zero (S := S512x64) _ hz3]

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : ¬cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem sout3_B_0_eq :
    sout3_B_0 c i arg1 harg1 arg2 harg2 arg3 harg3 arg4 harg4 arg5 harg5 arg6 harg6 arg7 harg7 arg8 harg8 arg9 harg9 hc0 hc1 x0 x1 x2 x3 x4 x5 xs0 = k3_pay1 (k3_pay4 x2 x3 x0 x1 x4 x5 xs0) := by
  unfold sout3_B_0
  rw [View.read_writes_eq_canon _ _ _ scover3_B_0]
  unfold kernelRun3_B
  dsimp only
  sl_unfold_words
  rw [View.canon_unit_zero (S := S512x64) hz3]
  simp only [View.readAt_eq_ld, harg1.read_unread, harg2.read_unread, harg3.read_unread, harg4.read_unread, harg5.read_unread, harg6.read_unread, harg9.read_unread, View.ld_unit_zero (S := S1x64) hz3, View.ld_unit_zero (S := S2000x64) hz3, View.ld_unit_zero (S := S2000x1) hz3, View.ld_unit_zero (S := S512x64) hz3, View.readCov_unit_zero (S := S512x64) _ hz3]

end

section
variable (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x1 .i32) (harg6 : arg6.IsWhole) (arg7 : Memref sig .tc .vmem S2000x64 .f32) (harg7 : arg7.IsWhole) (arg8 : Memref sig .tc .vmem S512x64 .f32) (harg8 : arg8.IsWhole) (arg9 : Memref sig .tc .vmem S512x64 .f32) (harg9 : arg9.IsWhole) (hc0 : ¬cond3_0 i) (hc1 : cond3_1 i) (x0 : Vec F S2000x64 .f32) (x1 : Vec F S1x64 .f32) (x2 : Vec F S1x64 .f32) (x3 : Vec F S1x64 .f32) (x4 : Vec F S1x64 .f32) (x5 : Vec F S2000x1 .i32) (xs0 : Vec F S512x64 .f32)

theorem sout3_C_0_eq :
    sout3_C_0 c i arg1 harg1 arg2 harg2 arg3 harg3 arg4 harg4 arg5 harg5 arg6 harg6 arg7 harg7 arg8 harg8 arg9 harg9 hc0 hc1 x0 x1 x2 x3 x4 x5 xs0 = k3_pay1 (k3_pay4 x2 x3 x0 x1 x4 x5 xs0) := by
  unfold sout3_C_0
  rw [View.read_writes_eq_canon _ _ _ scover3_C_0]
  unfold kernelRun3_C
  dsimp only
  sl_unfold_words
  rw [View.canon_unit_zero (S := S512x64) hz3]
  simp only [View.readAt_eq_ld, harg1.read_unread, harg2.read_unread, harg3.read_unread, harg4.read_unread, harg5.read_unread, harg6.read_unread, harg9.read_unread, View.ld_unit_zero (S := S1x64) hz3, View.ld_unit_zero (S := S2000x64) hz3, View.ld_unit_zero (S := S2000x1) hz3, View.ld_unit_zero (S := S512x64) hz3, View.readCov_unit_zero (S := S512x64) _ hz3]

theorem out3_C_7_eq :
    out3_C_7 c i arg1 harg1 arg2 harg2 arg3 harg3 arg4 harg4 arg5 harg5 arg6 harg6 arg7 harg7 arg8 harg8 arg9 harg9 hc0 hc1 x0 x1 x2 x3 x4 x5 xs0 = k3_pay1 (k3_pay4 x2 x3 x0 x1 x4 x5 xs0) := by
  unfold out3_C_7
  rw [View.read_writes_eq_canon _ _ _ cover3_C_7]
  unfold kernelRun3_C
  dsimp only
  sl_unfold_words
  rw [View.canon_unit_zero (S := S512x64) hz3]
  simp only [View.readAt_eq_ld, harg1.read_unread, harg2.read_unread, harg3.read_unread, harg4.read_unread, harg5.read_unread, harg6.read_unread, harg9.read_unread, View.ld_unit_zero (S := S1x64) hz3, View.ld_unit_zero (S := S2000x64) hz3, View.ld_unit_zero (S := S2000x1) hz3, View.ld_unit_zero (S := S512x64) hz3, View.readCov_unit_zero (S := S512x64) _ hz3]

end

def scAt3 (c : Dev nD) : (n : Nat) → n < cfg3.N → Vec F S512x64 .f32 := fun n hn => (outsAt3 V c n hn).2.2

theorem after3_6 (c : Dev nD) (t : Fin cfg3.N) :
    (dat3 V c).after 6 t = k3_pay3 (iblk3 V c 2 t) (iblk3 V c 3 t) (iblk3 V c 0 t) (iblk3 V c 1 t) (iblk3 V c 4 t) := by
  rw [after3_6']
  have hN : t.val < 50 := lt_of_lt_of_eq t.isLt (show cfg3.N = 50 from N_3)
  by_cases h0 : t.val = 0
  · have h1 : ¬t.val = 49 := by omega
    rw [outsAt3_A V c t h0 h1]; dsimp only
    exact out3_A_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)
  · by_cases h1 : t.val = 49
    · rw [outsAt3_C V c t h0 h1]; dsimp only
      exact out3_C_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2
    · rw [outsAt3_B V c t h0 h1]; dsimp only
      exact out3_B_6_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2

theorem scAt3_first (c : Dev nD) (t : Fin cfg3.N) (h0 : t.val = 0) :
    scAt3 V c t.val t.isLt = k3_pay1 (k3_pay4 (iblk3 V c 2 t) (iblk3 V c 3 t) (iblk3 V c 0 t) (iblk3 V c 1 t) (iblk3 V c 4 t) (iblk3 V c 5 t) (k3_pay2 (F := F))) := by
  unfold scAt3
  have hN : t.val < 50 := lt_of_lt_of_eq t.isLt (show cfg3.N = 50 from N_3)
  have h1 : ¬t.val = 49 := by omega
  rw [outsAt3_A V c t h0 h1]; dsimp only
  exact sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)

theorem scAt3_later (c : Dev nD) (t : Fin cfg3.N) (h0 : ¬t.val = 0) :
    scAt3 V c t.val t.isLt = k3_pay1 (k3_pay4 (iblk3 V c 2 t) (iblk3 V c 3 t) (iblk3 V c 0 t) (iblk3 V c 1 t) (iblk3 V c 4 t) (iblk3 V c 5 t) (scAt3 V c (t.val - 1) (Nat.lt_of_le_of_lt (Nat.sub_le _ _) t.isLt))) := by
  unfold scAt3
  by_cases h1 : t.val = 49
  · rw [outsAt3_C V c t h0 h1]; dsimp only
    exact sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2
  · rw [outsAt3_B V c t h0 h1]; dsimp only
    exact sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2

theorem scAt3_zero (c : Dev nD) (h : 0 < cfg3.N) :
    scAt3 V c 0 h = k3_pay1 (k3_pay4 (iblk3 V c 2 ⟨0, h⟩) (iblk3 V c 3 ⟨0, h⟩) (iblk3 V c 0 ⟨0, h⟩) (iblk3 V c 1 ⟨0, h⟩) (iblk3 V c 4 ⟨0, h⟩) (iblk3 V c 5 ⟨0, h⟩) (k3_pay2 (F := F))) :=
  scAt3_first V c ⟨0, h⟩ rfl

theorem scAt3_succ (c : Dev nD) (n : Nat) (h : n + 1 < cfg3.N) :
    scAt3 V c (n + 1) h = k3_pay1 (k3_pay4 (iblk3 V c 2 ⟨n + 1, h⟩) (iblk3 V c 3 ⟨n + 1, h⟩) (iblk3 V c 0 ⟨n + 1, h⟩) (iblk3 V c 1 ⟨n + 1, h⟩) (iblk3 V c 4 ⟨n + 1, h⟩) (iblk3 V c 5 ⟨n + 1, h⟩) (scAt3 V c n (Nat.lt_of_succ_lt h))) :=
  scAt3_later V c ⟨n + 1, h⟩ (Nat.succ_ne_zero n)

theorem after3_7_last (c : Dev nD) (t : Fin cfg3.N) (ht : t.val = 49) :
    (dat3 V c).after 7 t = scAt3 V c t.val t.isLt := by
  rw [after3_7']; unfold scAt3
  have h0 : ¬t.val = 0 := by omega
  have h1 : t.val = 49 := ht
  rw [outsAt3_C V c t h0 h1]; dsimp only
  exact (out3_C_7_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2).trans
    (sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2).symm

end Cert.KernelIdeal.Fr

end
-- ==== Proof.KI_Frame.lean ====
/- The launch as one run through its nine items, with the contents at every boundary: the run terminates and no item writes an argument. -/
import proofs.«406896_j45226005626971_1_alg».proof.Proof.KI_R0Data
import proofs.«406896_j45226005626971_1_alg».proof.Proof.KI_R1Data
import proofs.«406896_j45226005626971_1_alg».proof.Proof.KI_R2Data
import proofs.«406896_j45226005626971_1_alg».proof.Proof.KI_R3Data
import proofs.«406896_j45226005626971_1_alg».proof.Proof.KI_RegionsP
import proofs.«406896_j45226005626971_1_alg».proof.Proof.Gen.KernelIdeal.Skeleton
import proofs.«406896_j45226005626971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (⟨m, fun _ => 0, ρ⟩ : MemSt nD τ sig (Elt F)).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_keep (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_keep (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_keep (c : Dev nD) (b : Ref sig .tc) (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_keep (c : Dev nD) (b : Ref sig .tc) (hb : ∀ w, Pipeline.arrRef spec3 w = b → (cfg3.win w).isOut = false) :
    W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (hb w rfl) _).trans (A_eq3 (V7 m ρ) c w))
  · exact W8_of_ne m ρ c b fun w e => h ⟨w, e⟩
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

/-- A reference that no host stretch writes and that no region has as an output keeps its launch contents. -/
theorem W9_keep (c : Dev nD) (b : Ref sig .tc)
    (h0 : b ∉ hostOps0_W) (h1 : b ∉ hostOps1_W) (h2 : b ∉ hostOps2_W) (h3 : b ∉ hostOps3_W) (h4 : b ∉ hostOps4_W)
    (r0 : ∀ w, Pipeline.arrRef spec0 w = b → (cfg0.win w).isOut = false) (r1 : ∀ w, Pipeline.arrRef spec1 w = b → (cfg1.win w).isOut = false)
    (r2 : ∀ w, Pipeline.arrRef spec2 w = b → (cfg2.win w).isOut = false) (r3 : ∀ w, Pipeline.arrRef spec3 w = b → (cfg3.win w).isOut = false) :
    W9 m ρ c (Proc.devRef .tc b) = m ((c : Thread nD τ).loc b) :=
  calc W9 m ρ c (Proc.devRef .tc b)
    _ = W8 m ρ c (Proc.devRef .tc b) := StableHlo.after_of_writes_sub hostOps4 _ hostOps4_writes h4
    _ = W7 m ρ c (Proc.devRef .tc b) := W8_keep m ρ c b r3
    _ = W6 m ρ c (Proc.devRef .tc b) := StableHlo.after_of_writes_sub hostOps3 _ hostOps3_writes h3
    _ = W5 m ρ c (Proc.devRef .tc b) := W6_keep m ρ c b r2
    _ = W4 m ρ c (Proc.devRef .tc b) := StableHlo.after_of_writes_sub hostOps2 _ hostOps2_writes h2
    _ = W3 m ρ c (Proc.devRef .tc b) := W4_keep m ρ c b r1
    _ = W2 m ρ c (Proc.devRef .tc b) := StableHlo.after_of_writes_sub hostOps1 _ hostOps1_writes h1
    _ = W1 m ρ c (Proc.devRef .tc b) := W2_keep m ρ c b r0
    _ = W0 m ρ c (Proc.devRef .tc b) := StableHlo.after_of_writes_sub hostOps0 _ hostOps0_writes h0
    _ = m ((c : Thread nD τ).loc b) := rfl

theorem W9_main_arg0 (c : Dev nD) : W9 m ρ c (Proc.devRef .tc main_arg0) = m ((c : Thread nD τ).loc main_arg0) :=
  W9_keep m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_keep m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_keep m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_keep m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_keep m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_keep m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_keep m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_keep m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_keep m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_keep m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_keep m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_keep m ρ c main_arg11 (by decide) (by decide) (by decide) (by decide) (by decide) (by decide) (by decide) (by decide) (by decide)
theorem W9_main_arg12 (c : Dev nD) : W9 m ρ c (Proc.devRef .tc main_arg12) = m ((c : Thread nD τ).loc main_arg12) :=
  W9_keep m ρ c main_arg12 (by decide) (by decide) (by decide) (by decide) (by decide) (by decide) (by decide) (by decide) (by decide)
theorem W9_main_arg13 (c : Dev nD) : W9 m ρ c (Proc.devRef .tc main_arg13) = m ((c : Thread nD τ).loc main_arg13) :=
  W9_keep m ρ c main_arg13 (by decide) (by decide) (by decide) (by decide) (by decide) (by decide) (by decide) (by decide) (by decide)
theorem W9_main_arg14 (c : Dev nD) : W9 m ρ c (Proc.devRef .tc main_arg14) = m ((c : Thread nD τ).loc main_arg14) :=
  W9_keep m ρ c main_arg14 (by decide) (by decide) (by decide) (by decide) (by decide) (by decide) (by decide) (by decide) (by decide)

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱fr : Variants := Variants.none
abbrev Lfr : GSem nD τ sig → Finset Unit := fun _ => ∅
abbrev lvfr : GSem nD τ sig → Unit → ℕ := fun _ _ => 0
abbrev Rfr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱fr Lfr lvfr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rfr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (W9 m ρ c) ∗ ∃ r, prngReg c r)

set_option backward.isDefEq.respectTransparency.types false in
def reg0 : Pipeline.RegionSeg (pcfgs (F := F)) adm (pdats m ρ) () defs₀ 𝒱fr Lfr lvfr 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ Lfr lvfr 0 fun _ _ => rfl
  pre c := iprop(StableHlo.held (c : Thread nD τ) (Pipeline.ucRefs τ sig) (W1 m ρ c) ∗ Rfr c)
  post c := iprop(StableHlo.held (c : Thread nD τ) (Pipeline.ucRefs τ sig) (W2 m ρ c) ∗ Rfr c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱fr Lfr lvfr 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ Lfr lvfr 1 fun _ _ => rfl
  pre c := iprop(StableHlo.held (c : Thread nD τ) (Pipeline.ucRefs τ sig) (W3 m ρ c) ∗ Rfr c)
  post c := iprop(StableHlo.held (c : Thread nD τ) (Pipeline.ucRefs τ sig) (W4 m ρ c) ∗ Rfr c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱fr Lfr lvfr 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ Lfr lvfr 2 fun _ _ => rfl
  pre c := iprop(StableHlo.held (c : Thread nD τ) (Pipeline.ucRefs τ sig) (W5 m ρ c) ∗ Rfr c)
  post c := iprop(StableHlo.held (c : Thread nD τ) (Pipeline.ucRefs τ sig) (W6 m ρ c) ∗ Rfr c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱fr Lfr lvfr 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ Lfr lvfr 3 fun _ _ => rfl
  pre c := iprop(StableHlo.held (c : Thread nD τ) (Pipeline.ucRefs τ sig) (W7 m ρ c) ∗ Rfr c)
  post c := iprop(StableHlo.held (c : Thread nD τ) (Pipeline.ucRefs τ sig) (W8 m ρ c) ∗ Rfr c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱fr Lfr lvfr) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W9 m ρ c b) :=
  Pipeline.θ_run_regions_kit (pcfgs (F := F)) adm (pdats m ρ) () cellOf_inj emb₁ defs₀ 𝒱fr Lfr lvfr m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rfr c)) (Tₙ := Tfin m ρ)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m ρ c) ∗ Rfr c)
          ⊢ (iprop(Tfin m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO⟩)
    (hinit := by
      refine Pipeline.initEach Lfr lvfr fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c),
    (h c _ (mem_uc main_arg10 (by decide))).trans (W9_main_arg10 m ρ c),
    (h c _ (mem_uc main_arg11 (by decide))).trans (W9_main_arg11 m ρ c),
    (h c _ (mem_uc main_arg12 (by decide))).trans (W9_main_arg12 m ρ c),
    (h c _ (mem_uc main_arg13 (by decide))).trans (W9_main_arg13 m ρ c),
    (h c _ (mem_uc main_arg14 (by decide))).trans (W9_main_arg14 m ρ c)⟩) (run_all m ρ)

end Cert.KernelIdeal.Fr

end
-- ==== Proof.Spec.lean ====
/- Both programs' mathematics on extended reals: two graph layers (neighbour sum, two-layer tanh perceptron, per-feature normalisation over the nodes) and the per-graph row sums of each. -/
import Idealize.ShloMosaic.PureOps.Ideal
import Idealize.ShloMosaic.PureOps.Ideal.Laws

noncomputable section

open scoped BigOperators

namespace Cert.Spec

open Idealize.ShloMosaic

def nN : EReal := Ideal.ofBits .f32 0x47C35000#32
def eps : EReal := Ideal.ofBits .f32 0x3727C5AC#32

variable {N : Nat}

def mlp (X A : Fin N → Fin 64 → EReal) (W1 : Fin 64 → Fin 64 → EReal) (b1 : Fin 64 → EReal)
    (W2 : Fin 64 → Fin 64 → EReal) (b2 : Fin 64 → EReal) (r : Fin N) (d : Fin 64) : EReal :=
  Ideal.tanh ((∑ k : Fin 64, Ideal.tanh ((∑ j : Fin 64, (X r j + A r j) * W1 j k) + b1 k) * W2 k d) + b2 d)

def colsum (H : Fin N → Fin 64 → EReal) (d : Fin 64) : EReal := ∑ r : Fin N, H r d

def mean (H : Fin N → Fin 64 → EReal) (d : Fin 64) : EReal := Ideal.div (colsum H d) nN

def varK (H : Fin N → Fin 64 → EReal) (d : Fin 64) : EReal :=
  Ideal.div (colsum (fun r d => H r d * H r d) d) nN - mean H d * mean H d

def varR (H : Fin N → Fin 64 → EReal) (d : Fin 64) : EReal :=
  Ideal.div (colsum (fun r d => (H r d - mean H d) * (H r d - mean H d)) d) nN

def bnK (H : Fin N → Fin 64 → EReal) (γ β : Fin 64 → EReal) (r : Fin N) (d : Fin 64) : EReal :=
  (H r d - mean H d) * (γ d * Ideal.rsqrt (varK H d + eps)) + β d

def bnR (H : Fin N → Fin 64 → EReal) (γ β : Fin 64 → EReal) (r : Fin N) (d : Fin 64) : EReal :=
  (H r d - mean H d) * Ideal.div (γ d) (Ideal.sqrt (varR H d + eps)) + β d

def pool (Y : Fin N → Fin 64 → EReal) (b : Fin N → BitVec 32) (g : Fin 512) (d : Fin 64) : EReal :=
  ∑ r : Fin N, if (b r).toInt = (g.val : ℤ) then Y r d else 0

def layerK (Agg : (Fin N → Fin 64 → EReal) → (Fin N → Fin 64 → EReal)) (X : Fin N → Fin 64 → EReal)
    (W1 : Fin 64 → Fin 64 → EReal) (b1 : Fin 64 → EReal) (W2 : Fin 64 → Fin 64 → EReal) (b2 γ β : Fin 64 → EReal) :
    Fin N → Fin 64 → EReal :=
  bnK (mlp X (Agg X) W1 b1 W2 b2) γ β

def layerR (Agg : (Fin N → Fin 64 → EReal) → (Fin N → Fin 64 → EReal)) (X : Fin N → Fin 64 → EReal)
    (W1 : Fin 64 → Fin 64 → EReal) (b1 : Fin 64 → EReal) (W2 : Fin 64 → Fin 64 → EReal) (b2 γ β : Fin 64 → EReal) :
    Fin N → Fin 64 → EReal :=
  bnR (mlp X (Agg X) W1 b1 W2 b2) γ β

def sideBySide (P0 P1 : Fin 512 → Fin 64 → EReal) (g : Fin 512) (e : Fin 128) : EReal :=
  if h : e.val < 64 then P0 g ⟨e.val, h⟩ else P1 g ⟨e.val - 64, by have := e.isLt; omega⟩

end Cert.Spec

end
-- ==== Proof.SpecArr.lean ====
/- Curried functions of coordinates and shape-indexed arrays, converted both ways. -/
import proofs.«406896_j45226005626971_1_alg».proof.Proof.Spec
import Idealize.ShloMosaic.Lib.ValueIdx

noncomputable section

namespace Cert.Spec

open Idealize.ShloMosaic Idealize.ShloMosaic.ValueIdx

def cur2 {α : Type} {A B : Nat} (x : (⟨2, ![A, B]⟩ : Shape).Idx → α) (r : Fin A) (d : Fin B) : α := x (ix2 r d)

def cur1 {α : Type} {A : Nat} (x : (⟨1, ![A]⟩ : Shape).Idx → α) (d : Fin A) : α := x (ix1 d)

def unc2 {α : Type} {A B : Nat} (f : Fin A → Fin B → α) : (⟨2, ![A, B]⟩ : Shape).Idx → α := fun i => f (i 0) (i 1)

theorem cur2_unc2 {α : Type} {A B : Nat} (f : Fin A → Fin B → α) : cur2 (unc2 f) = f := rfl

theorem unc2_cur2 {α : Type} {A B : Nat} (x : (⟨2, ![A, B]⟩ : Shape).Idx → α) : unc2 (cur2 x) = x := by
  funext i
  exact congrArg x (eq_ix2 i).symm

theorem unc2_apply {α : Type} {A B : Nat} (f : Fin A → Fin B → α) (r : Fin A) (d : Fin B) : unc2 f (ix2 r d) = f r d := rfl

end Cert.Spec

end
-- ==== Proof.LibIdealReal.lean ====
/- Exact float operations on real operands return the real result: sums, quotients, compares, maxima. -/
import Idealize.ShloMosaic.PureOps.Ideal
import Idealize.ShloMosaic.PureOps.Ideal.Laws

noncomputable section

namespace Idealize.ShloMosaic.IdealReal

open Idealize.ShloMosaic

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul]
  congr 1
  field_simp

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

end Idealize.ShloMosaic.IdealReal

end
-- ==== Proof.SpecLaws.lean ====
/- Why the two spellings of a layer agree: tanh values are real, so the mean of squares minus the squared mean is the mean squared deviation; γ·v^(-1/2) = γ/√v for v > 0; a sum over all rows is the sum of the tile sums. -/
import proofs.«406896_j45226005626971_1_alg».proof.Proof.Spec
import proofs.«406896_j45226005626971_1_alg».proof.Proof.LibIdealReal
import Mathlib.Algebra.BigOperators.Fin
import Mathlib.Algebra.BigOperators.Ring.Finset
import Mathlib.Data.EReal.Operations
import Mathlib.Data.Fintype.BigOperators
import Mathlib.Tactic.FieldSimp
import Mathlib.Tactic.Ring
import Mathlib.Tactic.NormNum
import Mathlib.Tactic.Linarith

noncomputable section

open scoped BigOperators

namespace Cert.Spec

open Idealize.ShloMosaic

theorem tanh_real (y : EReal) : ∃ x : ℝ, Ideal.tanh y = (x : EReal) := by
  induction y using EReal.rec with
  | bot => exact ⟨-1, by rw [Ideal.tanh_bot]; rfl⟩
  | coe r => exact ⟨Real.tanh r, Ideal.tanh_coe r⟩
  | top => exact ⟨1, by rw [Ideal.tanh_top]; rfl⟩

theorem mlp_real {N : Nat} (X A : Fin N → Fin 64 → EReal) (W1 : Fin 64 → Fin 64 → EReal) (b1 : Fin 64 → EReal)
    (W2 : Fin 64 → Fin 64 → EReal) (b2 : Fin 64 → EReal) (r : Fin N) (d : Fin 64) :
    ∃ x : ℝ, mlp X A W1 b1 W2 b2 r d = (x : EReal) :=
  tanh_real _

theorem nN_eq : nN = ((100000 : ℝ) : EReal) := by
  simp [nN, Ideal.ofBits, Ideal.ieee]
  rw [← EReal.coe_mul]
  norm_num

theorem eps_pos : ∃ e : ℝ, 0 < e ∧ eps = (e : EReal) := by
  refine ⟨(2 ^ 23 + 2606508 : ℕ) * (2 : ℝ) ^ ((110 : ℤ) - 127 - 23), by positivity, ?_⟩
  simp [eps, Ideal.ofBits, Ideal.ieee]

theorem real_var_identity (n : ℕ) (hn : (n : ℝ) ≠ 0) (f : Fin n → ℝ) :
    (∑ r, f r * f r) / n - ((∑ r, f r) / n) * ((∑ r, f r) / n)
      = (∑ r, (f r - (∑ r, f r) / n) * (f r - (∑ r, f r) / n)) / n := by
  set S := ∑ r, f r with hS
  have h1 : ∑ r, (f r - S / n) * (f r - S / n)
      = ∑ r, f r * f r - 2 * (S / n) * S + n * ((S / n) * (S / n)) := by
    have h2 : ∀ r, (f r - S / n) * (f r - S / n) = f r * f r - 2 * (S / n) * f r + (S / n) * (S / n) :=
      fun r => by ring
    simp only [h2]
    rw [Finset.sum_add_distrib, Finset.sum_sub_distrib, ← Finset.mul_sum, Finset.sum_const, Finset.card_univ,
      Fintype.card_fin, nsmul_eq_mul]
  rw [h1]
  field_simp
  ring

theorem mean_coe (h : Fin 100000 → Fin 64 → ℝ) (d : Fin 64) :
    mean (fun r d => ((h r d : ℝ) : EReal)) d = (((∑ r, h r d) / 100000 : ℝ) : EReal) := by
  unfold mean colsum
  rw [IdealReal.coe_sum, nN_eq, IdealReal.div_coe_coe _ _ (by norm_num)]

theorem varK_coe (h : Fin 100000 → Fin 64 → ℝ) (d : Fin 64) :
    varK (fun r d => ((h r d : ℝ) : EReal)) d
      = (((∑ r, h r d * h r d) / 100000 - ((∑ r, h r d) / 100000) * ((∑ r, h r d) / 100000) : ℝ) : EReal) := by
  unfold varK
  rw [mean_coe]
  unfold colsum
  simp only [← EReal.coe_mul]
  rw [IdealReal.coe_sum, nN_eq, IdealReal.div_coe_coe _ _ (by norm_num), ← EReal.coe_sub]

theorem varR_coe (h : Fin 100000 → Fin 64 → ℝ) (d : Fin 64) :
    varR (fun r d => ((h r d : ℝ) : EReal)) d
      = (((∑ r, (h r d - (∑ r, h r d) / 100000) * (h r d - (∑ r, h r d) / 100000)) / 100000 : ℝ) : EReal) := by
  unfold varR colsum
  simp only [mean_coe, ← EReal.coe_sub, ← EReal.coe_mul]
  rw [IdealReal.coe_sum, nN_eq, IdealReal.div_coe_coe _ _ (by norm_num)]

theorem varK_eq_varR (H : Fin 100000 → Fin 64 → EReal) (hH : ∀ r d, ∃ x : ℝ, H r d = (x : EReal)) (d : Fin 64) :
    varK H d = varR H d := by
  choose h hh using hH
  obtain rfl : H = fun r d => ((h r d : ℝ) : EReal) := funext fun r => funext fun d => hh r d
  rw [varK_coe, varR_coe]
  congr 1
  have := real_var_identity 100000 (by norm_num) (fun r => h r d)
  exact_mod_cast this

theorem varR_real_nonneg (H : Fin 100000 → Fin 64 → EReal) (hH : ∀ r d, ∃ x : ℝ, H r d = (x : EReal)) (d : Fin 64) :
    ∃ v : ℝ, 0 ≤ v ∧ varR H d = (v : EReal) := by
  choose h hh using hH
  obtain rfl : H = fun r d => ((h r d : ℝ) : EReal) := funext fun r => funext fun d => hh r d
  exact ⟨_, div_nonneg (Finset.sum_nonneg fun _ _ => mul_self_nonneg _) (by norm_num), varR_coe h d⟩

theorem rsqrt_mul_eq_div_sqrt (g : EReal) (v : ℝ) (hv : 0 < v) :
    g * Ideal.rsqrt (v : EReal) = Ideal.div g (Ideal.sqrt (v : EReal)) := by
  have hs : Real.sqrt v ≠ 0 := (Real.sqrt_pos.mpr hv).ne'
  rw [Ideal.rsqrt_coe, Ideal.sqrt_coe, if_neg (not_lt.mpr hv.le), if_neg hv.ne', if_neg (not_lt.mpr hv.le),
    Ideal.div_coe hs, one_div]

theorem bnK_eq_bnR (H : Fin 100000 → Fin 64 → EReal) (hH : ∀ r d, ∃ x : ℝ, H r d = (x : EReal))
    (γ β : Fin 64 → EReal) : bnK H γ β = bnR H γ β := by
  funext r d
  unfold bnK bnR
  obtain ⟨v, hv0, hv⟩ := varR_real_nonneg H hH d
  obtain ⟨e, he0, he⟩ := eps_pos
  rw [varK_eq_varR H hH d, hv, he, ← EReal.coe_add, rsqrt_mul_eq_div_sqrt _ _ (by linarith)]

theorem layerK_eq_layerR (Agg : (Fin 100000 → Fin 64 → EReal) → (Fin 100000 → Fin 64 → EReal))
    (X : Fin 100000 → Fin 64 → EReal) (W1 : Fin 64 → Fin 64 → EReal) (b1 : Fin 64 → EReal)
    (W2 : Fin 64 → Fin 64 → EReal) (b2 γ β : Fin 64 → EReal) :
    layerK Agg X W1 b1 W2 b2 γ β = layerR Agg X W1 b1 W2 b2 γ β :=
  bnK_eq_bnR _ (fun r d => mlp_real X (Agg X) W1 b1 W2 b2 r d) γ β

theorem sum_tiles {T B : Nat} (f : Fin (T * B) → EReal) :
    ∑ r : Fin (T * B), f r
      = ∑ t : Fin T, ∑ q : Fin B, f ⟨t.val * B + q.val, by have := t.isLt; have := q.isLt; nlinarith⟩ := by
  rw [← Fintype.sum_prod_type', ← finProdFinEquiv.sum_comp]
  refine Fintype.sum_congr _ _ fun x => ?_
  congr 1
  ext
  simp only [finProdFinEquiv_apply_val]
  ring

def accUpTo (s : Nat → EReal) : Nat → EReal
  | 0 => 0 + s 0
  | n + 1 => accUpTo s n + s (n + 1)

theorem accUpTo_eq_sum (s : Nat → EReal) (n : Nat) : accUpTo s n = ∑ t ∈ Finset.range (n + 1), s t := by
  induction n with
  | zero => simp [accUpTo]
  | succ n ih => rw [accUpTo, ih, Finset.sum_range_succ _ (n + 1)]

theorem sum_range_eq_sum_fin (s : Nat → EReal) (T : Nat) : ∑ t ∈ Finset.range T, s t = ∑ t : Fin T, s t.val :=
  Finset.sum_range s

theorem word_eq_ofNat_iff (w : BitVec 32) (g : Fin 512) : w = BitVec.ofNat 32 g.val ↔ w.toInt = (g.val : ℤ) := by
  have hg := g.isLt
  have hw := w.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

end Cert.Spec

end
-- ==== Proof.KI_PayB.lean ====
/- The normalise-and-pool body at an index: (h − μ)·(γ·(v+ε)^(-1/2)) + β, and a one-hot product that sums the block's rows by graph id. -/
import proofs.«406896_j45226005626971_1_alg».proof.Proof.Gen.KernelIdeal.Skeleton
import proofs.«406896_j45226005626971_1_alg».proof.Proof.SpecArr
import proofs.«406896_j45226005626971_1_alg».proof.Proof.SpecLaws
import proofs.«406896_j45226005626971_1_alg».proof.Proof.LibIdealReal
import Idealize.ShloMosaic.Lib.ValueIdx
import Idealize.ShloMosaic.Lib.Pipeline.Value
import Idealize.ShloMosaic.PureOps.Ideal.Laws

noncomputable section

open scoped BigOperators

namespace Cert.Spec

open Idealize.ShloMosaic

def norm {N : Nat} (H : Fin N → Fin 64 → EReal) (μ v γ β : Fin 64 → EReal) (r : Fin N) (d : Fin 64) : EReal :=
  (H r d - μ d) * (γ d * Ideal.rsqrt (v d + eps)) + β d

end Cert.Spec

namespace Cert.KernelIdeal.PayB

open Cert.KernelIdeal Cert.KernelIdeal.Gen
open Idealize.ShloMosaic Idealize.ShloMosaic.ValueIdx
open Cert.Spec

theorem bcastRow_apply (v : FVec Ideal S1x64 .f32) (q : Fin 2000) (d : Fin 64) :
    broadcastTo S2000x64 v broadcasts_S1x64_S2000x64 (ix2 q d) = v (ix2 (0 : Fin 1) d) := by
  refine broadcastTo_apply v broadcasts_S1x64_S2000x64 (ix2 q d) (ix2 (0 : Fin 1) d) ?_
  intro a
  match a with
  | ⟨0, _⟩ => rfl
  | ⟨1, _⟩ => rfl

theorem pay3_apply (v3 v8 : FVec Ideal S1x64 .f32) (v11 : FVec Ideal S2000x64 .f32) (v13 v19 : FVec Ideal S1x64 .f32)
    (q : Fin 2000) (d : Fin 64) :
    k1_pay3 (F := Ideal) v3 v8 v11 v13 v19 (ix2 q d)
      = Spec.norm (cur2 v11) (fun k => v13 (ix2 (0 : Fin 1) k)) (fun k => v3 (ix2 (0 : Fin 1) k))
          (fun k => v8 (ix2 (0 : Fin 1) k)) (fun k => v19 (ix2 (0 : Fin 1) k)) q d := by
  unfold k1_pay3 Spec.norm
  simp only [shapeCast_self]
  refine (addf_apply _ _ _).trans ?_
  refine congrArg₂ (· + ·) ?_ (bcastRow_apply v19 q d)
  refine (mulf_apply _ _ _).trans ?_
  refine congrArg₂ (· * ·) ?_ ?_
  · refine (subf_apply _ _ _).trans ?_
    exact congrArg₂ (· - ·) rfl (bcastRow_apply v13 q d)
  · refine (bcastRow_apply _ q d).trans ?_
    rfl

theorem lhs_dotT_0 (i : S512x64.Idx) (q : dot_S2000x512_S2000x64_S512x64_0_0_1_1_n_n.contr.Idx) :
    (dot_S2000x512_S2000x64_S512x64_0_0_1_1_n_n.lhsIdx i q 0).val = (q ⟨0, by decide⟩).val :=
  dot_S2000x512_S2000x64_S512x64_0_0_1_1_n_n.lhsIdx_val_of_single rfl i q

theorem lhs_dotT_1 (i : S512x64.Idx) (q : dot_S2000x512_S2000x64_S512x64_0_0_1_1_n_n.contr.Idx) :
    (dot_S2000x512_S2000x64_S512x64_0_0_1_1_n_n.lhsIdx i q 1).val = (i 0).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl

theorem rhs_dotT_0 (i : S512x64.Idx) (q : dot_S2000x512_S2000x64_S512x64_0_0_1_1_n_n.contr.Idx) :
    (dot_S2000x512_S2000x64_S512x64_0_0_1_1_n_n.rhsIdx i q 0).val = (q ⟨0, by decide⟩).val :=
  dot_S2000x512_S2000x64_S512x64_0_0_1_1_n_n.rhsIdx_val_of_single rfl i q

theorem rhs_dotT_1 (i : S512x64.Idx) (q : dot_S2000x512_S2000x64_S512x64_0_0_1_1_n_n.contr.Idx) :
    (dot_S2000x512_S2000x64_S512x64_0_0_1_1_n_n.rhsIdx i q 1).val = (i 1).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

theorem matT_apply {φ₁ φ₂ : FTy} (L : FVec Ideal S2000x512 φ₁) (R : FVec Ideal S2000x64 φ₂) (g : Fin 512) (d : Fin 64) :
    matmul dot_S2000x512_S2000x64_S512x64_0_0_1_1_n_n none L R (constant (F := Ideal) S512x64 .f32 0x00000000#32) (ix2 g d)
      = ∑ q : Fin 2000, L (ix2 q g) * R (ix2 q d) := by
  show FloatOps.matmul _ none L R _ (ix2 g d) = _
  rw [Ideal.matmul_constant_zero_apply,
    ← Equiv.sum_comp (contrEquiv1 dot_S2000x512_S2000x64_S512x64_0_0_1_1_n_n 2000 rfl rfl).symm]
  refine Finset.sum_congr rfl fun k _ => ?_
  have hk := contrEquiv1_symm_val dot_S2000x512_S2000x64_S512x64_0_0_1_1_n_n 2000 rfl rfl k
  have el : dot_S2000x512_S2000x64_S512x64_0_0_1_1_n_n.lhsIdx (ix2 g d)
      ((contrEquiv1 dot_S2000x512_S2000x64_S512x64_0_0_1_1_n_n 2000 rfl rfl).symm k) = ix2 k g :=
    funext fun a => Fin.ext (by
      match a with
      | ⟨0, _⟩ => exact (lhs_dotT_0 _ _).trans hk
      | ⟨1, _⟩ => exact lhs_dotT_1 _ _)
  have er : dot_S2000x512_S2000x64_S512x64_0_0_1_1_n_n.rhsIdx (ix2 g d)
      ((contrEquiv1 dot_S2000x512_S2000x64_S512x64_0_0_1_1_n_n 2000 rfl rfl).symm k) = ix2 k d :=
    funext fun a => Fin.ext (by
      match a with
      | ⟨0, _⟩ => exact (rhs_dotT_0 _ _).trans hk
      | ⟨1, _⟩ => exact rhs_dotT_1 _ _)
  rw [el, er]

theorem bcastCol_apply (v : IVec S2000x1 32) (q : Fin 2000) (g : Fin 512) :
    broadcastTo S2000x512 v broadcasts_S2000x1_S2000x512 (ix2 q g) = v (ix2 q (0 : Fin 1)) := by
  refine broadcastTo_apply v broadcasts_S2000x1_S2000x512 (ix2 q g) (ix2 q (0 : Fin 1)) ?_
  intro a
  match a with
  | ⟨0, _⟩ => rfl
  | ⟨1, _⟩ => rfl

theorem iotaCol_apply (q : Fin 2000) (g : Fin 512) :
    iota .tc S2000x512 32 [1] iota_S2000x512_d1_w32 (ix2 q g) = BitVec.ofNat 32 g.val :=
  iota_single_apply .tc S2000x512 32 1 iota_S2000x512_d1_w32 (ix2 q g)

theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun h' => absurd h' (by decide), fun h' => absurd h' h⟩

theorem onehot_apply (ids : IVec S2000x1 32) (q : Fin 2000) (g : Fin 512) :
    truncf .bf16 (sitofp (F := Ideal) .f32 (extui 32 (cmpi .eq
        (broadcastTo S2000x512 (shapeCast S2000x1 ids shapeCasts_S2000x1_S2000x1) broadcasts_S2000x1_S2000x512)
        (iota .tc S2000x512 32 [1] iota_S2000x512_d1_w32)) natLt_1_32)) bitsLt_bf16_f32 (ix2 q g)
      = if (ids (ix2 q (0 : Fin 1))).toInt = (g.val : ℤ) then ((1 : ℝ) : EReal) else ((0 : ℝ) : EReal) := by
  rw [shapeCast_self]
  show FloatOps.sitofp (F := Ideal) .f32 ((IntOp.cmpi .eq
      (broadcastTo S2000x512 ids broadcasts_S2000x1_S2000x512 (ix2 q g))
      (iota .tc S2000x512 32 [1] iota_S2000x512_d1_w32 (ix2 q g))).setWidth 32) = _
  rw [IdealReal.sitofp_setWidth_bit, bcastCol_apply, iotaCol_apply]
  exact if_congr ((cmpi_eq_one_iff _ _).trans (word_eq_ofNat_iff _ g)) rfl rfl

theorem pay4_apply (v3 v8 : FVec Ideal S1x64 .f32) (v11 : FVec Ideal S2000x64 .f32) (v13 v19 : FVec Ideal S1x64 .f32)
    (v24 : IVec S2000x1 32) (v34 : FVec Ideal S512x64 .f32) (g : Fin 512) (d : Fin 64) :
    k1_pay4 (F := Ideal) v3 v8 v11 v13 v19 v24 v34 (ix2 g d)
      = v34 (ix2 g d) + ∑ q : Fin 2000, if (v24 (ix2 q (0 : Fin 1))).toInt = (g.val : ℤ)
          then k1_pay3 (F := Ideal) v3 v8 v11 v13 v19 (ix2 q d) else 0 := by
  unfold k1_pay4
  generalize k1_pay3 (F := Ideal) v3 v8 v11 v13 v19 = Y
  refine (addf_apply _ _ _).trans ?_
  refine congrArg (v34 (ix2 g d) + ·) ?_
  refine (matT_apply _ _ g d).trans ?_
  refine Finset.sum_congr rfl fun q _ => ?_
  refine (congrArg₂ (· * ·) (onehot_apply v24 q g) (truncf_apply (ψ := .bf16) Y bitsLt_bf16_f32 (ix2 q d))).trans ?_
  split
  · rw [EReal.coe_one, one_mul]
  · rw [EReal.coe_zero, zero_mul]

theorem pay1_apply (v35 : FVec Ideal S512x64 .f32) : k1_pay1 (F := Ideal) v35 = v35 := by
  unfold k1_pay1
  exact shapeCast_self _ _

theorem pay2_apply (g : Fin 512) (d : Fin 64) : k1_pay2 (F := Ideal) (ix2 g d) = 0 := by
  unfold k1_pay2
  rw [shapeCast_self]
  show Ideal.ofBits .f32 0x00000000#32 = 0
  exact Ideal.ofBits_zero_f32

theorem pay3_apply3 (v3 v8 : FVec Ideal S1x64 .f32) (v11 : FVec Ideal S2000x64 .f32) (v13 v19 : FVec Ideal S1x64 .f32)
    (q : Fin 2000) (d : Fin 64) :
    k3_pay3 (F := Ideal) v3 v8 v11 v13 v19 (ix2 q d)
      = Spec.norm (cur2 v11) (fun k => v13 (ix2 (0 : Fin 1) k)) (fun k => v3 (ix2 (0 : Fin 1) k))
          (fun k => v8 (ix2 (0 : Fin 1) k)) (fun k => v19 (ix2 (0 : Fin 1) k)) q d := by
  unfold k3_pay3 Spec.norm
  simp only [shapeCast_self]
  refine (addf_apply _ _ _).trans ?_
  refine congrArg₂ (· + ·) ?_ (bcastRow_apply v19 q d)
  refine (mulf_apply _ _ _).trans ?_
  refine congrArg₂ (· * ·) ?_ ?_
  · refine (subf_apply _ _ _).trans ?_
    exact congrArg₂ (· - ·) rfl (bcastRow_apply v13 q d)
  · refine (bcastRow_apply _ q d).trans ?_
    rfl

theorem pay4_apply3 (v3 v8 : FVec Ideal S1x64 .f32) (v11 : FVec Ideal S2000x64 .f32) (v13 v19 : FVec Ideal S1x64 .f32)
    (v24 : IVec S2000x1 32) (v34 : FVec Ideal S512x64 .f32) (g : Fin 512) (d : Fin 64) :
    k3_pay4 (F := Ideal) v3 v8 v11 v13 v19 v24 v34 (ix2 g d)
      = v34 (ix2 g d) + ∑ q : Fin 2000, if (v24 (ix2 q (0 : Fin 1))).toInt = (g.val : ℤ)
          then k3_pay3 (F := Ideal) v3 v8 v11 v13 v19 (ix2 q d) else 0 := by
  unfold k3_pay4
  generalize k3_pay3 (F := Ideal) v3 v8 v11 v13 v19 = Y
  refine (addf_apply _ _ _).trans ?_
  refine congrArg (v34 (ix2 g d) + ·) ?_
  refine (matT_apply _ _ g d).trans ?_
  refine Finset.sum_congr rfl fun q _ => ?_
  refine (congrArg₂ (· * ·) (onehot_apply v24 q g) (truncf_apply (ψ := .bf16) Y bitsLt_bf16_f32 (ix2 q d))).trans ?_
  split
  · rw [EReal.coe_one, one_mul]
  · rw [EReal.coe_zero, zero_mul]

theorem pay1_apply3 (v35 : FVec Ideal S512x64 .f32) : k3_pay1 (F := Ideal) v35 = v35 := by
  unfold k3_pay1
  exact shapeCast_self _ _

theorem pay2_apply3 (g : Fin 512) (d : Fin 64) : k3_pay2 (F := Ideal) (ix2 g d) = 0 := by
  unfold k3_pay2
  rw [shapeCast_self]
  show Ideal.ofBits .f32 0x00000000#32 = 0
  exact Ideal.ofBits_zero_f32

end Cert.KernelIdeal.PayB

end
-- ==== Proof.KI_RegionFns.lean ====
/- Each kernel region's outputs as functions of its input arrays. -/
import proofs.«406896_j45226005626971_1_alg».proof.Proof.KI_LaunchP
import proofs.«406896_j45226005626971_1_alg».proof.Proof.KI_PayB
import proofs.«406896_j45226005626971_1_alg».proof.Proof.SpecArr
import Idealize.ShloMosaic.Lib.ValueIdx

noncomputable section

namespace Cert.KernelIdeal.Fr

open Cert.KernelIdeal Cert.KernelIdeal.Gen Cert.KernelIdeal.GenP Cert.Spec
open Idealize.ShloMosaic Idealize.ShloMosaic.TcCoe Idealize.ShloMosaic.ValueIdx

section RegionFns

variable (V : (c : Dev nD) → (b : Ref sig .tc) → Buf (Elt Ideal) ((c : Thread nD τ).loc b))

def H0 (c : Dev nD) : Fin 100000 → Fin 64 → EReal :=
  Spec.mlp (cur2 (V c (Pipeline.arrRef spec0 0))) (cur2 (V c (Pipeline.arrRef spec0 1))) (cur2 (V c (Pipeline.arrRef spec0 2)))
    (fun k => V c (Pipeline.arrRef spec0 3) (ix2 (0 : Fin 1) k)) (cur2 (V c (Pipeline.arrRef spec0 4)))
    (fun k => V c (Pipeline.arrRef spec0 5) (ix2 (0 : Fin 1) k))

def Y1 (c : Dev nD) : Fin 100000 → Fin 64 → EReal :=
  Spec.norm (cur2 (V c (Pipeline.arrRef spec1 0))) (fun k => V c (Pipeline.arrRef spec1 1) (ix2 (0 : Fin 1) k))
    (fun k => V c (Pipeline.arrRef spec1 2) (ix2 (0 : Fin 1) k)) (fun k => V c (Pipeline.arrRef spec1 3) (ix2 (0 : Fin 1) k))
    (fun k => V c (Pipeline.arrRef spec1 4) (ix2 (0 : Fin 1) k))

def H2 (c : Dev nD) : Fin 100000 → Fin 64 → EReal :=
  Spec.mlp (cur2 (V c (Pipeline.arrRef spec2 0))) (cur2 (V c (Pipeline.arrRef spec2 1))) (cur2 (V c (Pipeline.arrRef spec2 2)))
    (fun k => V c (Pipeline.arrRef spec2 3) (ix2 (0 : Fin 1) k)) (cur2 (V c (Pipeline.arrRef spec2 4)))
    (fun k => V c (Pipeline.arrRef spec2 5) (ix2 (0 : Fin 1) k))

def Y3 (c : Dev nD) : Fin 100000 → Fin 64 → EReal :=
  Spec.norm (cur2 (V c (Pipeline.arrRef spec3 0))) (fun k => V c (Pipeline.arrRef spec3 1) (ix2 (0 : Fin 1) k))
    (fun k => V c (Pipeline.arrRef spec3 2) (ix2 (0 : Fin 1) k)) (fun k => V c (Pipeline.arrRef spec3 3) (ix2 (0 : Fin 1) k))
    (fun k => V c (Pipeline.arrRef spec3 4) (ix2 (0 : Fin 1) k))

end RegionFns

end Cert.KernelIdeal.Fr

end
-- ==== Proof.KI_Value.lean ====
/- The kernel program's result is the specification's function of the launch arrays, read back through the nine items of the launch. -/
import proofs.«406896_j45226005626971_1_alg».proof.Proof.KI_Frame
import proofs.«406896_j45226005626971_1_alg».proof.Proof.KI_RegionFns
import proofs.«406896_j45226005626971_1_alg».proof.Proof.KI_PayB
import proofs.«406896_j45226005626971_1_alg».proof.Proof.SpecArr
import proofs.«406896_j45226005626971_1_alg».proof.Proof.SpecLaws
import Idealize.ShloMosaic.Lib.StableHlo.Run
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Fr

open Cert.KernelIdeal Cert.KernelIdeal.Gen Cert.KernelIdeal.GenP Cert.Spec
open Idealize.ShloMosaic Idealize.ShloMosaic.TcCoe Idealize.ShloMosaic.ValueIdx
open Idealize.ShloMosaic.Pipeline (Dat)

def srcK (ei : IVec S2x1000000 32) : IVec S1000000 32 :=
  shapeCast S1000000 (extractStridedSlice S1x1000000 ![0, 0] ei slices_S2x1000000_S1x1000000_0_0)
    shapeCasts_S1x1000000_S1000000

def dstK (ei : IVec S2x1000000 32) : IVec S1000000 32 :=
  shapeCast S1000000 (extractStridedSlice S1x1000000 ![1, 0] ei slices_S2x1000000_S1x1000000_1_0)
    shapeCasts_S1x1000000_S1000000

def srcNK (ei : IVec S2x1000000 32) : IVec S1000000 32 :=
  select
    (cmpi .slt (srcK ei) (broadcastInDim S1000000 ![] bcast_S_S1000000 (constantI S_ 32 0#32)))
    (addi (srcK ei) (broadcastInDim S1000000 ![] bcast_S_S1000000 (constantI S_ 32 100000#32)))
    (srcK ei)

def aggK (x : FVec Ideal S100000x64 .f32) (ei : IVec S2x1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (dstK ei))
    (Host.gather gather_S100000x64_S1000000x1_S1000000x64_1_0_n_n_0_1_164 x
      (broadcastInDim S1000000x1 ![0] bcast_S1000000_S1000000x1_0 (srcNK ei)))

def AggK (ei : IVec S2x1000000 32) : (Fin 100000 → Fin 64 → EReal) → (Fin 100000 → Fin 64 → EReal) :=
  fun X => cur2 (aggK (unc2 X) ei)

def aggOf (x : FVec Ideal S100000x64 .f32) (s d : IVec S1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 x
      (broadcastInDim S1000000x1 ![0] bcast_S1000000_S1000000x1_0
        (select
          (cmpi .slt s (broadcastInDim S1000000 ![] bcast_S_S1000000 (constantI S_ 32 0#32)))
          (addi s (broadcastInDim S1000000 ![] bcast_S_S1000000 (constantI S_ 32 100000#32)))
          s)))

theorem aggK_eq_aggOf (x : FVec Ideal S100000x64 .f32) (ei : IVec S2x1000000 32) :
    aggK x ei = aggOf x (srcK ei) (dstK ei) := rfl

theorem aggOf_congr {x x' : FVec Ideal S100000x64 .f32} {s s' d d' : IVec S1000000 32} (hx : x = x') (hs : s = s') (hd : d = d') :
    aggOf x s d = aggOf x' s' d' := by
  subst hx hs hd; rfl

def meanRow (s : FVec Ideal S1x64 .f32) : FVec Ideal S1x64 .f32 :=
  Host.divf s (broadcastInDim S1x64 ![] bcast_S_S1x64 (constant (F := Ideal) S_ .f32 0x47C35000#32))

def varRow (s q : FVec Ideal S1x64 .f32) : FVec Ideal S1x64 .f32 :=
  subf (meanRow q) (mulf (meanRow s) (meanRow s))

section Host

variable (U : Valuation τ sig (Elt Ideal))

theorem host0_v1 : StableHlo.after (hostOps0 (F := Ideal)) U (Proc.devRef .tc main_v1)
    = srcK (U (Proc.devRef .tc main_arg13)) := by
  after_results
  rfl

theorem host0_v3 : StableHlo.after (hostOps0 (F := Ideal)) U (Proc.devRef .tc main_v3)
    = dstK (U (Proc.devRef .tc main_arg13)) := by
  after_results
  rfl

theorem host0_v4 : StableHlo.after (hostOps0 (F := Ideal)) U (Proc.devRef .tc main_v4)
    = shapeCast S100000x1 (U (Proc.devRef .tc main_arg14) : IVec S100000 32) shapeCasts_S100000_S100000x1 := by
  after_results
  rfl

set_option maxHeartbeats 4000000 in
theorem host0_v14 : StableHlo.after (hostOps0 (F := Ideal)) U (Proc.devRef .tc main_v14)
    = aggK (U (Proc.devRef .tc main_arg0)) (U (Proc.devRef .tc main_arg13)) := by
  after_results_simp
  rfl

theorem host0_v15 : StableHlo.after (hostOps0 (F := Ideal)) U (Proc.devRef .tc main_v15)
    = shapeCast S1x64 (U (Proc.devRef .tc main_arg2) : FVec Ideal S64 .f32) shapeCasts_S64_S1x64 := by
  after_results
  rfl

theorem host0_v16 : StableHlo.after (hostOps0 (F := Ideal)) U (Proc.devRef .tc main_v16)
    = shapeCast S1x64 (U (Proc.devRef .tc main_arg4) : FVec Ideal S64 .f32) shapeCasts_S64_S1x64 := by
  after_results
  rfl

theorem host0_v17 : StableHlo.after (hostOps0 (F := Ideal)) U (Proc.devRef .tc main_v17)
    = shapeCast S1x64 (U (Proc.devRef .tc main_arg5) : FVec Ideal S64 .f32) shapeCasts_S64_S1x64 := by
  after_results
  rfl

theorem host0_v18 : StableHlo.after (hostOps0 (F := Ideal)) U (Proc.devRef .tc main_v18)
    = shapeCast S1x64 (U (Proc.devRef .tc main_arg6) : FVec Ideal S64 .f32) shapeCasts_S64_S1x64 := by
  after_results
  rfl

theorem host1_v21 : StableHlo.after (hostOps1 (F := Ideal)) U (Proc.devRef .tc main_v21)
    = meanRow (U (Proc.devRef .tc main_v19_1)) := by
  after_results
  rfl

theorem host1_v25 : StableHlo.after (hostOps1 (F := Ideal)) U (Proc.devRef .tc main_v25)
    = varRow (U (Proc.devRef .tc main_v19_1)) (U (Proc.devRef .tc main_v19_2)) := by
  after_results
  rfl

set_option maxHeartbeats 4000000 in
theorem host2_v36 : StableHlo.after (hostOps2 (F := Ideal)) U (Proc.devRef .tc main_v36)
    = aggOf (U (Proc.devRef .tc main_v26_0)) (U (Proc.devRef .tc main_v1)) (U (Proc.devRef .tc main_v3)) := by
  after_results_simp
  rfl

theorem host2_v37 : StableHlo.after (hostOps2 (F := Ideal)) U (Proc.devRef .tc main_v37)
    = shapeCast S1x64 (U (Proc.devRef .tc main_arg8) : FVec Ideal S64 .f32) shapeCasts_S64_S1x64 := by
  after_results
  rfl

theorem host2_v38 : StableHlo.after (hostOps2 (F := Ideal)) U (Proc.devRef .tc main_v38)
    = shapeCast S1x64 (U (Proc.devRef .tc main_arg10) : FVec Ideal S64 .f32) shapeCasts_S64_S1x64 := by
  after_results
  rfl

theorem host2_v39 : StableHlo.after (hostOps2 (F := Ideal)) U (Proc.devRef .tc main_v39)
    = shapeCast S1x64 (U (Proc.devRef .tc main_arg11) : FVec Ideal S64 .f32) shapeCasts_S64_S1x64 := by
  after_results
  rfl

theorem host2_v40 : StableHlo.after (hostOps2 (F := Ideal)) U (Proc.devRef .tc main_v40)
    = shapeCast S1x64 (U (Proc.devRef .tc main_arg12) : FVec Ideal S64 .f32) shapeCasts_S64_S1x64 := by
  after_results
  rfl

theorem host3_v43 : StableHlo.after (hostOps3 (F := Ideal)) U (Proc.devRef .tc main_v43)
    = meanRow (U (Proc.devRef .tc main_v41_1)) := by
  after_results
  rfl

theorem host3_v47 : StableHlo.after (hostOps3 (F := Ideal)) U (Proc.devRef .tc main_v47)
    = varRow (U (Proc.devRef .tc main_v41_1)) (U (Proc.devRef .tc main_v41_2)) := by
  after_results
  rfl

theorem host4_v49 : StableHlo.after (hostOps4 (F := Ideal)) U (Proc.devRef .tc main_v49)
    = concatenate S512x128 1 [⟨S512x64, (U (Proc.devRef .tc main_v26_1) : FVec Ideal S512x64 .f32)⟩,
        ⟨S512x64, (U (Proc.devRef .tc main_v48_1) : FVec Ideal S512x64 .f32)⟩] concatenates_S512x64_S512x64_S512x128_d1 := by
  after_results

end Host

theorem row_apply (v : FVec Ideal S64 .f32) (k : Fin 64) :
    shapeCast S1x64 v shapeCasts_S64_S1x64 (ix2 (0 : Fin 1) k) = v (ix1 k) :=
  shapeCast_a_1a_apply v shapeCasts_S64_S1x64 0 k

theorem col_apply (b : IVec S100000 32) (r : Fin 100000) :
    shapeCast S100000x1 b shapeCasts_S100000_S100000x1 (ix2 r (0 : Fin 1)) = b (ix1 r) :=
  shapeCast_apply b shapeCasts_S100000_S100000x1 (ix2 r (0 : Fin 1)) (ix1 r) (by
    rw [Shape.rowMajor_val_two, Shape.rowMajor_val_one]
    show r.val = r.val * 1 + 0
    omega)

theorem meanRow_apply (s : FVec Ideal S1x64 .f32) (k : Fin 64) :
    meanRow s (ix2 (0 : Fin 1) k) = Ideal.div (s (ix2 (0 : Fin 1) k)) Spec.nN := by
  unfold meanRow Spec.nN
  rw [hostDivf_apply, broadcastInDim_scalar_apply, constant_apply]

theorem varRow_apply (s q : FVec Ideal S1x64 .f32) (k : Fin 64) :
    varRow s q (ix2 (0 : Fin 1) k)
      = Ideal.div (q (ix2 (0 : Fin 1) k)) Spec.nN
        - Ideal.div (s (ix2 (0 : Fin 1) k)) Spec.nN * Ideal.div (s (ix2 (0 : Fin 1) k)) Spec.nN := by
  unfold varRow
  rw [subf_apply, mulf_apply, meanRow_apply, meanRow_apply]

theorem meanRow_colsum (H : Fin 100000 → Fin 64 → EReal) (k : Fin 64) :
    meanRow (unc2 (fun (_ : Fin 1) d => Spec.colsum H d)) (ix2 (0 : Fin 1) k) = Spec.mean H k := by
  rw [meanRow_apply]
  rfl

theorem varRow_colsum (H : Fin 100000 → Fin 64 → EReal) (k : Fin 64) :
    varRow (unc2 (fun (_ : Fin 1) d => Spec.colsum H d))
        (unc2 (fun (_ : Fin 1) d => Spec.colsum (fun r d => H r d * H r d) d)) (ix2 (0 : Fin 1) k)
      = Spec.varK H k := by
  rw [varRow_apply]
  rfl

theorem concat_eq (P0 P1 : FVec Ideal S512x64 .f32) :
    concatenate S512x128 1 [⟨S512x64, P0⟩, ⟨S512x64, P1⟩] concatenates_S512x64_S512x64_S512x128_d1
      = unc2 (Spec.sideBySide (cur2 P0) (cur2 P1)) := by
  funext i
  obtain ⟨g, e, rfl⟩ : ∃ (g : Fin 512) (e : Fin 128), i = ix2 g e := ⟨i 0, i 1, eq_ix2 i⟩
  rw [unc2_apply]
  unfold Spec.sideBySide
  by_cases he : e.val < 64
  · rw [dif_pos he]
    refine (concatenate_pair_apply_left (1 : Fin S512x128.rank) P0 P1 concatenates_S512x64_S512x64_S512x128_d1 (ix2 g e) rfl
      (ix2 g (⟨e.val, he⟩ : Fin 64)) ?_).trans rfl
    intro b
    match b with
    | ⟨0, _⟩ => rfl
    | ⟨1, _⟩ => rfl
  · rw [dif_neg he]
    have he' : e.val - 64 < 64 := by have := e.isLt; omega
    refine (concatenate_pair_apply_right (1 : Fin S512x128.rank) P0 P1 concatenates_S512x64_S512x64_S512x128_d1 (ix2 g e) rfl rfl
      (ix2 g (⟨e.val - 64, he'⟩ : Fin 64)) ?_ ?_).trans rfl
    · intro b
      match b with
      | ⟨0, _⟩ => exact fun _ => rfl
      | ⟨1, _⟩ => exact fun hb => absurd rfl hb
    · show e.val - 64 + 64 = e.val
      omega

theorem mlp_congr {N : Nat} {X X' A A' : Fin N → Fin 64 → EReal} {W1 W1' : Fin 64 → Fin 64 → EReal} {b1 b1' : Fin 64 → EReal}
    {W2 W2' : Fin 64 → Fin 64 → EReal} {b2 b2' : Fin 64 → EReal}
    (hX : X = X') (hA : A = A') (hW1 : W1 = W1') (hb1 : b1 = b1') (hW2 : W2 = W2') (hb2 : b2 = b2') :
    Spec.mlp X A W1 b1 W2 b2 = Spec.mlp X' A' W1' b1' W2' b2' := by
  subst hX hA hW1 hb1 hW2 hb2; rfl

theorem norm_congr {N : Nat} {H H' : Fin N → Fin 64 → EReal} {μ μ' v v' γ γ' β β' : Fin 64 → EReal}
    (hH : H = H') (hμ : μ = μ') (hv : v = v') (hγ : γ = γ') (hβ : β = β') :
    Spec.norm H μ v γ β = Spec.norm H' μ' v' γ' β' := by
  subst hH hμ hv hγ hβ; rfl

structure RegionVals : Prop where
  a0_6 : ∀ (V : (c : Dev nD) → (b : Ref sig .tc) → Buf (Elt Ideal) ((c : Thread nD τ).loc b)) (c : Dev nD),
    (dat0 V c).arrAt 6 cfg0.N = unc2 (H0 V c)
  a0_7 : ∀ (V : (c : Dev nD) → (b : Ref sig .tc) → Buf (Elt Ideal) ((c : Thread nD τ).loc b)) (c : Dev nD),
    (dat0 V c).arrAt 7 cfg0.N = unc2 (fun (_ : Fin 1) d => Spec.colsum (H0 V c) d)
  a0_8 : ∀ (V : (c : Dev nD) → (b : Ref sig .tc) → Buf (Elt Ideal) ((c : Thread nD τ).loc b)) (c : Dev nD),
    (dat0 V c).arrAt 8 cfg0.N = unc2 (fun (_ : Fin 1) d => Spec.colsum (fun r d => H0 V c r d * H0 V c r d) d)
  a1_6 : ∀ (V : (c : Dev nD) → (b : Ref sig .tc) → Buf (Elt Ideal) ((c : Thread nD τ).loc b)) (c : Dev nD),
    (dat1 V c).arrAt 6 cfg1.N = unc2 (Y1 V c)
  a1_7 : ∀ (V : (c : Dev nD) → (b : Ref sig .tc) → Buf (Elt Ideal) ((c : Thread nD τ).loc b)) (c : Dev nD),
    (dat1 V c).arrAt 7 cfg1.N = unc2 (Spec.pool (Y1 V c) (fun r => V c (Pipeline.arrRef spec1 5) (ix2 r (0 : Fin 1))))
  a2_6 : ∀ (V : (c : Dev nD) → (b : Ref sig .tc) → Buf (Elt Ideal) ((c : Thread nD τ).loc b)) (c : Dev nD),
    (dat2 V c).arrAt 6 cfg2.N = unc2 (H2 V c)
  a2_7 : ∀ (V : (c : Dev nD) → (b : Ref sig .tc) → Buf (Elt Ideal) ((c : Thread nD τ).loc b)) (c : Dev nD),
    (dat2 V c).arrAt 7 cfg2.N = unc2 (fun (_ : Fin 1) d => Spec.colsum (H2 V c) d)
  a2_8 : ∀ (V : (c : Dev nD) → (b : Ref sig .tc) → Buf (Elt Ideal) ((c : Thread nD τ).loc b)) (c : Dev nD),
    (dat2 V c).arrAt 8 cfg2.N = unc2 (fun (_ : Fin 1) d => Spec.colsum (fun r d => H2 V c r d * H2 V c r d) d)
  a3_7 : ∀ (V : (c : Dev nD) → (b : Ref sig .tc) → Buf (Elt Ideal) ((c : Thread nD τ).loc b)) (c : Dev nD),
    (dat3 V c).arrAt 7 cfg3.N = unc2 (Spec.pool (Y3 V c) (fun r => V c (Pipeline.arrRef spec3 5) (ix2 r (0 : Fin 1))))

variable (m : (ℓ : Loc nD τ sig) → Buf (Elt Ideal) ℓ) (ρ : Dev nD → PrngReg)

abbrev aX (c : Dev nD) : FVec Ideal S100000x64 .f32 := m ((c : Thread nD τ).loc main_arg0)
abbrev aW1_0 (c : Dev nD) : FVec Ideal S64x64 .f32 := m ((c : Thread nD τ).loc main_arg1)
abbrev ab1_0 (c : Dev nD) : FVec Ideal S64 .f32 := m ((c : Thread nD τ).loc main_arg2)
abbrev aW2_0 (c : Dev nD) : FVec Ideal S64x64 .f32 := m ((c : Thread nD τ).loc main_arg3)
abbrev ab2_0 (c : Dev nD) : FVec Ideal S64 .f32 := m ((c : Thread nD τ).loc main_arg4)
abbrev aγ0 (c : Dev nD) : FVec Ideal S64 .f32 := m ((c : Thread nD τ).loc main_arg5)
abbrev aβ0 (c : Dev nD) : FVec Ideal S64 .f32 := m ((c : Thread nD τ).loc main_arg6)
abbrev aW1_1 (c : Dev nD) : FVec Ideal S64x64 .f32 := m ((c : Thread nD τ).loc main_arg7)
abbrev ab1_1 (c : Dev nD) : FVec Ideal S64 .f32 := m ((c : Thread nD τ).loc main_arg8)
abbrev aW2_1 (c : Dev nD) : FVec Ideal S64x64 .f32 := m ((c : Thread nD τ).loc main_arg9)
abbrev ab2_1 (c : Dev nD) : FVec Ideal S64 .f32 := m ((c : Thread nD τ).loc main_arg10)
abbrev aγ1 (c : Dev nD) : FVec Ideal S64 .f32 := m ((c : Thread nD τ).loc main_arg11)
abbrev aβ1 (c : Dev nD) : FVec Ideal S64 .f32 := m ((c : Thread nD τ).loc main_arg12)
abbrev aEi (c : Dev nD) : IVec S2x1000000 32 := m ((c : Thread nD τ).loc main_arg13)
abbrev aBatch (c : Dev nD) : IVec S100000 32 := m ((c : Thread nD τ).loc main_arg14)

def Hd0 (c : Dev nD) : Fin 100000 → Fin 64 → EReal :=
  Spec.mlp (cur2 (aX m c)) (AggK (aEi m c) (cur2 (aX m c))) (cur2 (aW1_0 m c)) (cur1 (ab1_0 m c)) (cur2 (aW2_0 m c)) (cur1 (ab2_0 m c))

def L0 (c : Dev nD) : Fin 100000 → Fin 64 → EReal :=
  Spec.layerK (AggK (aEi m c)) (cur2 (aX m c)) (cur2 (aW1_0 m c)) (cur1 (ab1_0 m c)) (cur2 (aW2_0 m c)) (cur1 (ab2_0 m c))
    (cur1 (aγ0 m c)) (cur1 (aβ0 m c))

def Hd1 (c : Dev nD) : Fin 100000 → Fin 64 → EReal :=
  Spec.mlp (L0 m c) (AggK (aEi m c) (L0 m c)) (cur2 (aW1_1 m c)) (cur1 (ab1_1 m c)) (cur2 (aW2_1 m c)) (cur1 (ab2_1 m c))

def L1 (c : Dev nD) : Fin 100000 → Fin 64 → EReal :=
  Spec.layerK (AggK (aEi m c)) (L0 m c) (cur2 (aW1_1 m c)) (cur1 (ab1_1 m c)) (cur2 (aW2_1 m c)) (cur1 (ab2_1 m c))
    (cur1 (aγ1 m c)) (cur1 (aβ1 m c))

theorem L0_eq (c : Dev nD) : L0 m c = Spec.norm (Hd0 m c) (Spec.mean (Hd0 m c)) (Spec.varK (Hd0 m c)) (cur1 (aγ0 m c)) (cur1 (aβ0 m c)) := rfl

theorem L1_eq (c : Dev nD) : L1 m c = Spec.norm (Hd1 m c) (Spec.mean (Hd1 m c)) (Spec.varK (Hd1 m c)) (cur1 (aγ1 m c)) (cur1 (aβ1 m c)) := rfl

theorem W1_keep (c : Dev nD) (b : Ref sig .tc) (h : b ∉ (hostOps0_W : List (Ref sig .tc))) :
    W1 m ρ c (Proc.devRef .tc b) = W0 m ρ c (Proc.devRef .tc b) :=
  StableHlo.after_of_writes_sub hostOps0 _ hostOps0_writes h
theorem W3_keep (c : Dev nD) (b : Ref sig .tc) (h : b ∉ (hostOps1_W : List (Ref sig .tc))) :
    W3 m ρ c (Proc.devRef .tc b) = W2 m ρ c (Proc.devRef .tc b) :=
  StableHlo.after_of_writes_sub hostOps1 _ hostOps1_writes h
theorem W5_keep (c : Dev nD) (b : Ref sig .tc) (h : b ∉ (hostOps2_W : List (Ref sig .tc))) :
    W5 m ρ c (Proc.devRef .tc b) = W4 m ρ c (Proc.devRef .tc b) :=
  StableHlo.after_of_writes_sub hostOps2 _ hostOps2_writes h
theorem W7_keep (c : Dev nD) (b : Ref sig .tc) (h : b ∉ (hostOps3_W : List (Ref sig .tc))) :
    W7 m ρ c (Proc.devRef .tc b) = W6 m ρ c (Proc.devRef .tc b) :=
  StableHlo.after_of_writes_sub hostOps3 _ hostOps3_writes h

theorem W4_launch (c : Dev nD) (b : Ref sig .tc) (h0 : b ∉ (hostOps0_W : List (Ref sig .tc))) (h1 : ∀ w, Pipeline.arrRef spec0 w ≠ b)
    (h2 : b ∉ (hostOps1_W : List (Ref sig .tc))) (h3 : ∀ w, Pipeline.arrRef spec1 w ≠ b) :
    W4 m ρ c (Proc.devRef .tc b) = m ((c : Thread nD τ).loc b) :=
  (W4_of_ne m ρ c b h3).trans ((W3_keep m ρ c b h2).trans ((W2_of_ne m ρ c b h1).trans (W1_keep m ρ c b h0)))

theorem V1_x (c : Dev nD) : (V1 m ρ c main_arg0 : FVec Ideal S100000x64 .f32) = aX m c := W1_keep m ρ c main_arg0 (by decide)
theorem V1_agg (c : Dev nD) : (V1 m ρ c main_v14 : FVec Ideal S100000x64 .f32) = aggK (aX m c) (aEi m c) := host0_v14 (W0 m ρ c)
theorem V1_W1 (c : Dev nD) : (V1 m ρ c main_arg1 : FVec Ideal S64x64 .f32) = aW1_0 m c := W1_keep m ρ c main_arg1 (by decide)
theorem V1_b1 (c : Dev nD) : (V1 m ρ c main_v15 : FVec Ideal S1x64 .f32) = shapeCast S1x64 (ab1_0 m c) shapeCasts_S64_S1x64 :=
  host0_v15 (W0 m ρ c)
theorem V1_W2 (c : Dev nD) : (V1 m ρ c main_arg3 : FVec Ideal S64x64 .f32) = aW2_0 m c := W1_keep m ρ c main_arg3 (by decide)
theorem V1_b2 (c : Dev nD) : (V1 m ρ c main_v16 : FVec Ideal S1x64 .f32) = shapeCast S1x64 (ab2_0 m c) shapeCasts_S64_S1x64 :=
  host0_v16 (W0 m ρ c)

theorem H0_V1 (c : Dev nD) : H0 (V1 m ρ) c = Hd0 m c := by
  unfold H0 Hd0
  refine mlp_congr ?_ ?_ ?_ ?_ ?_ ?_
  · exact congrArg cur2 (V1_x m ρ c)
  · refine (congrArg cur2 (V1_agg m ρ c)).trans ?_
    unfold AggK
    rw [unc2_cur2]
  · exact congrArg cur2 (V1_W1 m ρ c)
  · funext k
    exact (congrFun (V1_b1 m ρ c) (ix2 (0 : Fin 1) k)).trans (row_apply _ k)
  · exact congrArg cur2 (V1_W2 m ρ c)
  · funext k
    exact (congrFun (V1_b2 m ρ c) (ix2 (0 : Fin 1) k)).trans (row_apply _ k)

theorem V3_γ (c : Dev nD) : (V3 m ρ c main_v17 : FVec Ideal S1x64 .f32) = shapeCast S1x64 (aγ0 m c) shapeCasts_S64_S1x64 :=
  (W3_keep m ρ c main_v17 (by decide)).trans ((W2_of_ne m ρ c main_v17 (by decide)).trans (host0_v17 (W0 m ρ c)))
theorem V3_β (c : Dev nD) : (V3 m ρ c main_v18 : FVec Ideal S1x64 .f32) = shapeCast S1x64 (aβ0 m c) shapeCasts_S64_S1x64 :=
  (W3_keep m ρ c main_v18 (by decide)).trans ((W2_of_ne m ρ c main_v18 (by decide)).trans (host0_v18 (W0 m ρ c)))
theorem V3_batch (c : Dev nD) : (V3 m ρ c main_v4 : IVec S100000x1 32) = shapeCast S100000x1 (aBatch m c) shapeCasts_S100000_S100000x1 :=
  (W3_keep m ρ c main_v4 (by decide)).trans ((W2_of_ne m ρ c main_v4 (by decide)).trans (host0_v4 (W0 m ρ c)))
theorem batch_V3 (c : Dev nD) : (fun r : Fin 100000 => V3 m ρ c (Pipeline.arrRef spec1 5) (ix2 r (0 : Fin 1))) = cur1 (aBatch m c) := by
  funext r
  exact (congrFun (V3_batch m ρ c) (ix2 r (0 : Fin 1))).trans (col_apply _ r)
theorem W4_v1 (c : Dev nD) : (W4 m ρ c (Proc.devRef .tc main_v1) : IVec S1000000 32) = srcK (aEi m c) :=
  (W4_of_ne m ρ c main_v1 (by decide)).trans ((W3_keep m ρ c main_v1 (by decide)).trans
    ((W2_of_ne m ρ c main_v1 (by decide)).trans (host0_v1 (W0 m ρ c))))
theorem W4_v3 (c : Dev nD) : (W4 m ρ c (Proc.devRef .tc main_v3) : IVec S1000000 32) = dstK (aEi m c) :=
  (W4_of_ne m ρ c main_v3 (by decide)).trans ((W3_keep m ρ c main_v3 (by decide)).trans
    ((W2_of_ne m ρ c main_v3 (by decide)).trans (host0_v3 (W0 m ρ c))))
theorem W4_v4 (c : Dev nD) : (W4 m ρ c (Proc.devRef .tc main_v4) : IVec S100000x1 32)
    = shapeCast S100000x1 (aBatch m c) shapeCasts_S100000_S100000x1 :=
  (W4_arr m ρ c 5).trans (((dat1 (V3 m ρ) c).arrAt_in 5 rfl _).trans ((A_eq1 (V3 m ρ) c 5).trans (V3_batch m ρ c)))
theorem V5_W1 (c : Dev nD) : (V5 m ρ c main_arg7 : FVec Ideal S64x64 .f32) = aW1_1 m c :=
  (W5_keep m ρ c main_arg7 (by decide)).trans (W4_launch m ρ c main_arg7 (by decide) (by decide) (by decide) (by decide))
theorem V5_b1 (c : Dev nD) : (V5 m ρ c main_v37 : FVec Ideal S1x64 .f32) = shapeCast S1x64 (ab1_1 m c) shapeCasts_S64_S1x64 :=
  (host2_v37 (W4 m ρ c)).trans (congrArg (fun v : FVec Ideal S64 .f32 => shapeCast S1x64 v shapeCasts_S64_S1x64)
    (W4_launch m ρ c main_arg8 (by decide) (by decide) (by decide) (by decide)))
theorem V5_W2 (c : Dev nD) : (V5 m ρ c main_arg9 : FVec Ideal S64x64 .f32) = aW2_1 m c :=
  (W5_keep m ρ c main_arg9 (by decide)).trans (W4_launch m ρ c main_arg9 (by decide) (by decide) (by decide) (by decide))
theorem V5_b2 (c : Dev nD) : (V5 m ρ c main_v38 : FVec Ideal S1x64 .f32) = shapeCast S1x64 (ab2_1 m c) shapeCasts_S64_S1x64 :=
  (host2_v38 (W4 m ρ c)).trans (congrArg (fun v : FVec Ideal S64 .f32 => shapeCast S1x64 v shapeCasts_S64_S1x64)
    (W4_launch m ρ c main_arg10 (by decide) (by decide) (by decide) (by decide)))
theorem V7_γ (c : Dev nD) : (V7 m ρ c main_v39 : FVec Ideal S1x64 .f32) = shapeCast S1x64 (aγ1 m c) shapeCasts_S64_S1x64 :=
  (W7_keep m ρ c main_v39 (by decide)).trans ((W6_of_ne m ρ c main_v39 (by decide)).trans
    ((host2_v39 (W4 m ρ c)).trans (congrArg (fun v : FVec Ideal S64 .f32 => shapeCast S1x64 v shapeCasts_S64_S1x64)
      (W4_launch m ρ c main_arg11 (by decide) (by decide) (by decide) (by decide)))))
theorem V7_β (c : Dev nD) : (V7 m ρ c main_v40 : FVec Ideal S1x64 .f32) = shapeCast S1x64 (aβ1 m c) shapeCasts_S64_S1x64 :=
  (W7_keep m ρ c main_v40 (by decide)).trans ((W6_of_ne m ρ c main_v40 (by decide)).trans
    ((host2_v40 (W4 m ρ c)).trans (congrArg (fun v : FVec Ideal S64 .f32 => shapeCast S1x64 v shapeCasts_S64_S1x64)
      (W4_launch m ρ c main_arg12 (by decide) (by decide) (by decide) (by decide)))))
theorem V7_batch (c : Dev nD) : (V7 m ρ c main_v4 : IVec S100000x1 32) = shapeCast S100000x1 (aBatch m c) shapeCasts_S100000_S100000x1 :=
  (W7_keep m ρ c main_v4 (by decide)).trans ((W6_of_ne m ρ c main_v4 (by decide)).trans
    ((W5_keep m ρ c main_v4 (by decide)).trans (W4_v4 m ρ c)))
theorem batch_V7 (c : Dev nD) : (fun r : Fin 100000 => V7 m ρ c (Pipeline.arrRef spec3 5) (ix2 r (0 : Fin 1))) = cur1 (aBatch m c) := by
  funext r
  exact (congrFun (V7_batch m ρ c) (ix2 r (0 : Fin 1))).trans (col_apply _ r)

section Walk

variable (R : RegionVals)
include R

theorem W2_h (c : Dev nD) : (W2 m ρ c (Proc.devRef .tc main_v19_0) : FVec Ideal S100000x64 .f32) = unc2 (Hd0 m c) :=
  (W2_arr m ρ c 6).trans ((R.a0_6 (V1 m ρ) c).trans (congrArg unc2 (H0_V1 m ρ c)))
theorem W2_s (c : Dev nD) : (W2 m ρ c (Proc.devRef .tc main_v19_1) : FVec Ideal S1x64 .f32)
    = unc2 (fun (_ : Fin 1) d => Spec.colsum (Hd0 m c) d) :=
  (W2_arr m ρ c 7).trans ((R.a0_7 (V1 m ρ) c).trans
    (congrArg (fun H : Fin 100000 → Fin 64 → EReal => unc2 (fun (_ : Fin 1) d => Spec.colsum H d)) (H0_V1 m ρ c)))
theorem W2_q (c : Dev nD) : (W2 m ρ c (Proc.devRef .tc main_v19_2) : FVec Ideal S1x64 .f32)
    = unc2 (fun (_ : Fin 1) d => Spec.colsum (fun r d => Hd0 m c r d * Hd0 m c r d) d) :=
  (W2_arr m ρ c 8).trans ((R.a0_8 (V1 m ρ) c).trans
    (congrArg (fun H : Fin 100000 → Fin 64 → EReal => unc2 (fun (_ : Fin 1) d => Spec.colsum (fun r d => H r d * H r d) d)) (H0_V1 m ρ c)))

theorem V3_h (c : Dev nD) : (V3 m ρ c main_v19_0 : FVec Ideal S100000x64 .f32) = unc2 (Hd0 m c) :=
  (W3_keep m ρ c main_v19_0 (by decide)).trans (W2_h m ρ R c)
theorem V3_mean (c : Dev nD) : (V3 m ρ c main_v21 : FVec Ideal S1x64 .f32)
    = meanRow (unc2 (fun (_ : Fin 1) d => Spec.colsum (Hd0 m c) d)) :=
  (host1_v21 (W2 m ρ c)).trans (congrArg meanRow (W2_s m ρ R c))
theorem V3_var (c : Dev nD) : (V3 m ρ c main_v25 : FVec Ideal S1x64 .f32)
    = varRow (unc2 (fun (_ : Fin 1) d => Spec.colsum (Hd0 m c) d))
        (unc2 (fun (_ : Fin 1) d => Spec.colsum (fun r d => Hd0 m c r d * Hd0 m c r d) d)) :=
  (host1_v25 (W2 m ρ c)).trans (congrArg₂ varRow (W2_s m ρ R c) (W2_q m ρ R c))

theorem Y1_V3 (c : Dev nD) : Y1 (V3 m ρ) c = L0 m c := by
  rw [L0_eq]
  unfold Y1
  refine norm_congr ?_ ?_ ?_ ?_ ?_
  · exact (congrArg cur2 (V3_h m ρ R c)).trans (cur2_unc2 _)
  · funext k
    exact (congrFun (V3_mean m ρ R c) (ix2 (0 : Fin 1) k)).trans (meanRow_colsum _ k)
  · funext k
    exact (congrFun (V3_var m ρ R c) (ix2 (0 : Fin 1) k)).trans (varRow_colsum _ k)
  · funext k
    exact (congrFun (V3_γ m ρ c) (ix2 (0 : Fin 1) k)).trans (row_apply _ k)
  · funext k
    exact (congrFun (V3_β m ρ c) (ix2 (0 : Fin 1) k)).trans (row_apply _ k)

theorem W4_y (c : Dev nD) : (W4 m ρ c (Proc.devRef .tc main_v26_0) : FVec Ideal S100000x64 .f32) = unc2 (L0 m c) :=
  (W4_arr m ρ c 6).trans ((R.a1_6 (V3 m ρ) c).trans (congrArg unc2 (Y1_V3 m ρ R c)))
theorem W4_p (c : Dev nD) : (W4 m ρ c (Proc.devRef .tc main_v26_1) : FVec Ideal S512x64 .f32)
    = unc2 (Spec.pool (L0 m c) (cur1 (aBatch m c))) :=
  (W4_arr m ρ c 7).trans ((R.a1_7 (V3 m ρ) c).trans
    (congrArg₂ (fun (Y : Fin 100000 → Fin 64 → EReal) (b : Fin 100000 → BitVec 32) => unc2 (Spec.pool Y b)) (Y1_V3 m ρ R c) (batch_V3 m ρ c)))

theorem V5_x (c : Dev nD) : (V5 m ρ c main_v26_0 : FVec Ideal S100000x64 .f32) = unc2 (L0 m c) :=
  (W5_keep m ρ c main_v26_0 (by decide)).trans (W4_y m ρ R c)
theorem V5_agg (c : Dev nD) : (V5 m ρ c main_v36 : FVec Ideal S100000x64 .f32) = aggK (unc2 (L0 m c)) (aEi m c) :=
  (host2_v36 (W4 m ρ c)).trans
    ((aggOf_congr (W4_y m ρ R c) (W4_v1 m ρ c) (W4_v3 m ρ c)).trans (aggK_eq_aggOf _ _).symm)

theorem H2_V5 (c : Dev nD) : H2 (V5 m ρ) c = Hd1 m c := by
  unfold H2 Hd1
  refine mlp_congr ?_ ?_ ?_ ?_ ?_ ?_
  · exact (congrArg cur2 (V5_x m ρ R c)).trans (cur2_unc2 _)
  · exact congrArg cur2 (V5_agg m ρ R c)
  · exact congrArg cur2 (V5_W1 m ρ c)
  · funext k
    exact (congrFun (V5_b1 m ρ c) (ix2 (0 : Fin 1) k)).trans (row_apply _ k)
  · exact congrArg cur2 (V5_W2 m ρ c)
  · funext k
    exact (congrFun (V5_b2 m ρ c) (ix2 (0 : Fin 1) k)).trans (row_apply _ k)

theorem W6_h (c : Dev nD) : (W6 m ρ c (Proc.devRef .tc main_v41_0) : FVec Ideal S100000x64 .f32) = unc2 (Hd1 m c) :=
  (W6_arr m ρ c 6).trans ((R.a2_6 (V5 m ρ) c).trans (congrArg unc2 (H2_V5 m ρ R c)))
theorem W6_s (c : Dev nD) : (W6 m ρ c (Proc.devRef .tc main_v41_1) : FVec Ideal S1x64 .f32)
    = unc2 (fun (_ : Fin 1) d => Spec.colsum (Hd1 m c) d) :=
  (W6_arr m ρ c 7).trans ((R.a2_7 (V5 m ρ) c).trans
    (congrArg (fun H : Fin 100000 → Fin 64 → EReal => unc2 (fun (_ : Fin 1) d => Spec.colsum H d)) (H2_V5 m ρ R c)))
theorem W6_q (c : Dev nD) : (W6 m ρ c (Proc.devRef .tc main_v41_2) : FVec Ideal S1x64 .f32)
    = unc2 (fun (_ : Fin 1) d => Spec.colsum (fun r d => Hd1 m c r d * Hd1 m c r d) d) :=
  (W6_arr m ρ c 8).trans ((R.a2_8 (V5 m ρ) c).trans
    (congrArg (fun H : Fin 100000 → Fin 64 → EReal => unc2 (fun (_ : Fin 1) d => Spec.colsum (fun r d => H r d * H r d) d)) (H2_V5 m ρ R c)))

theorem V7_h (c : Dev nD) : (V7 m ρ c main_v41_0 : FVec Ideal S100000x64 .f32) = unc2 (Hd1 m c) :=
  (W7_keep m ρ c main_v41_0 (by decide)).trans (W6_h m ρ R c)
theorem V7_mean (c : Dev nD) : (V7 m ρ c main_v43 : FVec Ideal S1x64 .f32)
    = meanRow (unc2 (fun (_ : Fin 1) d => Spec.colsum (Hd1 m c) d)) :=
  (host3_v43 (W6 m ρ c)).trans (congrArg meanRow (W6_s m ρ R c))
theorem V7_var (c : Dev nD) : (V7 m ρ c main_v47 : FVec Ideal S1x64 .f32)
    = varRow (unc2 (fun (_ : Fin 1) d => Spec.colsum (Hd1 m c) d))
        (unc2 (fun (_ : Fin 1) d => Spec.colsum (fun r d => Hd1 m c r d * Hd1 m c r d) d)) :=
  (host3_v47 (W6 m ρ c)).trans (congrArg₂ varRow (W6_s m ρ R c) (W6_q m ρ R c))

theorem Y3_V7 (c : Dev nD) : Y3 (V7 m ρ) c = L1 m c := by
  rw [L1_eq]
  unfold Y3
  refine norm_congr ?_ ?_ ?_ ?_ ?_
  · exact (congrArg cur2 (V7_h m ρ R c)).trans (cur2_unc2 _)
  · funext k
    exact (congrFun (V7_mean m ρ R c) (ix2 (0 : Fin 1) k)).trans (meanRow_colsum _ k)
  · funext k
    exact (congrFun (V7_var m ρ R c) (ix2 (0 : Fin 1) k)).trans (varRow_colsum _ k)
  · funext k
    exact (congrFun (V7_γ m ρ c) (ix2 (0 : Fin 1) k)).trans (row_apply _ k)
  · funext k
    exact (congrFun (V7_β m ρ c) (ix2 (0 : Fin 1) k)).trans (row_apply _ k)

theorem W8_p1 (c : Dev nD) : (W8 m ρ c (Proc.devRef .tc main_v48_1) : FVec Ideal S512x64 .f32)
    = unc2 (Spec.pool (L1 m c) (cur1 (aBatch m c))) :=
  (W8_arr m ρ c 7).trans ((R.a3_7 (V7 m ρ) c).trans
    (congrArg₂ (fun (Y : Fin 100000 → Fin 64 → EReal) (b : Fin 100000 → BitVec 32) => unc2 (Spec.pool Y b)) (Y3_V7 m ρ R c) (batch_V7 m ρ c)))
theorem W8_p0 (c : Dev nD) : (W8 m ρ c (Proc.devRef .tc main_v26_1) : FVec Ideal S512x64 .f32)
    = unc2 (Spec.pool (L0 m c) (cur1 (aBatch m c))) :=
  (W8_of_ne m ρ c main_v26_1 (by decide)).trans ((W7_keep m ρ c main_v26_1 (by decide)).trans
    ((W6_of_ne m ρ c main_v26_1 (by decide)).trans ((W5_keep m ρ c main_v26_1 (by decide)).trans (W4_p m ρ R c))))

theorem result_eq (c : Dev nD) : (W9 m ρ c (Proc.devRef .tc main_v49) : FVec Ideal S512x128 .f32)
    = unc2 (Spec.sideBySide (Spec.pool (L0 m c) (cur1 (aBatch m c))) (Spec.pool (L1 m c) (cur1 (aBatch m c)))) :=
  (host4_v49 (W8 m ρ c)).trans
    ((congrArg₂ (fun (P0 P1 : FVec Ideal S512x64 .f32) =>
        concatenate S512x128 1 [⟨S512x64, P0⟩, ⟨S512x64, P1⟩] concatenates_S512x64_S512x64_S512x128_d1)
      (W8_p0 m ρ R c) (W8_p1 m ρ R c)).trans (concat_eq _ _))

end Walk

end Cert.KernelIdeal.Fr

end
-- ==== Proof.KI_R0Pieces.lean ====
/- A perceptron region: what each case leaves is the body's arithmetic applied to the point's input blocks and to the accumulators the point before left. -/
import proofs.«406896_j45226005626971_1_alg».proof.Proof.KI_R0Data
import Idealize.ShloMosaic.Lib.Pipeline.Value

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0 : (![0, 0] : Fin 2 → Nat) = fun _ => 0 := by
  funext a; fin_cases a <;> rfl

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond0_0 i) (hc1 : ¬cond0_1 i) (x0 : Vec F S10000x64 .f32) (x1 : Vec F S10000x64 .f32) (x2 : Vec F S64x64 .f32) (x3 : Vec F S1x64 .f32) (x4 : Vec F S64x64 .f32) (x5 : Vec F S1x64 .f32)

theorem out0_A_6_eq :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x0 x1 x2 x3 x4 x5 := by
  unfold out0_A_6
  rw [View.read_writes_eq_canon _ _ _ cover0_A_6]
  unfold kernelRun0_A
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_A_0_eq :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x3 x4 x5 (k0_pay2 (F := F)) := by
  unfold sout0_A_0
  rw [View.read_writes_eq_canon _ _ _ scover0_A_0]
  unfold kernelRun0_A
  dsimp only
  sl_unfold_words
  rw [View.canon_cons_unit_zero (S := S1x64) hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_A_1_eq :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay4 x0 x1 x2 x3 x4 x5) (k0_pay3 (F := F)) := by
  unfold sout0_A_1
  rw [View.read_writes_eq_canon _ _ _ scover0_A_1]
  unfold kernelRun0_A
  dsimp only
  sl_unfold_words
  rw [View.canon_cons_unit_zero (S := S1x64) hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

end

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : ¬cond0_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

theorem out0_B_6_eq :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_B_6
  rw [View.read_writes_eq_canon _ _ _ cover0_B_6]
  unfold kernelRun0_B
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_B_0_eq :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold sout0_B_0
  rw [View.read_writes_eq_canon _ _ _ scover0_B_0]
  unfold kernelRun0_B
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_B_1_eq :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_B_1
  rw [View.read_writes_eq_canon _ _ _ scover0_B_1]
  unfold kernelRun0_B
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

end

section
variable (c : Dev nD) (i : grid0.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond0_0 i) (hc1 : cond0_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

theorem out0_C_6_eq :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x3 x4 x5 := by
  unfold out0_C_6
  rw [View.read_writes_eq_canon _ _ _ cover0_C_6]
  unfold kernelRun0_C
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_C_0_eq :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold sout0_C_0
  rw [View.read_writes_eq_canon _ _ _ scover0_C_0]
  unfold kernelRun0_C
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem sout0_C_1_eq :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold sout0_C_1
  rw [View.read_writes_eq_canon _ _ _ scover0_C_1]
  unfold kernelRun0_C
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem out0_C_7_eq :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x3 x4 x5 xs0 := by
  unfold out0_C_7
  rw [View.read_writes_eq_canon _ _ _ cover0_C_7]
  unfold kernelRun0_C
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

theorem out0_C_8_eq :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x3 x4 x5) xs1 := by
  unfold out0_C_8
  rw [View.read_writes_eq_canon _ _ _ cover0_C_8]
  unfold kernelRun0_C
  dsimp only
  sl_unfold_words
  first | rw [View.canon_unit_zero hz0] | rw [View.canon_cons_unit_zero hz0]
  simp only [View.readAt_eq_ld, harg1.read_unread, harg2.read_unread, harg3.read_unread, harg4.read_unread, harg5.read_unread, harg6.read_unread, harg10.read_unread, harg11.read_unread, View.ld_unit_zero (S := S10000x64) hz0, View.ld_unit_zero (S := S64x64) hz0, View.ld_unit_zero (S := S1x64) hz0, View.readCov_unit_zero (S := S1x64) _ hz0]

end

variable (V : (c : Dev nD) → (b : Ref sig .tc) → Buf (Elt F) ((c : Thread nD τ).loc b))

def sc0At0 (c : Dev nD) (n : ℕ) (h : n < cfg0.N) : Vec F S1x64 .f32 := (outsAt0 V c n h).2.2.2.1
def sc1At0 (c : Dev nD) (n : ℕ) (h : n < cfg0.N) : Vec F S1x64 .f32 := (outsAt0 V c n h).2.2.2.2

theorem after0_6_pay (c : Dev nD) (t : Fin cfg0.N) :
    (dat0 V c).after 6 t = k0_pay4 (iblk0 V c 0 t) (iblk0 V c 1 t) (iblk0 V c 2 t) (iblk0 V c 3 t) (iblk0 V c 4 t) (iblk0 V c 5 t) := by
  rw [after0_6]
  have hN : t.val < 10 := lt_of_lt_of_eq t.isLt (show cfg0.N = 10 from N_0)
  by_cases h0 : t.val % 10 = 0
  · have h1 : ¬t.val % 10 = 9 := by omega
    rw [outsAt0_A V c t h0 h1]; dsimp only
    exact out0_A_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)
  · by_cases h1 : t.val % 10 = 9
    · rw [outsAt0_C V c t h0 h1]; dsimp only
      exact out0_C_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem sc0At0_first (c : Dev nD) (t : Fin cfg0.N) (hz : t.val = 0) :
    sc0At0 V c t.val t.isLt = k0_pay5 (iblk0 V c 0 t) (iblk0 V c 1 t) (iblk0 V c 2 t) (iblk0 V c 3 t) (iblk0 V c 4 t) (iblk0 V c 5 t) (k0_pay2 (F := F)) := by
  unfold sc0At0
  have h0 : t.val % 10 = 0 := by omega
  have h1 : ¬t.val % 10 = 9 := by omega
  rw [outsAt0_A V c t h0 h1]; dsimp only
  exact sout0_A_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem sc1At0_first (c : Dev nD) (t : Fin cfg0.N) (hz : t.val = 0) :
    sc1At0 V c t.val t.isLt = k0_pay1 (k0_pay4 (iblk0 V c 0 t) (iblk0 V c 1 t) (iblk0 V c 2 t) (iblk0 V c 3 t) (iblk0 V c 4 t) (iblk0 V c 5 t)) (k0_pay3 (F := F)) := by
  unfold sc1At0
  have h0 : t.val % 10 = 0 := by omega
  have h1 : ¬t.val % 10 = 9 := by omega
  rw [outsAt0_A V c t h0 h1]; dsimp only
  exact sout0_A_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

theorem sc0At0_later (c : Dev nD) (t : Fin cfg0.N) (hz : t.val ≠ 0) :
    sc0At0 V c t.val t.isLt = k0_pay5 (iblk0 V c 0 t) (iblk0 V c 1 t) (iblk0 V c 2 t) (iblk0 V c 3 t) (iblk0 V c 4 t) (iblk0 V c 5 t) (sc0At0 V c (t.val - 1) (Nat.lt_of_le_of_lt (Nat.sub_le _ _) t.isLt)) := by
  unfold sc0At0
  have hN : t.val < 10 := lt_of_lt_of_eq t.isLt (show cfg0.N = 10 from N_0)
  have h0 : ¬t.val % 10 = 0 := by omega
  by_cases h1 : t.val % 10 = 9
  · rw [outsAt0_C V c t h0 h1]; dsimp only
    exact sout0_C_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem sc1At0_later (c : Dev nD) (t : Fin cfg0.N) (hz : t.val ≠ 0) :
    sc1At0 V c t.val t.isLt = k0_pay1 (k0_pay4 (iblk0 V c 0 t) (iblk0 V c 1 t) (iblk0 V c 2 t) (iblk0 V c 3 t) (iblk0 V c 4 t) (iblk0 V c 5 t)) (sc1At0 V c (t.val - 1) (Nat.lt_of_le_of_lt (Nat.sub_le _ _) t.isLt)) := by
  unfold sc1At0
  have hN : t.val < 10 := lt_of_lt_of_eq t.isLt (show cfg0.N = 10 from N_0)
  have h0 : ¬t.val % 10 = 0 := by omega
  by_cases h1 : t.val % 10 = 9
  · rw [outsAt0_C V c t h0 h1]; dsimp only
    exact sout0_C_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; dsimp only
    exact sout0_B_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

theorem sc0At0_zero (c : Dev nD) (h : 0 < cfg0.N) :
    sc0At0 V c 0 h = k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := F)) :=
  sc0At0_first V c ⟨0, h⟩ rfl
theorem sc0At0_succ (c : Dev nD) (n : ℕ) (h : n + 1 < cfg0.N) :
    sc0At0 V c (n + 1) h = k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (sc0At0 V c n (Nat.lt_of_succ_lt h)) :=
  sc0At0_later V c ⟨n + 1, h⟩ (Nat.succ_ne_zero n)
theorem sc1At0_zero (c : Dev nD) (h : 0 < cfg0.N) :
    sc1At0 V c 0 h = k0_pay1 (k0_pay4 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩)) (k0_pay3 (F := F)) :=
  sc1At0_first V c ⟨0, h⟩ rfl
theorem sc1At0_succ (c : Dev nD) (n : ℕ) (h : n + 1 < cfg0.N) :
    sc1At0 V c (n + 1) h = k0_pay1 (k0_pay4 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩)) (sc1At0 V c n (Nat.lt_of_succ_lt h)) :=
  sc1At0_later V c ⟨n + 1, h⟩ (Nat.succ_ne_zero n)

theorem after0_7_last (c : Dev nD) (t : Fin cfg0.N) (ht : t.val = 9) :
    (dat0 V c).after 7 t = sc0At0 V c t.val t.isLt := by
  rw [after0_7]; unfold sc0At0
  have h0 : ¬t.val % 10 = 0 := by omega
  have h1 : t.val % 10 = 9 := by omega
  rw [outsAt0_C V c t h0 h1]; dsimp only
  exact (out0_C_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_0_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

theorem after0_8_last (c : Dev nD) (t : Fin cfg0.N) (ht : t.val = 9) :
    (dat0 V c).after 8 t = sc1At0 V c t.val t.isLt := by
  rw [after0_8]; unfold sc1At0
  have h0 : ¬t.val % 10 = 0 := by omega
  have h1 : t.val % 10 = 9 := by omega
  rw [outsAt0_C V c t h0 h1]; dsimp only
  exact (out0_C_8_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_1_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

end Cert.KernelIdeal.Fr

end
-- ==== Proof.KI_PayA.lean ====
/- The perceptron body at an index: the stored block is the perceptron of the block's rows, and the two accumulators gain its column sums and column sums of squares. -/
import proofs.«406896_j45226005626971_1_alg».proof.Proof.Gen.KernelIdeal.Skeleton
import proofs.«406896_j45226005626971_1_alg».proof.Proof.SpecArr
import proofs.«406896_j45226005626971_1_alg».proof.Proof.SpecLaws
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.KernelIdeal.PayA

open Cert.KernelIdeal Cert.KernelIdeal.Gen Cert.Spec Idealize.ShloMosaic Idealize.ShloMosaic.ValueIdx

theorem mm_apply {φ₁ φ₂ : FTy} (A : FVec Ideal S10000x64 φ₁) (W : FVec Ideal S64x64 φ₂) (q : Fin 10000) (d : Fin 64) :
    matmul dot_S10000x64_S64x64_S10000x64_1_0_0_1_n_n none A W (constant (F := Ideal) S10000x64 .f32 0x00000000#32) (ix2 q d)
      = ∑ k : Fin 64, A (ix2 q k) * W (ix2 k d) := by
  have hd : dot_S10000x64_S64x64_S10000x64_1_0_0_1_n_n = DotDims.plain 10000 64 64 := rfl
  rw [matmul_zero_eq_dotGeneral, hd]
  exact StackMember.dotGeneral_plain_apply none A W q d

theorem colsum_apply (h : FVec Ideal S10000x64 .f32) (d : Fin 64) :
    shapeCast S1x64 (multiReduction (F := Ideal) .add [0] S64 h 0x00000000#32 reduces_S10000x64_S64 (.inl rfl) rfl) shapeCasts_S64_S1x64
        (ix2 (0 : Fin 1) d)
      = ∑ q : Fin 10000, h (ix2 q d) := by
  rw [shapeCast_a_1a_apply]
  refine (Ideal.multiReduction_add_single h 0x00000000#32 reduces_S10000x64_S64 (.inl rfl) rfl (ix1 d)).trans ?_
  refine Finset.sum_congr rfl fun k _ => congrArg h ?_
  funext a
  refine Fin.ext ?_
  match a with
  | ⟨0, _⟩ => rfl
  | ⟨1, _⟩ => rfl

theorem pay4_apply (x0 x1 : FVec Ideal S10000x64 .f32) (x2 : FVec Ideal S64x64 .f32) (x3 : FVec Ideal S1x64 .f32)
    (x4 : FVec Ideal S64x64 .f32) (x5 : FVec Ideal S1x64 .f32) (q : Fin 10000) (d : Fin 64) :
    k0_pay4 (F := Ideal) x0 x1 x2 x3 x4 x5 (ix2 q d)
      = Spec.mlp (cur2 x0) (cur2 x1) (cur2 x2) (fun k => x3 (ix2 (0 : Fin 1) k)) (cur2 x4) (fun k => x5 (ix2 (0 : Fin 1) k)) q d := by
  unfold k0_pay4 Spec.mlp
  simp only [shapeCast_self]
  show Ideal.tanh (matmul dot_S10000x64_S64x64_S10000x64_1_0_0_1_n_n none _ _ (constant (F := Ideal) S10000x64 .f32 0x00000000#32) (ix2 q d)
      + broadcastTo S10000x64 x5 broadcasts_S1x64_S10000x64 (ix2 q d)) = _
  rw [mm_apply, broadcastTo_1b_ab_apply]
  refine congrArg (fun s => Ideal.tanh (s + x5 (ix2 (0 : Fin 1) d))) ?_
  refine Finset.sum_congr rfl fun k _ => ?_
  show Ideal.tanh (matmul dot_S10000x64_S64x64_S10000x64_1_0_0_1_n_n none _ _ (constant (F := Ideal) S10000x64 .f32 0x00000000#32) (ix2 q k)
      + broadcastTo S10000x64 x3 broadcasts_S1x64_S10000x64 (ix2 q k)) * x4 (ix2 k d) = _
  rw [mm_apply, broadcastTo_1b_ab_apply]
  rfl

theorem pay5_apply (x0 x1 : FVec Ideal S10000x64 .f32) (x2 : FVec Ideal S64x64 .f32) (x3 : FVec Ideal S1x64 .f32)
    (x4 : FVec Ideal S64x64 .f32) (x5 : FVec Ideal S1x64 .f32) (v26 : FVec Ideal S1x64 .f32) (d : Fin 64) :
    k0_pay5 (F := Ideal) x0 x1 x2 x3 x4 x5 v26 (ix2 (0 : Fin 1) d)
      = v26 (ix2 (0 : Fin 1) d) + ∑ q : Fin 10000, k0_pay4 (F := Ideal) x0 x1 x2 x3 x4 x5 (ix2 q d) := by
  unfold k0_pay5
  simp only [shapeCast_self]
  rw [addf_apply, colsum_apply]

theorem pay1_apply (v24 : FVec Ideal S10000x64 .f32) (v33 : FVec Ideal S1x64 .f32) (d : Fin 64) :
    k0_pay1 (F := Ideal) v24 v33 (ix2 (0 : Fin 1) d)
      = v33 (ix2 (0 : Fin 1) d) + ∑ q : Fin 10000, v24 (ix2 q d) * v24 (ix2 q d) := by
  unfold k0_pay1
  simp only [shapeCast_self]
  rw [addf_apply, colsum_apply]
  rfl

theorem pay2_apply (d : Fin 64) : k0_pay2 (F := Ideal) (ix2 (0 : Fin 1) d) = 0 := by
  unfold k0_pay2
  simp only [shapeCast_self]
  rw [broadcast_apply]
  exact Ideal.ofBits_zero_f32

theorem pay3_apply (d : Fin 64) : k0_pay3 (F := Ideal) (ix2 (0 : Fin 1) d) = 0 := by
  unfold k0_pay3
  simp only [shapeCast_self]
  rw [broadcast_apply]
  exact Ideal.ofBits_zero_f32

theorem pay4_apply2 (x0 x1 : FVec Ideal S10000x64 .f32) (x2 : FVec Ideal S64x64 .f32) (x3 : FVec Ideal S1x64 .f32)
    (x4 : FVec Ideal S64x64 .f32) (x5 : FVec Ideal S1x64 .f32) (q : Fin 10000) (d : Fin 64) :
    k2_pay4 (F := Ideal) x0 x1 x2 x3 x4 x5 (ix2 q d)
      = Spec.mlp (cur2 x0) (cur2 x1) (cur2 x2) (fun k => x3 (ix2 (0 : Fin 1) k)) (cur2 x4) (fun k => x5 (ix2 (0 : Fin 1) k)) q d := by
  unfold k2_pay4 Spec.mlp
  simp only [shapeCast_self]
  show Ideal.tanh (matmul dot_S10000x64_S64x64_S10000x64_1_0_0_1_n_n none _ _ (constant (F := Ideal) S10000x64 .f32 0x00000000#32) (ix2 q d)
      + broadcastTo S10000x64 x5 broadcasts_S1x64_S10000x64 (ix2 q d)) = _
  rw [mm_apply, broadcastTo_1b_ab_apply]
  refine congrArg (fun s => Ideal.tanh (s + x5 (ix2 (0 : Fin 1) d))) ?_
  refine Finset.sum_congr rfl fun k _ => ?_
  show Ideal.tanh (matmul dot_S10000x64_S64x64_S10000x64_1_0_0_1_n_n none _ _ (constant (F := Ideal) S10000x64 .f32 0x00000000#32) (ix2 q k)
      + broadcastTo S10000x64 x3 broadcasts_S1x64_S10000x64 (ix2 q k)) * x4 (ix2 k d) = _
  rw [mm_apply, broadcastTo_1b_ab_apply]
  rfl

theorem pay5_apply2 (x0 x1 : FVec Ideal S10000x64 .f32) (x2 : FVec Ideal S64x64 .f32) (x3 : FVec Ideal S1x64 .f32)
    (x4 : FVec Ideal S64x64 .f32) (x5 : FVec Ideal S1x64 .f32) (v27 : FVec Ideal S1x64 .f32) (d : Fin 64) :
    k2_pay5 (F := Ideal) x0 x1 x2 x3 x4 x5 v27 (ix2 (0 : Fin 1) d)
      = v27 (ix2 (0 : Fin 1) d) + ∑ q : Fin 10000, k2_pay4 (F := Ideal) x0 x1 x2 x3 x4 x5 (ix2 q d) := by
  unfold k2_pay5
  simp only [shapeCast_self]
  rw [addf_apply, colsum_apply]

theorem pay1_apply2 (v25 : FVec Ideal S10000x64 .f32) (v34 : FVec Ideal S1x64 .f32) (d : Fin 64) :
    k2_pay1 (F := Ideal) v25 v34 (ix2 (0 : Fin 1) d)
      = v34 (ix2 (0 : Fin 1) d) + ∑ q : Fin 10000, v25 (ix2 q d) * v25 (ix2 q d) := by
  unfold k2_pay1
  simp only [shapeCast_self]
  rw [addf_apply, colsum_apply]
  rfl

theorem pay2_apply2 (d : Fin 64) : k2_pay2 (F := Ideal) (ix2 (0 : Fin 1) d) = 0 := by
  unfold k2_pay2
  simp only [shapeCast_self]
  rw [broadcast_apply]
  exact Ideal.ofBits_zero_f32

theorem pay3_apply2 (d : Fin 64) : k2_pay3 (F := Ideal) (ix2 (0 : Fin 1) d) = 0 := by
  unfold k2_pay3
  simp only [shapeCast_self]
  rw [broadcast_apply]
  exact Ideal.ofBits_zero_f32

end Cert.KernelIdeal.PayA

end
-- ==== Proof.KI_R0Value.lean ====
/- A perceptron region's three outputs: the perceptron of every row, its column sums and its column sums of squares, a sum over 100000 rows taken as ten tile sums. -/
import proofs.«406896_j45226005626971_1_alg».proof.Proof.KI_R0Data
import proofs.«406896_j45226005626971_1_alg».proof.Proof.KI_R0Pieces
import proofs.«406896_j45226005626971_1_alg».proof.Proof.KI_PayA
import proofs.«406896_j45226005626971_1_alg».proof.Proof.KI_RegionFns
import proofs.«406896_j45226005626971_1_alg».proof.Proof.SpecArr
import proofs.«406896_j45226005626971_1_alg».proof.Proof.SpecLaws
import Idealize.ShloMosaic.Lib.Pipeline.Value

set_option maxRecDepth 16384

noncomputable section

open scoped BigOperators

namespace Cert.KernelIdeal.Fr

open Cert.KernelIdeal Cert.KernelIdeal.Gen Cert.KernelIdeal.GenP Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Val0

theorem mlp_congr {N M : Nat} (X A : Fin N → Fin 64 → EReal) (X' A' : Fin M → Fin 64 → EReal)
    (W1 W1' : Fin 64 → Fin 64 → EReal) (b1 b1' : Fin 64 → EReal) (W2 W2' : Fin 64 → Fin 64 → EReal) (b2 b2' : Fin 64 → EReal)
    (r : Fin N) (r' : Fin M) (d : Fin 64)
    (hX : ∀ j, X r j = X' r' j) (hA : ∀ j, A r j = A' r' j) (hW1 : ∀ j k, W1 j k = W1' j k) (hb1 : ∀ k, b1 k = b1' k)
    (hW2 : ∀ k e, W2 k e = W2' k e) (hb2 : ∀ e, b2 e = b2' e) :
    Spec.mlp X A W1 b1 W2 b2 r d = Spec.mlp X' A' W1' b1' W2' b2' r' d := by
  unfold Spec.mlp
  simp only [hX, hA, hW1, hb1, hW2, hb2]

def tileSum (Hf : Fin 100000 → Fin 64 → EReal) (d : Fin 64) (s : Nat) : EReal :=
  if h : s < 10 then ∑ q : Fin 10000, Hf ⟨s * 10000 + q.val, by have := q.isLt; omega⟩ d else 0

theorem acc_tiles (Hf : Fin 100000 → Fin 64 → EReal) (d : Fin 64) :
    accUpTo (tileSum Hf d) 9 = Spec.colsum Hf d := by
  rw [accUpTo_eq_sum, sum_range_eq_sum_fin]
  unfold Spec.colsum
  refine Eq.trans ?_ (sum_tiles (T := 10) (B := 10000) (fun r => Hf r d)).symm
  refine Finset.sum_congr rfl fun t _ => ?_
  unfold tileSum
  rw [dif_pos t.isLt]

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

abbrev rowOf (t : Fin cfg0.N) (q : Fin 10000) : Fin 100000 :=
  ⟨t.val * 10000 + q.val, by have := t.isLt; have : cfg0.N = 10 := N_0; have := q.isLt; omega⟩

theorem rd_x (c : Dev nD) (t : Fin cfg0.N) (q : Fin 10000) (d : Fin 64) :
    (iblk0 V c 0 t : FVec Ideal S10000x64 .f32) (ix2 q d)
      = (V c (Pipeline.arrRef spec0 0) : S100000x64.Idx → EReal) (ix2 (rowOf t q) d) := by
  obtain ⟨e0, e1, -⟩ := idx_facts t
  unfold iblk0
  rw [View.read_apply]
  refine congrArg (V c (Pipeline.arrRef spec0 0) : S100000x64.Idx → EReal) ?_
  funext a
  apply Fin.ext
  match a with
  | ⟨0, _⟩ => show win0_0.index t (0 : Fin 2) * 10000 + 1 * q.val = t.val * 10000 + q.val; rw [e0]; omega
  | ⟨1, _⟩ => show win0_0.index t (1 : Fin 2) * 64 + 1 * d.val = d.val; rw [e1]; omega

theorem rd_a (c : Dev nD) (t : Fin cfg0.N) (q : Fin 10000) (d : Fin 64) :
    (iblk0 V c 1 t : FVec Ideal S10000x64 .f32) (ix2 q d)
      = (V c (Pipeline.arrRef spec0 1) : S100000x64.Idx → EReal) (ix2 (rowOf t q) d) := by
  obtain ⟨-, -, e0, e1, -⟩ := idx_facts t
  unfold iblk0
  rw [View.read_apply]
  refine congrArg (V c (Pipeline.arrRef spec0 1) : S100000x64.Idx → EReal) ?_
  funext a
  apply Fin.ext
  match a with
  | ⟨0, _⟩ => show win0_1.index t (0 : Fin 2) * 10000 + 1 * q.val = t.val * 10000 + q.val; rw [e0]; omega
  | ⟨1, _⟩ => show win0_1.index t (1 : Fin 2) * 64 + 1 * d.val = d.val; rw [e1]; omega

theorem rd_w1 (c : Dev nD) (t : Fin cfg0.N) (k : Fin 64) (d : Fin 64) :
    (iblk0 V c 2 t : FVec Ideal S64x64 .f32) (ix2 k d)
      = (V c (Pipeline.arrRef spec0 2) : S64x64.Idx → EReal) (ix2 k d) := by
  obtain ⟨-, -, -, -, -, -, e0, e1, -⟩ := idx_facts t
  unfold iblk0
  rw [View.read_apply]
  refine congrArg (V c (Pipeline.arrRef spec0 2) : S64x64.Idx → EReal) ?_
  funext a
  apply Fin.ext
  match a with
  | ⟨0, _⟩ => show win0_2.index t (0 : Fin 2) * 64 + 1 * k.val = k.val; rw [e0]; omega
  | ⟨1, _⟩ => show win0_2.index t (1 : Fin 2) * 64 + 1 * d.val = d.val; rw [e1]; omega

theorem rd_b1 (c : Dev nD) (t : Fin cfg0.N) (d : Fin 64) :
    (iblk0 V c 3 t : FVec Ideal S1x64 .f32) (ix2 (0 : Fin 1) d)
      = (V c (Pipeline.arrRef spec0 3) : S1x64.Idx → EReal) (ix2 (0 : Fin 1) d) := by
  obtain ⟨-, -, -, -, -, -, -, -, e0, e1, -⟩ := idx_facts t
  unfold iblk0
  rw [View.read_apply]
  refine congrArg (V c (Pipeline.arrRef spec0 3) : S1x64.Idx → EReal) ?_
  funext a
  apply Fin.ext
  match a with
  | ⟨0, _⟩ => show win0_3.index t (0 : Fin 2) * 1 + 1 * 0 = 0; rw [e0]
  | ⟨1, _⟩ => show win0_3.index t (1 : Fin 2) * 64 + 1 * d.val = d.val; rw [e1]; omega

theorem rd_w2 (c : Dev nD) (t : Fin cfg0.N) (k : Fin 64) (d : Fin 64) :
    (iblk0 V c 4 t : FVec Ideal S64x64 .f32) (ix2 k d)
      = (V c (Pipeline.arrRef spec0 4) : S64x64.Idx → EReal) (ix2 k d) := by
  obtain ⟨-, -, -, -, -, -, -, -, -, -, e0, e1, -⟩ := idx_facts t
  unfold iblk0
  rw [View.read_apply]
  refine congrArg (V c (Pipeline.arrRef spec0 4) : S64x64.Idx → EReal) ?_
  funext a
  apply Fin.ext
  match a with
  | ⟨0, _⟩ => show win0_4.index t (0 : Fin 2) * 64 + 1 * k.val = k.val; rw [e0]; omega
  | ⟨1, _⟩ => show win0_4.index t (1 : Fin 2) * 64 + 1 * d.val = d.val; rw [e1]; omega

theorem rd_b2 (c : Dev nD) (t : Fin cfg0.N) (d : Fin 64) :
    (iblk0 V c 5 t : FVec Ideal S1x64 .f32) (ix2 (0 : Fin 1) d)
      = (V c (Pipeline.arrRef spec0 5) : S1x64.Idx → EReal) (ix2 (0 : Fin 1) d) := by
  obtain ⟨-, -, -, -, -, -, -, -, -, -, -, -, e0, e1, -⟩ := idx_facts t
  unfold iblk0
  rw [View.read_apply]
  refine congrArg (V c (Pipeline.arrRef spec0 5) : S1x64.Idx → EReal) ?_
  funext a
  apply Fin.ext
  match a with
  | ⟨0, _⟩ => show win0_5.index t (0 : Fin 2) * 1 + 1 * 0 = 0; rw [e0]
  | ⟨1, _⟩ => show win0_5.index t (1 : Fin 2) * 64 + 1 * d.val = d.val; rw [e1]; omega

theorem pay4_blk (c : Dev nD) (t : Fin cfg0.N) (q : Fin 10000) (d : Fin 64) :
    k0_pay4 (F := Ideal) (iblk0 V c 0 t) (iblk0 V c 1 t) (iblk0 V c 2 t) (iblk0 V c 3 t) (iblk0 V c 4 t) (iblk0 V c 5 t) (ix2 q d)
      = H0 V c (rowOf t q) d := by
  refine (PayA.pay4_apply _ _ _ _ _ _ q d).trans ?_
  unfold H0
  exact mlp_congr _ _ _ _ _ _ _ _ _ _ _ _ q (rowOf t q) d (fun j => rd_x V c t q j) (fun j => rd_a V c t q j)
    (fun j k => rd_w1 V c t j k) (fun k => rd_b1 V c t k) (fun k e => rd_w2 V c t k e) (fun e => rd_b2 V c t e)

theorem flushed_h (c : Dev nD) (t : Fin cfg0.N) :
    (dat0 V c).flushed 6 t = ((cfg0.win 6).blk t).view.read (Elt Ideal) (unc2 (H0 V c)) := by
  obtain ⟨-, -, -, -, e0, e1, -⟩ := idx_facts t
  show (cfg0.win 6).cut (grid0.coords t) ((dat0 V c).after 6 t) = _
  rw [after0_6_pay]
  funext j
  obtain ⟨q, d, rfl⟩ : ∃ (q : Fin 10000) (d : Fin 64), j = ix2 q d := ⟨j 0, j 1, eq_ix2 (n0 := 10000) (n1 := 64) j⟩
  rw [View.read_apply]
  refine (pay4_blk V c t q d).trans ?_
  refine (unc2_apply (H0 V c) (rowOf t q) d).symm.trans ?_
  refine congrArg (unc2 (H0 V c)) ?_
  funext a
  apply Fin.ext
  match a with
  | ⟨0, _⟩ => show t.val * 10000 + q.val = win0_6.index t (0 : Fin 2) * 10000 + 1 * q.val; rw [e0]; omega
  | ⟨1, _⟩ => show d.val = win0_6.index t (1 : Fin 2) * 64 + 1 * d.val; rw [e1]; omega

theorem cover_h (i : S100000x64.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by omega⟩, rfl⟩
  obtain ⟨-, -, -, -, e0, e1, -⟩ := idx_facts t
  refine ⟨t, flush0_6 t, ?_⟩
  show i ∈ ((View.whole (Pipeline.arrRef spec0 6)).slice (win0_6.rect t)).set
  rw [View.set_slice_whole, Rect.mem_set_unit]
  intro a
  match a with
  | ⟨0, _⟩ => show win0_6.index t (0 : Fin 2) * 10000 ≤ (i 0).val ∧ (i 0).val < win0_6.index t (0 : Fin 2) * 10000 + 10000; rw [e0]; omega
  | ⟨1, _⟩ => show win0_6.index t (1 : Fin 2) * 64 ≤ (i 1).val ∧ (i 1).val < win0_6.index t (1 : Fin 2) * 64 + 64; rw [e1]; omega

theorem sc0_eq (c : Dev nD) : ∀ (n : Nat) (h : n < cfg0.N) (d : Fin 64),
    (sc0At0 V c n h : FVec Ideal S1x64 .f32) (ix2 (0 : Fin 1) d) = accUpTo (tileSum (H0 V c) d) n
  | 0, h, d => by
    rw [sc0At0_zero]
    refine (PayA.pay5_apply _ _ _ _ _ _ _ d).trans ?_
    rw [PayA.pay2_apply]
    show (0 : EReal) + _ = 0 + tileSum (H0 V c) d 0
    refine congrArg (fun s => (0 : EReal) + s) ?_
    unfold tileSum
    rw [dif_pos (by norm_num)]
    exact Finset.sum_congr rfl fun q _ => pay4_blk V c ⟨0, h⟩ q d
  | n + 1, h, d => by
    have hN : cfg0.N = 10 := N_0
    rw [sc0At0_succ]
    refine (PayA.pay5_apply _ _ _ _ _ _ _ d).trans ?_
    rw [sc0_eq c n]
    show _ = accUpTo (tileSum (H0 V c) d) n + tileSum (H0 V c) d (n + 1)
    refine congrArg (fun s => accUpTo (tileSum (H0 V c) d) n + s) ?_
    unfold tileSum
    rw [dif_pos (by omega)]
    exact Finset.sum_congr rfl fun q _ => pay4_blk V c ⟨n + 1, h⟩ q d

theorem sc1_eq (c : Dev nD) : ∀ (n : Nat) (h : n < cfg0.N) (d : Fin 64),
    (sc1At0 V c n h : FVec Ideal S1x64 .f32) (ix2 (0 : Fin 1) d)
      = accUpTo (tileSum (fun r e => H0 V c r e * H0 V c r e) d) n
  | 0, h, d => by
    rw [sc1At0_zero]
    refine (PayA.pay1_apply _ _ d).trans ?_
    rw [PayA.pay3_apply]
    show (0 : EReal) + _ = 0 + tileSum (fun r e => H0 V c r e * H0 V c r e) d 0
    refine congrArg (fun s => (0 : EReal) + s) ?_
    unfold tileSum
    rw [dif_pos (by norm_num)]
    refine Finset.sum_congr rfl fun q _ => ?_
    rw [pay4_blk V c ⟨0, h⟩ q d]
  | n + 1, h, d => by
    have hN : cfg0.N = 10 := N_0
    rw [sc1At0_succ]
    refine (PayA.pay1_apply _ _ d).trans ?_
    rw [sc1_eq c n]
    show _ = accUpTo (tileSum (fun r e => H0 V c r e * H0 V c r e) d) n + tileSum (fun r e => H0 V c r e * H0 V c r e) d (n + 1)
    refine congrArg (fun s => accUpTo (tileSum (fun r e => H0 V c r e * H0 V c r e) d) n + s) ?_
    unfold tileSum
    rw [dif_pos (by omega)]
    refine Finset.sum_congr rfl fun q _ => ?_
    rw [pay4_blk V c ⟨n + 1, h⟩ q d]

theorem flushed_s (c : Dev nD) (t : Fin cfg0.N) (hf : (cfg0.win 7).flush t = true) :
    (dat0 V c).flushed 7 t
      = ((cfg0.win 7).blk t).view.read (Elt Ideal) (unc2 (fun (_ : Fin 1) d => Spec.colsum (H0 V c) d)) := by
  have hN : cfg0.N = 10 := N_0
  have h9 : t.val = 9 := by have := (flush0_7 t).mp hf; have := t.isLt; omega
  obtain ⟨-, -, -, -, -, -, -, -, -, -, -, -, -, -, e0, e1, -⟩ := idx_facts t
  show (cfg0.win 7).cut (grid0.coords t) ((dat0 V c).after 7 t) = _
  rw [after0_7_last V c t h9]
  funext j
  obtain ⟨u, d, rfl⟩ : ∃ (u : Fin 1) (d : Fin 64), j = ix2 u d := ⟨j 0, j 1, eq_ix2 (n0 := 1) (n1 := 64) j⟩
  obtain rfl : u = 0 := Subsingleton.elim _ _
  rw [View.read_apply]
  refine (sc0_eq V c t.val t.isLt d).trans ?_
  rw [h9, acc_tiles]
  have hemb : ((cfg0.win 7).blk t).view.emb (ix2 (0 : Fin 1) d) = (ix2 (0 : Fin 1) d : S1x64.Idx) := by
    funext a
    apply Fin.ext
    match a with
    | ⟨0, _⟩ => show win0_7.index t (0 : Fin 2) * 1 + 1 * 0 = 0; rw [e0]
    | ⟨1, _⟩ => show win0_7.index t (1 : Fin 2) * 64 + 1 * d.val = d.val; rw [e1]; omega
  rw [hemb]
  generalize Spec.colsum (H0 V c) = f
  rfl

theorem flushed_q (c : Dev nD) (t : Fin cfg0.N) (hf : (cfg0.win 8).flush t = true) :
    (dat0 V c).flushed 8 t
      = ((cfg0.win 8).blk t).view.read (Elt Ideal)
          (unc2 (fun (_ : Fin 1) d => Spec.colsum (fun r d => H0 V c r d * H0 V c r d) d)) := by
  have hN : cfg0.N = 10 := N_0
  have h9 : t.val = 9 := by have := (flush0_8 t).mp hf; have := t.isLt; omega
  obtain ⟨-, -, -, -, -, -, -, -, -, -, -, -, -, -, -, -, e0, e1⟩ := idx_facts t
  show (cfg0.win 8).cut (grid0.coords t) ((dat0 V c).after 8 t) = _
  rw [after0_8_last V c t h9]
  funext j
  obtain ⟨u, d, rfl⟩ : ∃ (u : Fin 1) (d : Fin 64), j = ix2 u d := ⟨j 0, j 1, eq_ix2 (n0 := 1) (n1 := 64) j⟩
  obtain rfl : u = 0 := Subsingleton.elim _ _
  rw [View.read_apply]
  refine (sc1_eq V c t.val t.isLt d).trans ?_
  rw [h9, acc_tiles]
  have hemb : ((cfg0.win 8).blk t).view.emb (ix2 (0 : Fin 1) d) = (ix2 (0 : Fin 1) d : S1x64.Idx) := by
    funext a
    apply Fin.ext
    match a with
    | ⟨0, _⟩ => show win0_8.index t (0 : Fin 2) * 1 + 1 * 0 = 0; rw [e0]
    | ⟨1, _⟩ => show win0_8.index t (1 : Fin 2) * 64 + 1 * d.val = d.val; rw [e1]; omega
  rw [hemb]
  generalize Spec.colsum (fun r d => H0 V c r d * H0 V c r d) = f
  rfl

theorem cover_s (i : S1x64.Idx) :
    ∃ t : Fin cfg0.N, (cfg0.win 7).flush t = true ∧ i ∈ ((cfg0.win 7).blk t).view.set := by
  have hN : cfg0.N = 10 := N_0
  have hi0 : (i 0).val < 1 := (i 0).isLt
  have hi1 : (i 1).val < 64 := (i 1).isLt
  obtain ⟨t, ht⟩ : ∃ t : Fin cfg0.N, t.val = 9 := ⟨⟨9, by omega⟩, rfl⟩
  obtain ⟨-, -, -, -, -, -, -, -, -, -, -, -, -, -, e0, e1, -⟩ := idx_facts t
  refine ⟨t, (flush0_7 t).mpr (by omega), ?_⟩
  show i ∈ ((View.whole (Pipeline.arrRef spec0 7)).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 64 ≤ (i 1).val ∧ (i 1).val < win0_7.index t (1 : Fin 2) * 64 + 64; rw [e1]; omega

theorem cover_q (i : S1x64.Idx) :
    ∃ t : Fin cfg0.N, (cfg0.win 8).flush t = true ∧ i ∈ ((cfg0.win 8).blk t).view.set := by
  have hN : cfg0.N = 10 := N_0
  have hi0 : (i 0).val < 1 := (i 0).isLt
  have hi1 : (i 1).val < 64 := (i 1).isLt
  obtain ⟨t, ht⟩ : ∃ t : Fin cfg0.N, t.val = 9 := ⟨⟨9, by omega⟩, rfl⟩
  obtain ⟨-, -, -, -, -, -, -, -, -, -, -, -, -, -, -, -, e0, e1⟩ := idx_facts t
  refine ⟨t, (flush0_8 t).mpr (by omega), ?_⟩
  show i ∈ ((View.whole (Pipeline.arrRef spec0 8)).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; rw [e0]; omega
  | ⟨1, _⟩ => show win0_8.index t (1 : Fin 2) * 64 ≤ (i 1).val ∧ (i 1).val < win0_8.index t (1 : Fin 2) * 64 + 64; rw [e1]; omega

end Val0

theorem arrAt0_6 (c : Dev nD) : (dat0 V c).arrAt 6 cfg0.N = unc2 (H0 V c) :=
  (dat0 V c).arrAt_eq_of_cover 6 (unc2 (H0 V c)) (fun t _ => Val0.flushed_h V c t) Val0.cover_h

theorem arrAt0_7 (c : Dev nD) : (dat0 V c).arrAt 7 cfg0.N = unc2 (fun (_ : Fin 1) d => Spec.colsum (H0 V c) d) :=
  (dat0 V c).arrAt_eq_of_cover 7 (unc2 (fun (_ : Fin 1) d => Spec.colsum (H0 V c) d)) (fun t hf => Val0.flushed_s V c t hf) Val0.cover_s

theorem arrAt0_8 (c : Dev nD) :
    (dat0 V c).arrAt 8 cfg0.N = unc2 (fun (_ : Fin 1) d => Spec.colsum (fun r d => H0 V c r d * H0 V c r d) d) :=
  (dat0 V c).arrAt_eq_of_cover 8 (unc2 (fun (_ : Fin 1) d => Spec.colsum (fun r d => H0 V c r d * H0 V c r d) d))
    (fun t hf => Val0.flushed_q V c t hf) Val0.cover_q

end Cert.KernelIdeal.Fr

end
-- ==== Proof.KI_R1Value.lean ====
/- A normalise-and-pool region's two outputs: the normalised array, tiled by 50 row blocks, and the rows summed by graph id, a running sum over the blocks. -/
import proofs.«406896_j45226005626971_1_alg».proof.Proof.KI_R1Data
import proofs.«406896_j45226005626971_1_alg».proof.Proof.KI_PayB
import proofs.«406896_j45226005626971_1_alg».proof.Proof.KI_RegionFns
import proofs.«406896_j45226005626971_1_alg».proof.Proof.SpecArr
import proofs.«406896_j45226005626971_1_alg».proof.Proof.SpecLaws
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open Cert.Spec

variable (V : (c : Dev nD) → (b : Ref sig .tc) → Buf (Elt Ideal) ((c : Thread nD τ).loc b))

namespace Val1

theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_7.index t (0 : Fin 2) = 0 ∧ win1_7.index t (1 : Fin 2) = 0 :=
  (by decide +kernel : ∀ t : Fin grid1.N, _)

theorem xblk_apply (c : Dev nD) (t : Fin cfg1.N) (q : Fin 2000) (d : Fin 64) (h : t.val * 2000 + q.val < 100000) :
    (iblk1 V c 0 t : FVec Ideal S2000x64 .f32) (ix2 q d)
      = (V c (Pipeline.arrRef spec1 0) : FVec Ideal S100000x64 .f32) (ix2 ⟨t.val * 2000 + q.val, h⟩ d) := by
  unfold iblk1
  rw [View.read_apply]
  refine congrArg (V c (Pipeline.arrRef spec1 0)) ?_
  funext a
  apply Fin.ext
  obtain ⟨e0, e1, -⟩ := idx_facts t
  match a with
  | ⟨0, _⟩ => show win1_0.index t (0 : Fin 2) * 2000 + 1 * q.val = t.val * 2000 + q.val; omega
  | ⟨1, _⟩ => show win1_0.index t (1 : Fin 2) * 64 + 1 * d.val = d.val; omega

theorem idblk_apply (c : Dev nD) (t : Fin cfg1.N) (q : Fin 2000) (h : t.val * 2000 + q.val < 100000) :
    (iblk1 V c 5 t : IVec S2000x1 32) (ix2 q (0 : Fin 1))
      = (V c (Pipeline.arrRef spec1 5) : IVec S100000x1 32) (ix2 ⟨t.val * 2000 + q.val, h⟩ (0 : Fin 1)) := by
  unfold iblk1
  rw [View.read_apply]
  refine congrArg (V c (Pipeline.arrRef spec1 5)) ?_
  funext a
  apply Fin.ext
  obtain ⟨-, -, e0, e1, -⟩ := idx_facts t
  match a with
  | ⟨0, _⟩ => show win1_5.index t (0 : Fin 2) * 2000 + 1 * q.val = t.val * 2000 + q.val; omega
  | ⟨1, _⟩ => show win1_5.index t (1 : Fin 2) * 1 + 1 * 0 = 0; omega

theorem row1_apply (c : Dev nD) (t : Fin cfg1.N) (k : Fin 64) :
    (iblk1 V c 1 t : FVec Ideal S1x64 .f32) (ix2 (0 : Fin 1) k)
      = (V c (Pipeline.arrRef spec1 1) : FVec Ideal S1x64 .f32) (ix2 (0 : Fin 1) k) := by
  unfold iblk1
  rw [View.read_apply]
  refine congrArg (V c (Pipeline.arrRef spec1 1)) ?_
  funext a
  apply Fin.ext
  obtain ⟨-, -, -, -, -, -, e0, e1, -⟩ := idx_facts t
  match a with
  | ⟨0, _⟩ => show win1_1.index t (0 : Fin 2) * 1 + 1 * 0 = 0; omega
  | ⟨1, _⟩ => show win1_1.index t (1 : Fin 2) * 64 + 1 * k.val = k.val; omega

theorem row2_apply (c : Dev nD) (t : Fin cfg1.N) (k : Fin 64) :
    (iblk1 V c 2 t : FVec Ideal S1x64 .f32) (ix2 (0 : Fin 1) k)
      = (V c (Pipeline.arrRef spec1 2) : FVec Ideal S1x64 .f32) (ix2 (0 : Fin 1) k) := by
  unfold iblk1
  rw [View.read_apply]
  refine congrArg (V c (Pipeline.arrRef spec1 2)) ?_
  funext a
  apply Fin.ext
  obtain ⟨-, -, -, -, -, -, -, -, e0, e1, -⟩ := idx_facts t
  match a with
  | ⟨0, _⟩ => show win1_2.index t (0 : Fin 2) * 1 + 1 * 0 = 0; omega
  | ⟨1, _⟩ => show win1_2.index t (1 : Fin 2) * 64 + 1 * k.val = k.val; omega

theorem row3_apply (c : Dev nD) (t : Fin cfg1.N) (k : Fin 64) :
    (iblk1 V c 3 t : FVec Ideal S1x64 .f32) (ix2 (0 : Fin 1) k)
      = (V c (Pipeline.arrRef spec1 3) : FVec Ideal S1x64 .f32) (ix2 (0 : Fin 1) k) := by
  unfold iblk1
  rw [View.read_apply]
  refine congrArg (V c (Pipeline.arrRef spec1 3)) ?_
  funext a
  apply Fin.ext
  obtain ⟨-, -, -, -, -, -, -, -, -, -, e0, e1, -⟩ := idx_facts t
  match a with
  | ⟨0, _⟩ => show win1_3.index t (0 : Fin 2) * 1 + 1 * 0 = 0; omega
  | ⟨1, _⟩ => show win1_3.index t (1 : Fin 2) * 64 + 1 * k.val = k.val; omega

theorem row4_apply (c : Dev nD) (t : Fin cfg1.N) (k : Fin 64) :
    (iblk1 V c 4 t : FVec Ideal S1x64 .f32) (ix2 (0 : Fin 1) k)
      = (V c (Pipeline.arrRef spec1 4) : FVec Ideal S1x64 .f32) (ix2 (0 : Fin 1) k) := by
  unfold iblk1
  rw [View.read_apply]
  refine congrArg (V c (Pipeline.arrRef spec1 4)) ?_
  funext a
  apply Fin.ext
  obtain ⟨-, -, -, -, -, -, -, -, -, -, -, -, e0, e1, -⟩ := idx_facts t
  match a with
  | ⟨0, _⟩ => show win1_4.index t (0 : Fin 2) * 1 + 1 * 0 = 0; omega
  | ⟨1, _⟩ => show win1_4.index t (1 : Fin 2) * 64 + 1 * k.val = k.val; omega

theorem norm_blk (c : Dev nD) (t : Fin cfg1.N) (q : Fin 2000) (d : Fin 64) (h : t.val * 2000 + q.val < 100000) :
    k1_pay3 (F := Ideal) (iblk1 V c 2 t) (iblk1 V c 3 t) (iblk1 V c 0 t) (iblk1 V c 1 t) (iblk1 V c 4 t) (ix2 q d)
      = Y1 V c ⟨t.val * 2000 + q.val, h⟩ d := by
  refine (PayB.pay3_apply (iblk1 V c 2 t) (iblk1 V c 3 t) (iblk1 V c 0 t) (iblk1 V c 1 t) (iblk1 V c 4 t) q d).trans ?_
  unfold Y1 Spec.norm cur2
  dsimp only
  rw [xblk_apply V c t q d h, row1_apply V c t d, row2_apply V c t d, row3_apply V c t d, row4_apply V c t d]

end Val1

namespace Val1

def rowTerm (c : Dev nD) (g : Fin 512) (d : Fin 64) (r : Nat) : EReal :=
  if h : r < 100000 then
    (if ((V c (Pipeline.arrRef spec1 5) : IVec S100000x1 32) (ix2 ⟨r, h⟩ (0 : Fin 1))).toInt = (g.val : ℤ)
      then Y1 V c ⟨r, h⟩ d else 0)
  else 0

def tileSum (c : Dev nD) (g : Fin 512) (d : Fin 64) (s : Nat) : EReal :=
  ∑ q : Fin 2000, rowTerm V c g d (s * 2000 + q.val)

theorem step_apply (c : Dev nD) (t : Fin cfg1.N) (acc : FVec Ideal S512x64 .f32) (g : Fin 512) (d : Fin 64) :
    k1_pay1 (F := Ideal) (k1_pay4 (F := Ideal) (iblk1 V c 2 t) (iblk1 V c 3 t) (iblk1 V c 0 t) (iblk1 V c 1 t)
        (iblk1 V c 4 t) (iblk1 V c 5 t) acc) (ix2 g d)
      = acc (ix2 g d) + tileSum V c g d t.val := by
  have hN : t.val < 50 := lt_of_lt_of_eq t.isLt (show cfg1.N = 50 from N_1)
  refine (congrFun (PayB.pay1_apply (k1_pay4 (F := Ideal) (iblk1 V c 2 t) (iblk1 V c 3 t) (iblk1 V c 0 t)
    (iblk1 V c 1 t) (iblk1 V c 4 t) (iblk1 V c 5 t) acc)) (ix2 g d)).trans ?_
  refine (PayB.pay4_apply (iblk1 V c 2 t) (iblk1 V c 3 t) (iblk1 V c 0 t) (iblk1 V c 1 t) (iblk1 V c 4 t)
    (iblk1 V c 5 t) acc g d).trans ?_
  refine congrArg (acc (ix2 g d) + ·) ?_
  unfold tileSum
  refine Finset.sum_congr rfl fun q _ => ?_
  have hq : t.val * 2000 + q.val < 100000 := by have := q.isLt; omega
  unfold rowTerm
  rw [dif_pos hq, idblk_apply V c t q hq, norm_blk V c t q d hq]

theorem scAt_apply (c : Dev nD) (g : Fin 512) (d : Fin 64) :
    ∀ (n : Nat) (h : n < cfg1.N), scAt1 V c n h (ix2 g d) = accUpTo (tileSum V c g d) n
  | 0, h => by
    rw [scAt1_zero V c h]
    refine (step_apply V c ⟨0, h⟩ (k1_pay2 (F := Ideal)) g d).trans ?_
    rw [PayB.pay2_apply g d]
    rfl
  | n + 1, h => by
    rw [scAt1_succ V c n h]
    refine (step_apply V c ⟨n + 1, h⟩ (scAt1 V c n (Nat.lt_of_succ_lt h)) g d).trans ?_
    rw [scAt_apply c g d n (Nat.lt_of_succ_lt h)]
    rfl

theorem acc_last (c : Dev nD) (g : Fin 512) (d : Fin 64) :
    accUpTo (tileSum V c g d) 49
      = Spec.pool (Y1 V c) (fun r => (V c (Pipeline.arrRef spec1 5) : IVec S100000x1 32) (ix2 r (0 : Fin 1))) g d := by
  rw [accUpTo_eq_sum, sum_range_eq_sum_fin]
  unfold Spec.pool
  have hrow : ∀ r : Fin 100000,
      (if ((V c (Pipeline.arrRef spec1 5) : IVec S100000x1 32) (ix2 r (0 : Fin 1))).toInt = (g.val : ℤ)
        then Y1 V c r d else 0) = rowTerm V c g d r.val := fun r => by
    unfold rowTerm
    rw [dif_pos r.isLt]
  simp only [hrow]
  exact (sum_tiles (T := 50) (B := 2000) (fun r => rowTerm V c g d r.val)).symm

end Val1

namespace Val1

theorem emb6 (t : Fin cfg1.N) (q : Fin 2000) (d : Fin 64) (hq : t.val * 2000 + q.val < 100000) :
    ((cfg1.win 6).blk t).view.emb (ix2 q d) = (ix2 ⟨t.val * 2000 + q.val, hq⟩ d : S100000x64.Idx) := by
  obtain ⟨-, -, -, -, e0, e1, -⟩ := idx_facts t
  funext a
  apply Fin.ext
  match a with
  | ⟨0, _⟩ => show win1_6.index t (0 : Fin 2) * 2000 + 1 * q.val = t.val * 2000 + q.val; omega
  | ⟨1, _⟩ => show win1_6.index t (1 : Fin 2) * 64 + 1 * d.val = d.val; omega

theorem emb7 (t : Fin cfg1.N) (g : Fin 512) (d : Fin 64) :
    ((cfg1.win 7).blk t).view.emb (ix2 g d) = (ix2 g d : S512x64.Idx) := by
  obtain ⟨-, -, -, -, -, -, -, -, -, -, -, -, -, -, e0, e1⟩ := idx_facts t
  funext a
  apply Fin.ext
  match a with
  | ⟨0, _⟩ => show win1_7.index t (0 : Fin 2) * 512 + 1 * g.val = g.val; omega
  | ⟨1, _⟩ => show win1_7.index t (1 : Fin 2) * 64 + 1 * d.val = d.val; omega

theorem flushed6_at (c : Dev nD) (t : Fin cfg1.N) (q : Fin 2000) (d : Fin 64) :
    k1_pay3 (F := Ideal) (iblk1 V c 2 t) (iblk1 V c 3 t) (iblk1 V c 0 t) (iblk1 V c 1 t) (iblk1 V c 4 t) (ix2 q d)
      = unc2 (Y1 V c) (((cfg1.win 6).blk t).view.emb (ix2 q d)) := by
  have hN : t.val < 50 := lt_of_lt_of_eq t.isLt (show cfg1.N = 50 from N_1)
  have hq : t.val * 2000 + q.val < 100000 := by have := q.isLt; omega
  rw [emb6 t q d hq]
  exact norm_blk V c t q d hq

theorem flushed6_eq (c : Dev nD) (t : Fin cfg1.N) :
    (dat1 V c).flushed 6 t = ((cfg1.win 6).blk t).view.read (Elt Ideal) (unc2 (Y1 V c)) := by
  show (cfg1.win 6).cut (grid1.coords t) ((dat1 V c).after 6 t) = _
  rw [after1_6]
  funext j
  rw [View.read_apply]
  have hj : j = ix2 (j 0) (j 1) := eq_ix2 j
  rw [hj]
  exact flushed6_at V c t (j 0) (j 1)

theorem flushed7_at (c : Dev nD) (t : Fin cfg1.N) (ht : t.val = 49) (g : Fin 512) (d : Fin 64) :
    scAt1 V c t.val t.isLt (ix2 g d)
      = unc2 (Spec.pool (Y1 V c) (fun r => (V c (Pipeline.arrRef spec1 5) : IVec S100000x1 32) (ix2 r (0 : Fin 1))))
          (((cfg1.win 7).blk t).view.emb (ix2 g d)) := by
  rw [emb7 t g d]
  refine (scAt_apply V c g d t.val t.isLt).trans ?_
  refine (congrArg (accUpTo (tileSum V c g d)) ht).trans ?_
  exact acc_last V c g d

theorem flushed7_eq (c : Dev nD) (t : Fin cfg1.N) (hf : (cfg1.win 7).flush t = true) :
    (dat1 V c).flushed 7 t = ((cfg1.win 7).blk t).view.read (Elt Ideal)
      (unc2 (Spec.pool (Y1 V c) (fun r => (V c (Pipeline.arrRef spec1 5) : IVec S100000x1 32) (ix2 r (0 : Fin 1))))) := by
  have hN : t.val < 50 := lt_of_lt_of_eq t.isLt (show cfg1.N = 50 from N_1)
  have ht : t.val = 49 := by have := (flush1_7 t).mp hf; omega
  show (cfg1.win 7).cut (grid1.coords t) ((dat1 V c).after 7 t) = _
  rw [after1_7_last V c t ht]
  have key : ∀ (g : Fin 512) (d : Fin 64), scAt1 V c t.val t.isLt (ix2 g d)
      = unc2 (Spec.pool (Y1 V c) (fun r => (V c (Pipeline.arrRef spec1 5) : IVec S100000x1 32) (ix2 r (0 : Fin 1))))
          (((cfg1.win 7).blk t).view.emb (ix2 g d)) := fun g d => flushed7_at V c t ht g d
  generalize scAt1 V c t.val t.isLt = X at key ⊢
  generalize Spec.pool (Y1 V c) (fun r => (V c (Pipeline.arrRef spec1 5) : IVec S100000x1 32) (ix2 r (0 : Fin 1))) = P at key ⊢
  funext j
  rw [View.read_apply]
  have hj : j = ix2 (j 0) (j 1) := eq_ix2 j
  rw [hj]
  exact key (j 0) (j 1)

theorem mem_blk6 (t : Fin cfg1.N) (i : S100000x64.Idx) :
    i ∈ ((cfg1.win 6).blk t).view.set
      ↔ ∀ a : Fin 2, win1_6.index t a * S2000x64.size a ≤ (i a).val ∧ (i a).val < win1_6.index t a * S2000x64.size a + S2000x64.size a := by
  show i ∈ ((View.whole (Pipeline.arrRef spec1 6)).slice (win1_6.rect t)).set ↔ _
  rw [View.set_slice_whole, Rect.mem_set_unit]
  exact Iff.rfl

theorem mem_blk7 (t : Fin cfg1.N) (i : S512x64.Idx) :
    i ∈ ((cfg1.win 7).blk t).view.set
      ↔ ∀ a : Fin 2, win1_7.index t a * S512x64.size a ≤ (i a).val ∧ (i a).val < win1_7.index t a * S512x64.size a + S512x64.size a := by
  show i ∈ ((View.whole (Pipeline.arrRef spec1 7)).slice (win1_7.rect t)).set ↔ _
  rw [View.set_slice_whole, Rect.mem_set_unit]
  exact Iff.rfl

theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 50 := N_1
  have ht : (i 0).val / 2000 < cfg1.N := by rw [hN]; omega
  refine ⟨⟨(i 0).val / 2000, ht⟩, flush1_6 _, ?_⟩
  rw [mem_blk6]
  obtain ⟨-, -, -, -, e0, e1, -⟩ := idx_facts ⟨(i 0).val / 2000, ht⟩
  have e0' : win1_6.index ⟨(i 0).val / 2000, ht⟩ (0 : Fin 2) = (i 0).val / 2000 := e0
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0']; omega
  | ⟨1, _⟩ =>
    show win1_6.index ⟨(i 0).val / 2000, ht⟩ (1 : Fin 2) * 64 ≤ (i 1).val
      ∧ (i 1).val < win1_6.index ⟨(i 0).val / 2000, ht⟩ (1 : Fin 2) * 64 + 64
    rw [e1]; omega

theorem cover7 (i : S512x64.Idx) : ∃ t : Fin cfg1.N, (cfg1.win 7).flush t = true ∧ i ∈ ((cfg1.win 7).blk t).view.set := by
  have hi0 : (i 0).val < 512 := (i 0).isLt
  have hi1 : (i 1).val < 64 := (i 1).isLt
  have hN : cfg1.N = 50 := N_1
  have ht : 49 < cfg1.N := by rw [hN]; omega
  refine ⟨⟨49, ht⟩, (flush1_7 _).mpr rfl, ?_⟩
  rw [mem_blk7]
  obtain ⟨-, -, -, -, -, -, -, -, -, -, -, -, -, -, e0, e1⟩ := idx_facts ⟨49, ht⟩
  intro a
  match a with
  | ⟨0, _⟩ =>
    show win1_7.index ⟨49, ht⟩ (0 : Fin 2) * 512 ≤ (i 0).val ∧ (i 0).val < win1_7.index ⟨49, ht⟩ (0 : Fin 2) * 512 + 512
    rw [e0]; omega
  | ⟨1, _⟩ =>
    show win1_7.index ⟨49, ht⟩ (1 : Fin 2) * 64 ≤ (i 1).val ∧ (i 1).val < win1_7.index ⟨49, ht⟩ (1 : Fin 2) * 64 + 64
    rw [e1]; omega

end Val1

theorem arrAt1_6 (c : Dev nD) : (dat1 V c).arrAt 6 cfg1.N = unc2 (Y1 V c) :=
  (dat1 V c).arrAt_eq_of_cover 6 (unc2 (Y1 V c)) (fun t _ => Val1.flushed6_eq V c t) Val1.cover6

theorem arrAt1_7 (c : Dev nD) :
    (dat1 V c).arrAt 7 cfg1.N
      = unc2 (Spec.pool (Y1 V c) (fun r => (V c (Pipeline.arrRef spec1 5) : IVec S100000x1 32) (ix2 r (0 : Fin 1)))) :=
  (dat1 V c).arrAt_eq_of_cover 7
    (unc2 (Spec.pool (Y1 V c) (fun r => (V c (Pipeline.arrRef spec1 5) : IVec S100000x1 32) (ix2 r (0 : Fin 1)))))
    (fun t hf => Val1.flushed7_eq V c t hf) Val1.cover7

end Cert.KernelIdeal.Fr

end
-- ==== Proof.KI_R2Pieces.lean ====
/- A perceptron region: what each case leaves is the body's arithmetic applied to the point's input blocks and to the accumulators the point before left. -/
import proofs.«406896_j45226005626971_1_alg».proof.Proof.KI_R2Data
import Idealize.ShloMosaic.Lib.Pipeline.Value

set_option maxRecDepth 16384

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := by
  funext a; fin_cases a <;> rfl

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : cond2_0 i) (hc1 : ¬cond2_1 i) (x0 : Vec F S10000x64 .f32) (x1 : Vec F S10000x64 .f32) (x2 : Vec F S64x64 .f32) (x3 : Vec F S1x64 .f32) (x4 : Vec F S64x64 .f32) (x5 : Vec F S1x64 .f32)

theorem out2_A_6_eq :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay4 x0 x1 x2 x3 x4 x5 := by
  unfold out2_A_6
  rw [View.read_writes_eq_canon _ _ _ cover2_A_6]
  unfold kernelRun2_A
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_A_0_eq :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay5 x0 x1 x2 x3 x4 x5 (k2_pay2 (F := F)) := by
  unfold sout2_A_0
  rw [View.read_writes_eq_canon _ _ _ scover2_A_0]
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_A_1_eq :
    sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay4 x0 x1 x2 x3 x4 x5) (k2_pay3 (F := F)) := by
  unfold sout2_A_1
  rw [View.read_writes_eq_canon _ _ _ scover2_A_1]
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

end

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : ¬cond2_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

theorem out2_B_6_eq :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay4 x0 x1 x2 x3 x4 x5 := by
  unfold out2_B_6
  rw [View.read_writes_eq_canon _ _ _ cover2_B_6]
  unfold kernelRun2_B
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_B_0_eq :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 xs0 := by
  unfold sout2_B_0
  rw [View.read_writes_eq_canon _ _ _ scover2_B_0]
  unfold kernelRun2_B
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_B_1_eq :
    sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x0 x1 x2 x3 x4 x5) xs1 := by
  unfold sout2_B_1
  rw [View.read_writes_eq_canon _ _ _ scover2_B_1]
  unfold kernelRun2_B
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

end

section
variable (c : Dev nD) (i : grid2.Coords) (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (hc0 : ¬cond2_0 i) (hc1 : cond2_1 i) (x0 : Vec F S10000x64 .f32) (x1 : Vec F S10000x64 .f32) (x2 : Vec F S64x64 .f32) (x3 : Vec F S1x64 .f32) (x4 : Vec F S64x64 .f32) (x5 : Vec F S1x64 .f32) (xs0 : Vec F S1x64 .f32) (xs1 : Vec F S1x64 .f32)

theorem out2_C_6_eq :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay4 x0 x1 x2 x3 x4 x5 := by
  unfold out2_C_6
  rw [View.read_writes_eq_canon _ _ _ cover2_C_6]
  unfold kernelRun2_C
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_C_0_eq :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 xs0 := by
  unfold sout2_C_0
  rw [View.read_writes_eq_canon _ _ _ scover2_C_0]
  unfold kernelRun2_C
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem sout2_C_1_eq :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x0 x1 x2 x3 x4 x5) xs1 := by
  unfold sout2_C_1
  rw [View.read_writes_eq_canon _ _ _ scover2_C_1]
  unfold kernelRun2_C
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem out2_C_7_eq :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay5 x0 x1 x2 x3 x4 x5 xs0 := by
  unfold out2_C_7
  rw [View.read_writes_eq_canon _ _ _ cover2_C_7]
  unfold kernelRun2_C
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

theorem out2_C_8_eq :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay4 x0 x1 x2 x3 x4 x5) xs1 := by
  unfold out2_C_8
  rw [View.read_writes_eq_canon _ _ _ cover2_C_8]
  unfold kernelRun2_C
  dsimp only
  sl_unfold_words
  first | rw [View.canon_unit_zero hz2] | rw [View.canon_cons_unit_zero hz2]
  simp only [View.readAt_eq_ld, harg1.read_unread, harg2.read_unread, harg3.read_unread, harg4.read_unread, harg5.read_unread, harg6.read_unread, harg10.read_unread, harg11.read_unread, View.ld_unit_zero (S := S10000x64) hz2, View.ld_unit_zero (S := S64x64) hz2, View.ld_unit_zero (S := S1x64) hz2, View.readCov_unit_zero (S := S1x64) _ hz2]

end

variable (V : (c : Dev nD) → (b : Ref sig .tc) → Buf (Elt F) ((c : Thread nD τ).loc b))

def sc0At2 (c : Dev nD) (n : ℕ) (h : n < cfg2.N) : Vec F S1x64 .f32 := (outsAt2 V c n h).2.2.2.1
def sc1At2 (c : Dev nD) (n : ℕ) (h : n < cfg2.N) : Vec F S1x64 .f32 := (outsAt2 V c n h).2.2.2.2

theorem after2_6_pay (c : Dev nD) (t : Fin cfg2.N) :
    (dat2 V c).after 6 t = k2_pay4 (iblk2 V c 0 t) (iblk2 V c 1 t) (iblk2 V c 2 t) (iblk2 V c 3 t) (iblk2 V c 4 t) (iblk2 V c 5 t) := by
  rw [after2_6]
  have hN : t.val < 10 := lt_of_lt_of_eq t.isLt (show cfg2.N = 10 from N_2)
  by_cases h0 : t.val % 10 = 0
  · have h1 : ¬t.val % 10 = 9 := by omega
    rw [outsAt2_A V c t h0 h1]; dsimp only
    exact out2_A_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)
  · by_cases h1 : t.val % 10 = 9
    · rw [outsAt2_C V c t h0 h1]; dsimp only
      exact out2_C_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]; dsimp only
      exact out2_B_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem sc0At2_first (c : Dev nD) (t : Fin cfg2.N) (hz : t.val = 0) :
    sc0At2 V c t.val t.isLt = k2_pay5 (iblk2 V c 0 t) (iblk2 V c 1 t) (iblk2 V c 2 t) (iblk2 V c 3 t) (iblk2 V c 4 t) (iblk2 V c 5 t) (k2_pay2 (F := F)) := by
  unfold sc0At2
  have h0 : t.val % 10 = 0 := by omega
  have h1 : ¬t.val % 10 = 9 := by omega
  rw [outsAt2_A V c t h0 h1]; dsimp only
  exact sout2_A_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)

theorem sc1At2_first (c : Dev nD) (t : Fin cfg2.N) (hz : t.val = 0) :
    sc1At2 V c t.val t.isLt = k2_pay1 (k2_pay4 (iblk2 V c 0 t) (iblk2 V c 1 t) (iblk2 V c 2 t) (iblk2 V c 3 t) (iblk2 V c 4 t) (iblk2 V c 5 t)) (k2_pay3 (F := F)) := by
  unfold sc1At2
  have h0 : t.val % 10 = 0 := by omega
  have h1 : ¬t.val % 10 = 9 := by omega
  rw [outsAt2_A V c t h0 h1]; dsimp only
  exact sout2_A_1_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)

theorem sc0At2_later (c : Dev nD) (t : Fin cfg2.N) (hz : t.val ≠ 0) :
    sc0At2 V c t.val t.isLt = k2_pay5 (iblk2 V c 0 t) (iblk2 V c 1 t) (iblk2 V c 2 t) (iblk2 V c 3 t) (iblk2 V c 4 t) (iblk2 V c 5 t) (sc0At2 V c (t.val - 1) (Nat.lt_of_le_of_lt (Nat.sub_le _ _) t.isLt)) := by
  unfold sc0At2
  have hN : t.val < 10 := lt_of_lt_of_eq t.isLt (show cfg2.N = 10 from N_2)
  have h0 : ¬t.val % 10 = 0 := by omega
  by_cases h1 : t.val % 10 = 9
  · rw [outsAt2_C V c t h0 h1]; dsimp only
    exact sout2_C_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
  · rw [outsAt2_B V c t h0 h1]; dsimp only
    exact sout2_B_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem sc1At2_later (c : Dev nD) (t : Fin cfg2.N) (hz : t.val ≠ 0) :
    sc1At2 V c t.val t.isLt = k2_pay1 (k2_pay4 (iblk2 V c 0 t) (iblk2 V c 1 t) (iblk2 V c 2 t) (iblk2 V c 3 t) (iblk2 V c 4 t) (iblk2 V c 5 t)) (sc1At2 V c (t.val - 1) (Nat.lt_of_le_of_lt (Nat.sub_le _ _) t.isLt)) := by
  unfold sc1At2
  have hN : t.val < 10 := lt_of_lt_of_eq t.isLt (show cfg2.N = 10 from N_2)
  have h0 : ¬t.val % 10 = 0 := by omega
  by_cases h1 : t.val % 10 = 9
  · rw [outsAt2_C V c t h0 h1]; dsimp only
    exact sout2_C_1_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
  · rw [outsAt2_B V c t h0 h1]; dsimp only
    exact sout2_B_1_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

theorem sc0At2_zero (c : Dev nD) (h : 0 < cfg2.N) :
    sc0At2 V c 0 h = k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := F)) :=
  sc0At2_first V c ⟨0, h⟩ rfl
theorem sc0At2_succ (c : Dev nD) (n : ℕ) (h : n + 1 < cfg2.N) :
    sc0At2 V c (n + 1) h = k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (sc0At2 V c n (Nat.lt_of_succ_lt h)) :=
  sc0At2_later V c ⟨n + 1, h⟩ (Nat.succ_ne_zero n)
theorem sc1At2_zero (c : Dev nD) (h : 0 < cfg2.N) :
    sc1At2 V c 0 h = k2_pay1 (k2_pay4 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (k2_pay3 (F := F)) :=
  sc1At2_first V c ⟨0, h⟩ rfl
theorem sc1At2_succ (c : Dev nD) (n : ℕ) (h : n + 1 < cfg2.N) :
    sc1At2 V c (n + 1) h = k2_pay1 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)) (sc1At2 V c n (Nat.lt_of_succ_lt h)) :=
  sc1At2_later V c ⟨n + 1, h⟩ (Nat.succ_ne_zero n)

theorem after2_7_last (c : Dev nD) (t : Fin cfg2.N) (ht : t.val = 9) :
    (dat2 V c).after 7 t = sc0At2 V c t.val t.isLt := by
  rw [after2_7]; unfold sc0At2
  have h0 : ¬t.val % 10 = 0 := by omega
  have h1 : t.val % 10 = 9 := by omega
  rw [outsAt2_C V c t h0 h1]; dsimp only
  exact (out2_C_7_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (sout2_C_0_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

theorem after2_8_last (c : Dev nD) (t : Fin cfg2.N) (ht : t.val = 9) :
    (dat2 V c).after 8 t = sc1At2 V c t.val t.isLt := by
  rw [after2_8]; unfold sc1At2
  have h0 : ¬t.val % 10 = 0 := by omega
  have h1 : t.val % 10 = 9 := by omega
  rw [outsAt2_C V c t h0 h1]; dsimp only
  exact (out2_C_8_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans (sout2_C_1_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

end Cert.KernelIdeal.Fr

end
-- ==== Proof.KI_R2Value.lean ====
/- A perceptron region's three outputs: the perceptron of every row, its column sums and its column sums of squares, a sum over 100000 rows taken as ten tile sums. -/
import proofs.«406896_j45226005626971_1_alg».proof.Proof.KI_R2Data
import proofs.«406896_j45226005626971_1_alg».proof.Proof.KI_R2Pieces
import proofs.«406896_j45226005626971_1_alg».proof.Proof.KI_PayA
import proofs.«406896_j45226005626971_1_alg».proof.Proof.KI_RegionFns
import proofs.«406896_j45226005626971_1_alg».proof.Proof.SpecArr
import proofs.«406896_j45226005626971_1_alg».proof.Proof.SpecLaws
import Idealize.ShloMosaic.Lib.Pipeline.Value

set_option maxRecDepth 16384

noncomputable section

open scoped BigOperators

namespace Cert.KernelIdeal.Fr

open Cert.KernelIdeal Cert.KernelIdeal.Gen Cert.KernelIdeal.GenP Cert.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Val2

theorem mlp_congr {N M : Nat} (X A : Fin N → Fin 64 → EReal) (X' A' : Fin M → Fin 64 → EReal)
    (W1 W1' : Fin 64 → Fin 64 → EReal) (b1 b1' : Fin 64 → EReal) (W2 W2' : Fin 64 → Fin 64 → EReal) (b2 b2' : Fin 64 → EReal)
    (r : Fin N) (r' : Fin M) (d : Fin 64)
    (hX : ∀ j, X r j = X' r' j) (hA : ∀ j, A r j = A' r' j) (hW1 : ∀ j k, W1 j k = W1' j k) (hb1 : ∀ k, b1 k = b1' k)
    (hW2 : ∀ k e, W2 k e = W2' k e) (hb2 : ∀ e, b2 e = b2' e) :
    Spec.mlp X A W1 b1 W2 b2 r d = Spec.mlp X' A' W1' b1' W2' b2' r' d := by
  unfold Spec.mlp
  simp only [hX, hA, hW1, hb1, hW2, hb2]

def tileSum (Hf : Fin 100000 → Fin 64 → EReal) (d : Fin 64) (s : Nat) : EReal :=
  if h : s < 10 then ∑ q : Fin 10000, Hf ⟨s * 10000 + q.val, by have := q.isLt; omega⟩ d else 0

theorem acc_tiles (Hf : Fin 100000 → Fin 64 → EReal) (d : Fin 64) :
    accUpTo (tileSum Hf d) 9 = Spec.colsum Hf d := by
  rw [accUpTo_eq_sum, sum_range_eq_sum_fin]
  unfold Spec.colsum
  refine Eq.trans ?_ (sum_tiles (T := 10) (B := 10000) (fun r => Hf r d)).symm
  refine Finset.sum_congr rfl fun t _ => ?_
  unfold tileSum
  rw [dif_pos t.isLt]

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

abbrev rowOf (t : Fin cfg2.N) (q : Fin 10000) : Fin 100000 :=
  ⟨t.val * 10000 + q.val, by have := t.isLt; have : cfg2.N = 10 := N_2; have := q.isLt; omega⟩

theorem rd_x (c : Dev nD) (t : Fin cfg2.N) (q : Fin 10000) (d : Fin 64) :
    (iblk2 V c 0 t : FVec Ideal S10000x64 .f32) (ix2 q d)
      = (V c (Pipeline.arrRef spec2 0) : S100000x64.Idx → EReal) (ix2 (rowOf t q) d) := by
  obtain ⟨e0, e1, -⟩ := idx_facts t
  unfold iblk2
  rw [View.read_apply]
  refine congrArg (V c (Pipeline.arrRef spec2 0) : S100000x64.Idx → EReal) ?_
  funext a
  apply Fin.ext
  match a with
  | ⟨0, _⟩ => show win2_0.index t (0 : Fin 2) * 10000 + 1 * q.val = t.val * 10000 + q.val; rw [e0]; omega
  | ⟨1, _⟩ => show win2_0.index t (1 : Fin 2) * 64 + 1 * d.val = d.val; rw [e1]; omega

theorem rd_a (c : Dev nD) (t : Fin cfg2.N) (q : Fin 10000) (d : Fin 64) :
    (iblk2 V c 1 t : FVec Ideal S10000x64 .f32) (ix2 q d)
      = (V c (Pipeline.arrRef spec2 1) : S100000x64.Idx → EReal) (ix2 (rowOf t q) d) := by
  obtain ⟨-, -, e0, e1, -⟩ := idx_facts t
  unfold iblk2
  rw [View.read_apply]
  refine congrArg (V c (Pipeline.arrRef spec2 1) : S100000x64.Idx → EReal) ?_
  funext a
  apply Fin.ext
  match a with
  | ⟨0, _⟩ => show win2_1.index t (0 : Fin 2) * 10000 + 1 * q.val = t.val * 10000 + q.val; rw [e0]; omega
  | ⟨1, _⟩ => show win2_1.index t (1 : Fin 2) * 64 + 1 * d.val = d.val; rw [e1]; omega

theorem rd_w1 (c : Dev nD) (t : Fin cfg2.N) (k : Fin 64) (d : Fin 64) :
    (iblk2 V c 2 t : FVec Ideal S64x64 .f32) (ix2 k d)
      = (V c (Pipeline.arrRef spec2 2) : S64x64.Idx → EReal) (ix2 k d) := by
  obtain ⟨-, -, -, -, -, -, e0, e1, -⟩ := idx_facts t
  unfold iblk2
  rw [View.read_apply]
  refine congrArg (V c (Pipeline.arrRef spec2 2) : S64x64.Idx → EReal) ?_
  funext a
  apply Fin.ext
  match a with
  | ⟨0, _⟩ => show win2_2.index t (0 : Fin 2) * 64 + 1 * k.val = k.val; rw [e0]; omega
  | ⟨1, _⟩ => show win2_2.index t (1 : Fin 2) * 64 + 1 * d.val = d.val; rw [e1]; omega

theorem rd_b1 (c : Dev nD) (t : Fin cfg2.N) (d : Fin 64) :
    (iblk2 V c 3 t : FVec Ideal S1x64 .f32) (ix2 (0 : Fin 1) d)
      = (V c (Pipeline.arrRef spec2 3) : S1x64.Idx → EReal) (ix2 (0 : Fin 1) d) := by
  obtain ⟨-, -, -, -, -, -, -, -, e0, e1, -⟩ := idx_facts t
  unfold iblk2
  rw [View.read_apply]
  refine congrArg (V c (Pipeline.arrRef spec2 3) : S1x64.Idx → EReal) ?_
  funext a
  apply Fin.ext
  match a with
  | ⟨0, _⟩ => show win2_3.index t (0 : Fin 2) * 1 + 1 * 0 = 0; rw [e0]
  | ⟨1, _⟩ => show win2_3.index t (1 : Fin 2) * 64 + 1 * d.val = d.val; rw [e1]; omega

theorem rd_w2 (c : Dev nD) (t : Fin cfg2.N) (k : Fin 64) (d : Fin 64) :
    (iblk2 V c 4 t : FVec Ideal S64x64 .f32) (ix2 k d)
      = (V c (Pipeline.arrRef spec2 4) : S64x64.Idx → EReal) (ix2 k d) := by
  obtain ⟨-, -, -, -, -, -, -, -, -, -, e0, e1, -⟩ := idx_facts t
  unfold iblk2
  rw [View.read_apply]
  refine congrArg (V c (Pipeline.arrRef spec2 4) : S64x64.Idx → EReal) ?_
  funext a
  apply Fin.ext
  match a with
  | ⟨0, _⟩ => show win2_4.index t (0 : Fin 2) * 64 + 1 * k.val = k.val; rw [e0]; omega
  | ⟨1, _⟩ => show win2_4.index t (1 : Fin 2) * 64 + 1 * d.val = d.val; rw [e1]; omega

theorem rd_b2 (c : Dev nD) (t : Fin cfg2.N) (d : Fin 64) :
    (iblk2 V c 5 t : FVec Ideal S1x64 .f32) (ix2 (0 : Fin 1) d)
      = (V c (Pipeline.arrRef spec2 5) : S1x64.Idx → EReal) (ix2 (0 : Fin 1) d) := by
  obtain ⟨-, -, -, -, -, -, -, -, -, -, -, -, e0, e1, -⟩ := idx_facts t
  unfold iblk2
  rw [View.read_apply]
  refine congrArg (V c (Pipeline.arrRef spec2 5) : S1x64.Idx → EReal) ?_
  funext a
  apply Fin.ext
  match a with
  | ⟨0, _⟩ => show win2_5.index t (0 : Fin 2) * 1 + 1 * 0 = 0; rw [e0]
  | ⟨1, _⟩ => show win2_5.index t (1 : Fin 2) * 64 + 1 * d.val = d.val; rw [e1]; omega

theorem pay4_blk (c : Dev nD) (t : Fin cfg2.N) (q : Fin 10000) (d : Fin 64) :
    k2_pay4 (F := Ideal) (iblk2 V c 0 t) (iblk2 V c 1 t) (iblk2 V c 2 t) (iblk2 V c 3 t) (iblk2 V c 4 t) (iblk2 V c 5 t) (ix2 q d)
      = H2 V c (rowOf t q) d := by
  refine (PayA.pay4_apply2 _ _ _ _ _ _ q d).trans ?_
  unfold H2
  exact mlp_congr _ _ _ _ _ _ _ _ _ _ _ _ q (rowOf t q) d (fun j => rd_x V c t q j) (fun j => rd_a V c t q j)
    (fun j k => rd_w1 V c t j k) (fun k => rd_b1 V c t k) (fun k e => rd_w2 V c t k e) (fun e => rd_b2 V c t e)

theorem flushed_h (c : Dev nD) (t : Fin cfg2.N) :
    (dat2 V c).flushed 6 t = ((cfg2.win 6).blk t).view.read (Elt Ideal) (unc2 (H2 V c)) := by
  obtain ⟨-, -, -, -, e0, e1, -⟩ := idx_facts t
  show (cfg2.win 6).cut (grid2.coords t) ((dat2 V c).after 6 t) = _
  rw [after2_6_pay]
  funext j
  obtain ⟨q, d, rfl⟩ : ∃ (q : Fin 10000) (d : Fin 64), j = ix2 q d := ⟨j 0, j 1, eq_ix2 (n0 := 10000) (n1 := 64) j⟩
  rw [View.read_apply]
  refine (pay4_blk V c t q d).trans ?_
  refine (unc2_apply (H2 V c) (rowOf t q) d).symm.trans ?_
  refine congrArg (unc2 (H2 V c)) ?_
  funext a
  apply Fin.ext
  match a with
  | ⟨0, _⟩ => show t.val * 10000 + q.val = win2_6.index t (0 : Fin 2) * 10000 + 1 * q.val; rw [e0]; omega
  | ⟨1, _⟩ => show d.val = win2_6.index t (1 : Fin 2) * 64 + 1 * d.val; rw [e1]; omega

theorem cover_h (i : S100000x64.Idx) :
    ∃ t : Fin cfg2.N, (cfg2.win 6).flush t = true ∧ i ∈ ((cfg2.win 6).blk t).view.set := by
  have hN : cfg2.N = 10 := N_2
  have hi0 : (i 0).val < 100000 := (i 0).isLt
  have hi1 : (i 1).val < 64 := (i 1).isLt
  obtain ⟨t, ht⟩ : ∃ t : Fin cfg2.N, t.val = (i 0).val / 10000 := ⟨⟨(i 0).val / 10000, by omega⟩, rfl⟩
  obtain ⟨-, -, -, -, e0, e1, -⟩ := idx_facts t
  refine ⟨t, flush2_6 t, ?_⟩
  show i ∈ ((View.whole (Pipeline.arrRef spec2 6)).slice (win2_6.rect t)).set
  rw [View.set_slice_whole, Rect.mem_set_unit]
  intro a
  match a with
  | ⟨0, _⟩ => show win2_6.index t (0 : Fin 2) * 10000 ≤ (i 0).val ∧ (i 0).val < win2_6.index t (0 : Fin 2) * 10000 + 10000; rw [e0]; omega
  | ⟨1, _⟩ => show win2_6.index t (1 : Fin 2) * 64 ≤ (i 1).val ∧ (i 1).val < win2_6.index t (1 : Fin 2) * 64 + 64; rw [e1]; omega

theorem sc0_eq (c : Dev nD) : ∀ (n : Nat) (h : n < cfg2.N) (d : Fin 64),
    (sc0At2 V c n h : FVec Ideal S1x64 .f32) (ix2 (0 : Fin 1) d) = accUpTo (tileSum (H2 V c) d) n
  | 0, h, d => by
    rw [sc0At2_zero]
    refine (PayA.pay5_apply2 _ _ _ _ _ _ _ d).trans ?_
    rw [PayA.pay2_apply2]
    show (0 : EReal) + _ = 0 + tileSum (H2 V c) d 0
    refine congrArg (fun s => (0 : EReal) + s) ?_
    unfold tileSum
    rw [dif_pos (by norm_num)]
    exact Finset.sum_congr rfl fun q _ => pay4_blk V c ⟨0, h⟩ q d
  | n + 1, h, d => by
    have hN : cfg2.N = 10 := N_2
    rw [sc0At2_succ]
    refine (PayA.pay5_apply2 _ _ _ _ _ _ _ d).trans ?_
    rw [sc0_eq c n]
    show _ = accUpTo (tileSum (H2 V c) d) n + tileSum (H2 V c) d (n + 1)
    refine congrArg (fun s => accUpTo (tileSum (H2 V c) d) n + s) ?_
    unfold tileSum
    rw [dif_pos (by omega)]
    exact Finset.sum_congr rfl fun q _ => pay4_blk V c ⟨n + 1, h⟩ q d

theorem sc1_eq (c : Dev nD) : ∀ (n : Nat) (h : n < cfg2.N) (d : Fin 64),
    (sc1At2 V c n h : FVec Ideal S1x64 .f32) (ix2 (0 : Fin 1) d)
      = accUpTo (tileSum (fun r e => H2 V c r e * H2 V c r e) d) n
  | 0, h, d => by
    rw [sc1At2_zero]
    refine (PayA.pay1_apply2 _ _ d).trans ?_
    rw [PayA.pay3_apply2]
    show (0 : EReal) + _ = 0 + tileSum (fun r e => H2 V c r e * H2 V c r e) d 0
    refine congrArg (fun s => (0 : EReal) + s) ?_
    unfold tileSum
    rw [dif_pos (by norm_num)]
    refine Finset.sum_congr rfl fun q _ => ?_
    rw [pay4_blk V c ⟨0, h⟩ q d]
  | n + 1, h, d => by
    have hN : cfg2.N = 10 := N_2
    rw [sc1At2_succ]
    refine (PayA.pay1_apply2 _ _ d).trans ?_
    rw [sc1_eq c n]
    show _ = accUpTo (tileSum (fun r e => H2 V c r e * H2 V c r e) d) n + tileSum (fun r e => H2 V c r e * H2 V c r e) d (n + 1)
    refine congrArg (fun s => accUpTo (tileSum (fun r e => H2 V c r e * H2 V c r e) d) n + s) ?_
    unfold tileSum
    rw [dif_pos (by omega)]
    refine Finset.sum_congr rfl fun q _ => ?_
    rw [pay4_blk V c ⟨n + 1, h⟩ q d]

theorem flushed_s (c : Dev nD) (t : Fin cfg2.N) (hf : (cfg2.win 7).flush t = true) :
    (dat2 V c).flushed 7 t
      = ((cfg2.win 7).blk t).view.read (Elt Ideal) (unc2 (fun (_ : Fin 1) d => Spec.colsum (H2 V c) d)) := by
  have hN : cfg2.N = 10 := N_2
  have h9 : t.val = 9 := by have := (flush2_7 t).mp hf; have := t.isLt; omega
  obtain ⟨-, -, -, -, -, -, -, -, -, -, -, -, -, -, e0, e1, -⟩ := idx_facts t
  show (cfg2.win 7).cut (grid2.coords t) ((dat2 V c).after 7 t) = _
  rw [after2_7_last V c t h9]
  funext j
  obtain ⟨u, d, rfl⟩ : ∃ (u : Fin 1) (d : Fin 64), j = ix2 u d := ⟨j 0, j 1, eq_ix2 (n0 := 1) (n1 := 64) j⟩
  obtain rfl : u = 0 := Subsingleton.elim _ _
  rw [View.read_apply]
  refine (sc0_eq V c t.val t.isLt d).trans ?_
  rw [h9, acc_tiles]
  have hemb : ((cfg2.win 7).blk t).view.emb (ix2 (0 : Fin 1) d) = (ix2 (0 : Fin 1) d : S1x64.Idx) := by
    funext a
    apply Fin.ext
    match a with
    | ⟨0, _⟩ => show win2_7.index t (0 : Fin 2) * 1 + 1 * 0 = 0; rw [e0]
    | ⟨1, _⟩ => show win2_7.index t (1 : Fin 2) * 64 + 1 * d.val = d.val; rw [e1]; omega
  rw [hemb]
  generalize Spec.colsum (H2 V c) = f
  rfl

theorem flushed_q (c : Dev nD) (t : Fin cfg2.N) (hf : (cfg2.win 8).flush t = true) :
    (dat2 V c).flushed 8 t
      = ((cfg2.win 8).blk t).view.read (Elt Ideal)
          (unc2 (fun (_ : Fin 1) d => Spec.colsum (fun r d => H2 V c r d * H2 V c r d) d)) := by
  have hN : cfg2.N = 10 := N_2
  have h9 : t.val = 9 := by have := (flush2_8 t).mp hf; have := t.isLt; omega
  obtain ⟨-, -, -, -, -, -, -, -, -, -, -, -, -, -, -, -, e0, e1⟩ := idx_facts t
  show (cfg2.win 8).cut (grid2.coords t) ((dat2 V c).after 8 t) = _
  rw [after2_8_last V c t h9]
  funext j
  obtain ⟨u, d, rfl⟩ : ∃ (u : Fin 1) (d : Fin 64), j = ix2 u d := ⟨j 0, j 1, eq_ix2 (n0 := 1) (n1 := 64) j⟩
  obtain rfl : u = 0 := Subsingleton.elim _ _
  rw [View.read_apply]
  refine (sc1_eq V c t.val t.isLt d).trans ?_
  rw [h9, acc_tiles]
  have hemb : ((cfg2.win 8).blk t).view.emb (ix2 (0 : Fin 1) d) = (ix2 (0 : Fin 1) d : S1x64.Idx) := by
    funext a
    apply Fin.ext
    match a with
    | ⟨0, _⟩ => show win2_8.index t (0 : Fin 2) * 1 + 1 * 0 = 0; rw [e0]
    | ⟨1, _⟩ => show win2_8.index t (1 : Fin 2) * 64 + 1 * d.val = d.val; rw [e1]; omega
  rw [hemb]
  generalize Spec.colsum (fun r d => H2 V c r d * H2 V c r d) = f
  rfl

theorem cover_s (i : S1x64.Idx) :
    ∃ t : Fin cfg2.N, (cfg2.win 7).flush t = true ∧ i ∈ ((cfg2.win 7).blk t).view.set := by
  have hN : cfg2.N = 10 := N_2
  have hi0 : (i 0).val < 1 := (i 0).isLt
  have hi1 : (i 1).val < 64 := (i 1).isLt
  obtain ⟨t, ht⟩ : ∃ t : Fin cfg2.N, t.val = 9 := ⟨⟨9, by omega⟩, rfl⟩
  obtain ⟨-, -, -, -, -, -, -, -, -, -, -, -, -, -, e0, e1, -⟩ := idx_facts t
  refine ⟨t, (flush2_7 t).mpr (by omega), ?_⟩
  show i ∈ ((View.whole (Pipeline.arrRef spec2 7)).slice (win2_7.rect t)).set
  rw [View.set_slice_whole, Rect.mem_set_unit]
  intro a
  match a with
  | ⟨0, _⟩ => show win2_7.index t (0 : Fin 2) * 1 ≤ (i 0).val ∧ (i 0).val < win2_7.index t (0 : Fin 2) * 1 + 1; rw [e0]; omega
  | ⟨1, _⟩ => show win2_7.index t (1 : Fin 2) * 64 ≤ (i 1).val ∧ (i 1).val < win2_7.index t (1 : Fin 2) * 64 + 64; rw [e1]; omega

theorem cover_q (i : S1x64.Idx) :
    ∃ t : Fin cfg2.N, (cfg2.win 8).flush t = true ∧ i ∈ ((cfg2.win 8).blk t).view.set := by
  have hN : cfg2.N = 10 := N_2
  have hi0 : (i 0).val < 1 := (i 0).isLt
  have hi1 : (i 1).val < 64 := (i 1).isLt
  obtain ⟨t, ht⟩ : ∃ t : Fin cfg2.N, t.val = 9 := ⟨⟨9, by omega⟩, rfl⟩
  obtain ⟨-, -, -, -, -, -, -, -, -, -, -, -, -, -, -, -, e0, e1⟩ := idx_facts t
  refine ⟨t, (flush2_8 t).mpr (by omega), ?_⟩
  show i ∈ ((View.whole (Pipeline.arrRef spec2 8)).slice (win2_8.rect t)).set
  rw [View.set_slice_whole, Rect.mem_set_unit]
  intro a
  match a with
  | ⟨0, _⟩ => show win2_8.index t (0 : Fin 2) * 1 ≤ (i 0).val ∧ (i 0).val < win2_8.index t (0 : Fin 2) * 1 + 1; rw [e0]; omega
  | ⟨1, _⟩ => show win2_8.index t (1 : Fin 2) * 64 ≤ (i 1).val ∧ (i 1).val < win2_8.index t (1 : Fin 2) * 64 + 64; rw [e1]; omega

end Val2

theorem arrAt2_6 (c : Dev nD) : (dat2 V c).arrAt 6 cfg2.N = unc2 (H2 V c) :=
  (dat2 V c).arrAt_eq_of_cover 6 (unc2 (H2 V c)) (fun t _ => Val2.flushed_h V c t) Val2.cover_h

theorem arrAt2_7 (c : Dev nD) : (dat2 V c).arrAt 7 cfg2.N = unc2 (fun (_ : Fin 1) d => Spec.colsum (H2 V c) d) :=
  (dat2 V c).arrAt_eq_of_cover 7 (unc2 (fun (_ : Fin 1) d => Spec.colsum (H2 V c) d)) (fun t hf => Val2.flushed_s V c t hf) Val2.cover_s

theorem arrAt2_8 (c : Dev nD) :
    (dat2 V c).arrAt 8 cfg2.N = unc2 (fun (_ : Fin 1) d => Spec.colsum (fun r d => H2 V c r d * H2 V c r d) d) :=
  (dat2 V c).arrAt_eq_of_cover 8 (unc2 (fun (_ : Fin 1) d => Spec.colsum (fun r d => H2 V c r d * H2 V c r d) d))
    (fun t hf => Val2.flushed_q V c t hf) Val2.cover_q

end Cert.KernelIdeal.Fr

end
-- ==== Proof.KI_R3Value.lean ====
/- A normalise-and-pool region's two outputs: the normalised array, tiled by 50 row blocks, and the rows summed by graph id, a running sum over the blocks. -/
import proofs.«406896_j45226005626971_1_alg».proof.Proof.KI_R3Data
import proofs.«406896_j45226005626971_1_alg».proof.Proof.KI_PayB
import proofs.«406896_j45226005626971_1_alg».proof.Proof.KI_RegionFns
import proofs.«406896_j45226005626971_1_alg».proof.Proof.SpecArr
import proofs.«406896_j45226005626971_1_alg».proof.Proof.SpecLaws
import Idealize.ShloMosaic.Lib.Pipeline.Value
import Idealize.ShloMosaic.Lib.ValueIdx

set_option maxRecDepth 16384

noncomputable section

open scoped BigOperators

namespace Cert.KernelIdeal.Fr

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open Cert.Spec

variable (V : (c : Dev nD) → (b : Ref sig .tc) → Buf (Elt Ideal) ((c : Thread nD τ).loc b))

namespace Val3

theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_7.index t (0 : Fin 2) = 0 ∧ win3_7.index t (1 : Fin 2) = 0 :=
  (by decide +kernel : ∀ t : Fin grid3.N, _)

theorem xblk_apply (c : Dev nD) (t : Fin cfg3.N) (q : Fin 2000) (d : Fin 64) (h : t.val * 2000 + q.val < 100000) :
    (iblk3 V c 0 t : FVec Ideal S2000x64 .f32) (ix2 q d)
      = (V c (Pipeline.arrRef spec3 0) : FVec Ideal S100000x64 .f32) (ix2 ⟨t.val * 2000 + q.val, h⟩ d) := by
  unfold iblk3
  rw [View.read_apply]
  refine congrArg (V c (Pipeline.arrRef spec3 0)) ?_
  funext a
  apply Fin.ext
  obtain ⟨e0, e1, -⟩ := idx_facts t
  match a with
  | ⟨0, _⟩ => show win3_0.index t (0 : Fin 2) * 2000 + 1 * q.val = t.val * 2000 + q.val; omega
  | ⟨1, _⟩ => show win3_0.index t (1 : Fin 2) * 64 + 1 * d.val = d.val; omega

theorem idblk_apply (c : Dev nD) (t : Fin cfg3.N) (q : Fin 2000) (h : t.val * 2000 + q.val < 100000) :
    (iblk3 V c 5 t : IVec S2000x1 32) (ix2 q (0 : Fin 1))
      = (V c (Pipeline.arrRef spec3 5) : IVec S100000x1 32) (ix2 ⟨t.val * 2000 + q.val, h⟩ (0 : Fin 1)) := by
  unfold iblk3
  rw [View.read_apply]
  refine congrArg (V c (Pipeline.arrRef spec3 5)) ?_
  funext a
  apply Fin.ext
  obtain ⟨-, -, e0, e1, -⟩ := idx_facts t
  match a with
  | ⟨0, _⟩ => show win3_5.index t (0 : Fin 2) * 2000 + 1 * q.val = t.val * 2000 + q.val; omega
  | ⟨1, _⟩ => show win3_5.index t (1 : Fin 2) * 1 + 1 * 0 = 0; omega

theorem row1_apply (c : Dev nD) (t : Fin cfg3.N) (k : Fin 64) :
    (iblk3 V c 1 t : FVec Ideal S1x64 .f32) (ix2 (0 : Fin 1) k)
      = (V c (Pipeline.arrRef spec3 1) : FVec Ideal S1x64 .f32) (ix2 (0 : Fin 1) k) := by
  unfold iblk3
  rw [View.read_apply]
  refine congrArg (V c (Pipeline.arrRef spec3 1)) ?_
  funext a
  apply Fin.ext
  obtain ⟨-, -, -, -, -, -, e0, e1, -⟩ := idx_facts t
  match a with
  | ⟨0, _⟩ => show win3_1.index t (0 : Fin 2) * 1 + 1 * 0 = 0; omega
  | ⟨1, _⟩ => show win3_1.index t (1 : Fin 2) * 64 + 1 * k.val = k.val; omega

theorem row2_apply (c : Dev nD) (t : Fin cfg3.N) (k : Fin 64) :
    (iblk3 V c 2 t : FVec Ideal S1x64 .f32) (ix2 (0 : Fin 1) k)
      = (V c (Pipeline.arrRef spec3 2) : FVec Ideal S1x64 .f32) (ix2 (0 : Fin 1) k) := by
  unfold iblk3
  rw [View.read_apply]
  refine congrArg (V c (Pipeline.arrRef spec3 2)) ?_
  funext a
  apply Fin.ext
  obtain ⟨-, -, -, -, -, -, -, -, e0, e1, -⟩ := idx_facts t
  match a with
  | ⟨0, _⟩ => show win3_2.index t (0 : Fin 2) * 1 + 1 * 0 = 0; omega
  | ⟨1, _⟩ => show win3_2.index t (1 : Fin 2) * 64 + 1 * k.val = k.val; omega

theorem row3_apply (c : Dev nD) (t : Fin cfg3.N) (k : Fin 64) :
    (iblk3 V c 3 t : FVec Ideal S1x64 .f32) (ix2 (0 : Fin 1) k)
      = (V c (Pipeline.arrRef spec3 3) : FVec Ideal S1x64 .f32) (ix2 (0 : Fin 1) k) := by
  unfold iblk3
  rw [View.read_apply]
  refine congrArg (V c (Pipeline.arrRef spec3 3)) ?_
  funext a
  apply Fin.ext
  obtain ⟨-, -, -, -, -, -, -, -, -, -, e0, e1, -⟩ := idx_facts t
  match a with
  | ⟨0, _⟩ => show win3_3.index t (0 : Fin 2) * 1 + 1 * 0 = 0; omega
  | ⟨1, _⟩ => show win3_3.index t (1 : Fin 2) * 64 + 1 * k.val = k.val; omega

theorem row4_apply (c : Dev nD) (t : Fin cfg3.N) (k : Fin 64) :
    (iblk3 V c 4 t : FVec Ideal S1x64 .f32) (ix2 (0 : Fin 1) k)
      = (V c (Pipeline.arrRef spec3 4) : FVec Ideal S1x64 .f32) (ix2 (0 : Fin 1) k) := by
  unfold iblk3
  rw [View.read_apply]
  refine congrArg (V c (Pipeline.arrRef spec3 4)) ?_
  funext a
  apply Fin.ext
  obtain ⟨-, -, -, -, -, -, -, -, -, -, -, -, e0, e1, -⟩ := idx_facts t
  match a with
  | ⟨0, _⟩ => show win3_4.index t (0 : Fin 2) * 1 + 1 * 0 = 0; omega
  | ⟨1, _⟩ => show win3_4.index t (1 : Fin 2) * 64 + 1 * k.val = k.val; omega

theorem norm_blk (c : Dev nD) (t : Fin cfg3.N) (q : Fin 2000) (d : Fin 64) (h : t.val * 2000 + q.val < 100000) :
    k3_pay3 (F := Ideal) (iblk3 V c 2 t) (iblk3 V c 3 t) (iblk3 V c 0 t) (iblk3 V c 1 t) (iblk3 V c 4 t) (ix2 q d)
      = Y3 V c ⟨t.val * 2000 + q.val, h⟩ d := by
  refine (PayB.pay3_apply3 (iblk3 V c 2 t) (iblk3 V c 3 t) (iblk3 V c 0 t) (iblk3 V c 1 t) (iblk3 V c 4 t) q d).trans ?_
  unfold Y3 Spec.norm cur2
  dsimp only
  rw [xblk_apply V c t q d h, row1_apply V c t d, row2_apply V c t d, row3_apply V c t d, row4_apply V c t d]

end Val3

namespace Val3

def rowTerm (c : Dev nD) (g : Fin 512) (d : Fin 64) (r : Nat) : EReal :=
  if h : r < 100000 then
    (if ((V c (Pipeline.arrRef spec3 5) : IVec S100000x1 32) (ix2 ⟨r, h⟩ (0 : Fin 1))).toInt = (g.val : ℤ)
      then Y3 V c ⟨r, h⟩ d else 0)
  else 0

def tileSum (c : Dev nD) (g : Fin 512) (d : Fin 64) (s : Nat) : EReal :=
  ∑ q : Fin 2000, rowTerm V c g d (s * 2000 + q.val)

theorem step_apply (c : Dev nD) (t : Fin cfg3.N) (acc : FVec Ideal S512x64 .f32) (g : Fin 512) (d : Fin 64) :
    k3_pay1 (F := Ideal) (k3_pay4 (F := Ideal) (iblk3 V c 2 t) (iblk3 V c 3 t) (iblk3 V c 0 t) (iblk3 V c 1 t)
        (iblk3 V c 4 t) (iblk3 V c 5 t) acc) (ix2 g d)
      = acc (ix2 g d) + tileSum V c g d t.val := by
  have hN : t.val < 50 := lt_of_lt_of_eq t.isLt (show cfg3.N = 50 from N_3)
  refine (congrFun (PayB.pay1_apply3 (k3_pay4 (F := Ideal) (iblk3 V c 2 t) (iblk3 V c 3 t) (iblk3 V c 0 t)
    (iblk3 V c 1 t) (iblk3 V c 4 t) (iblk3 V c 5 t) acc)) (ix2 g d)).trans ?_
  refine (PayB.pay4_apply3 (iblk3 V c 2 t) (iblk3 V c 3 t) (iblk3 V c 0 t) (iblk3 V c 1 t) (iblk3 V c 4 t)
    (iblk3 V c 5 t) acc g d).trans ?_
  refine congrArg (acc (ix2 g d) + ·) ?_
  unfold tileSum
  refine Finset.sum_congr rfl fun q _ => ?_
  have hq : t.val * 2000 + q.val < 100000 := by have := q.isLt; omega
  unfold rowTerm
  rw [dif_pos hq, idblk_apply V c t q hq, norm_blk V c t q d hq]

theorem scAt_apply (c : Dev nD) (g : Fin 512) (d : Fin 64) :
    ∀ (n : Nat) (h : n < cfg3.N), scAt3 V c n h (ix2 g d) = accUpTo (tileSum V c g d) n
  | 0, h => by
    rw [scAt3_zero V c h]
    refine (step_apply V c ⟨0, h⟩ (k3_pay2 (F := Ideal)) g d).trans ?_
    rw [PayB.pay2_apply3 g d]
    rfl
  | n + 1, h => by
    rw [scAt3_succ V c n h]
    refine (step_apply V c ⟨n + 1, h⟩ (scAt3 V c n (Nat.lt_of_succ_lt h)) g d).trans ?_
    rw [scAt_apply c g d n (Nat.lt_of_succ_lt h)]
    rfl

theorem acc_last (c : Dev nD) (g : Fin 512) (d : Fin 64) :
    accUpTo (tileSum V c g d) 49
      = Spec.pool (Y3 V c) (fun r => (V c (Pipeline.arrRef spec3 5) : IVec S100000x1 32) (ix2 r (0 : Fin 1))) g d := by
  rw [accUpTo_eq_sum, sum_range_eq_sum_fin]
  unfold Spec.pool
  have hrow : ∀ r : Fin 100000,
      (if ((V c (Pipeline.arrRef spec3 5) : IVec S100000x1 32) (ix2 r (0 : Fin 1))).toInt = (g.val : ℤ)
        then Y3 V c r d else 0) = rowTerm V c g d r.val := fun r => by
    unfold rowTerm
    rw [dif_pos r.isLt]
  simp only [hrow]
  exact (sum_tiles (T := 50) (B := 2000) (fun r => rowTerm V c g d r.val)).symm

end Val3

namespace Val3

theorem emb6 (t : Fin cfg3.N) (q : Fin 2000) (d : Fin 64) (hq : t.val * 2000 + q.val < 100000) :
    ((cfg3.win 6).blk t).view.emb (ix2 q d) = (ix2 ⟨t.val * 2000 + q.val, hq⟩ d : S100000x64.Idx) := by
  obtain ⟨-, -, -, -, e0, e1, -⟩ := idx_facts t
  funext a
  apply Fin.ext
  match a with
  | ⟨0, _⟩ => show win3_6.index t (0 : Fin 2) * 2000 + 1 * q.val = t.val * 2000 + q.val; omega
  | ⟨1, _⟩ => show win3_6.index t (1 : Fin 2) * 64 + 1 * d.val = d.val; omega

theorem emb7 (t : Fin cfg3.N) (g : Fin 512) (d : Fin 64) :
    ((cfg3.win 7).blk t).view.emb (ix2 g d) = (ix2 g d : S512x64.Idx) := by
  obtain ⟨-, -, -, -, -, -, -, -, -, -, -, -, -, -, e0, e1⟩ := idx_facts t
  funext a
  apply Fin.ext
  match a with
  | ⟨0, _⟩ => show win3_7.index t (0 : Fin 2) * 512 + 1 * g.val = g.val; omega
  | ⟨1, _⟩ => show win3_7.index t (1 : Fin 2) * 64 + 1 * d.val = d.val; omega

theorem flushed6_at (c : Dev nD) (t : Fin cfg3.N) (q : Fin 2000) (d : Fin 64) :
    k3_pay3 (F := Ideal) (iblk3 V c 2 t) (iblk3 V c 3 t) (iblk3 V c 0 t) (iblk3 V c 1 t) (iblk3 V c 4 t) (ix2 q d)
      = unc2 (Y3 V c) (((cfg3.win 6).blk t).view.emb (ix2 q d)) := by
  have hN : t.val < 50 := lt_of_lt_of_eq t.isLt (show cfg3.N = 50 from N_3)
  have hq : t.val * 2000 + q.val < 100000 := by have := q.isLt; omega
  rw [emb6 t q d hq]
  exact norm_blk V c t q d hq

theorem flushed6_eq (c : Dev nD) (t : Fin cfg3.N) :
    (dat3 V c).flushed 6 t = ((cfg3.win 6).blk t).view.read (Elt Ideal) (unc2 (Y3 V c)) := by
  show (cfg3.win 6).cut (grid3.coords t) ((dat3 V c).after 6 t) = _
  rw [after3_6]
  funext j
  rw [View.read_apply]
  have hj : j = ix2 (j 0) (j 1) := eq_ix2 j
  rw [hj]
  exact flushed6_at V c t (j 0) (j 1)

theorem flushed7_at (c : Dev nD) (t : Fin cfg3.N) (ht : t.val = 49) (g : Fin 512) (d : Fin 64) :
    scAt3 V c t.val t.isLt (ix2 g d)
      = unc2 (Spec.pool (Y3 V c) (fun r => (V c (Pipeline.arrRef spec3 5) : IVec S100000x1 32) (ix2 r (0 : Fin 1))))
          (((cfg3.win 7).blk t).view.emb (ix2 g d)) := by
  rw [emb7 t g d]
  refine (scAt_apply V c g d t.val t.isLt).trans ?_
  refine (congrArg (accUpTo (tileSum V c g d)) ht).trans ?_
  exact acc_last V c g d

theorem flushed7_eq (c : Dev nD) (t : Fin cfg3.N) (hf : (cfg3.win 7).flush t = true) :
    (dat3 V c).flushed 7 t = ((cfg3.win 7).blk t).view.read (Elt Ideal)
      (unc2 (Spec.pool (Y3 V c) (fun r => (V c (Pipeline.arrRef spec3 5) : IVec S100000x1 32) (ix2 r (0 : Fin 1))))) := by
  have hN : t.val < 50 := lt_of_lt_of_eq t.isLt (show cfg3.N = 50 from N_3)
  have ht : t.val = 49 := by have := (flush3_7 t).mp hf; omega
  show (cfg3.win 7).cut (grid3.coords t) ((dat3 V c).after 7 t) = _
  rw [after3_7_last V c t ht]
  have key : ∀ (g : Fin 512) (d : Fin 64), scAt3 V c t.val t.isLt (ix2 g d)
      = unc2 (Spec.pool (Y3 V c) (fun r => (V c (Pipeline.arrRef spec3 5) : IVec S100000x1 32) (ix2 r (0 : Fin 1))))
          (((cfg3.win 7).blk t).view.emb (ix2 g d)) := fun g d => flushed7_at V c t ht g d
  generalize scAt3 V c t.val t.isLt = X at key ⊢
  generalize Spec.pool (Y3 V c) (fun r => (V c (Pipeline.arrRef spec3 5) : IVec S100000x1 32) (ix2 r (0 : Fin 1))) = P at key ⊢
  funext j
  rw [View.read_apply]
  have hj : j = ix2 (j 0) (j 1) := eq_ix2 j
  rw [hj]
  exact key (j 0) (j 1)

theorem mem_blk6 (t : Fin cfg3.N) (i : S100000x64.Idx) :
    i ∈ ((cfg3.win 6).blk t).view.set
      ↔ ∀ a : Fin 2, win3_6.index t a * S2000x64.size a ≤ (i a).val ∧ (i a).val < win3_6.index t a * S2000x64.size a + S2000x64.size a := by
  show i ∈ ((View.whole (Pipeline.arrRef spec3 6)).slice (win3_6.rect t)).set ↔ _
  rw [View.set_slice_whole, Rect.mem_set_unit]
  exact Iff.rfl

theorem mem_blk7 (t : Fin cfg3.N) (i : S512x64.Idx) :
    i ∈ ((cfg3.win 7).blk t).view.set
      ↔ ∀ a : Fin 2, win3_7.index t a * S512x64.size a ≤ (i a).val ∧ (i a).val < win3_7.index t a * S512x64.size a + S512x64.size a := by
  show i ∈ ((View.whole (Pipeline.arrRef spec3 7)).slice (win3_7.rect t)).set ↔ _
  rw [View.set_slice_whole, Rect.mem_set_unit]
  exact Iff.rfl

theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 50 := N_3
  have ht : (i 0).val / 2000 < cfg3.N := by rw [hN]; omega
  refine ⟨⟨(i 0).val / 2000, ht⟩, flush3_6 _, ?_⟩
  rw [mem_blk6]
  obtain ⟨-, -, -, -, e0, e1, -⟩ := idx_facts ⟨(i 0).val / 2000, ht⟩
  have e0' : win3_6.index ⟨(i 0).val / 2000, ht⟩ (0 : Fin 2) = (i 0).val / 2000 := e0
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e0']; omega
  | ⟨1, _⟩ =>
    show win3_6.index ⟨(i 0).val / 2000, ht⟩ (1 : Fin 2) * 64 ≤ (i 1).val
      ∧ (i 1).val < win3_6.index ⟨(i 0).val / 2000, ht⟩ (1 : Fin 2) * 64 + 64
    rw [e1]; omega

theorem cover7 (i : S512x64.Idx) : ∃ t : Fin cfg3.N, (cfg3.win 7).flush t = true ∧ i ∈ ((cfg3.win 7).blk t).view.set := by
  have hi0 : (i 0).val < 512 := (i 0).isLt
  have hi1 : (i 1).val < 64 := (i 1).isLt
  have hN : cfg3.N = 50 := N_3
  have ht : 49 < cfg3.N := by rw [hN]; omega
  refine ⟨⟨49, ht⟩, (flush3_7 _).mpr rfl, ?_⟩
  rw [mem_blk7]
  obtain ⟨-, -, -, -, -, -, -, -, -, -, -, -, -, -, e0, e1⟩ := idx_facts ⟨49, ht⟩
  intro a
  match a with
  | ⟨0, _⟩ =>
    show win3_7.index ⟨49, ht⟩ (0 : Fin 2) * 512 ≤ (i 0).val ∧ (i 0).val < win3_7.index ⟨49, ht⟩ (0 : Fin 2) * 512 + 512
    rw [e0]; omega
  | ⟨1, _⟩ =>
    show win3_7.index ⟨49, ht⟩ (1 : Fin 2) * 64 ≤ (i 1).val ∧ (i 1).val < win3_7.index ⟨49, ht⟩ (1 : Fin 2) * 64 + 64
    rw [e1]; omega

end Val3

theorem arrAt3_6 (c : Dev nD) : (dat3 V c).arrAt 6 cfg3.N = unc2 (Y3 V c) :=
  (dat3 V c).arrAt_eq_of_cover 6 (unc2 (Y3 V c)) (fun t _ => Val3.flushed6_eq V c t) Val3.cover6

theorem arrAt3_7 (c : Dev nD) :
    (dat3 V c).arrAt 7 cfg3.N
      = unc2 (Spec.pool (Y3 V c) (fun r => (V c (Pipeline.arrRef spec3 5) : IVec S100000x1 32) (ix2 r (0 : Fin 1)))) :=
  (dat3 V c).arrAt_eq_of_cover 7
    (unc2 (Spec.pool (Y3 V c) (fun r => (V c (Pipeline.arrRef spec3 5) : IVec S100000x1 32) (ix2 r (0 : Fin 1)))))
    (fun t hf => Val3.flushed7_eq V c t hf) Val3.cover7

end Cert.KernelIdeal.Fr

end
-- ==== Proof.KI_Final.lean ====
/- The four regions' values assembled: the result array holds the two pooled layers side by side. -/
import proofs.«406896_j45226005626971_1_alg».proof.Proof.KI_Value
import proofs.«406896_j45226005626971_1_alg».proof.Proof.KI_R0Value
import proofs.«406896_j45226005626971_1_alg».proof.Proof.KI_R1Value
import proofs.«406896_j45226005626971_1_alg».proof.Proof.KI_R2Value
import proofs.«406896_j45226005626971_1_alg».proof.Proof.KI_R3Value

noncomputable section

namespace Cert.KernelIdeal.Fr

open Cert.KernelIdeal Cert.KernelIdeal.Gen Cert.KernelIdeal.GenP Cert.Spec
open Idealize.ShloMosaic Idealize.ShloMosaic.TcCoe Idealize.ShloMosaic.ValueIdx

theorem regionVals : RegionVals :=
  ⟨arrAt0_6, arrAt0_7, arrAt0_8, arrAt1_6, arrAt1_7, arrAt2_6, arrAt2_7, arrAt2_8, arrAt3_7⟩

variable (m : (ℓ : Loc nD τ sig) → Buf (Elt Ideal) ℓ) (ρ : Dev nD → PrngReg)

theorem result (c : Dev nD) : (W9 m ρ c (Proc.devRef .tc main_v49) : FVec Ideal S512x128 .f32)
    = unc2 (Spec.sideBySide (Spec.pool (L0 m c) (cur1 (aBatch m c))) (Spec.pool (L1 m c) (cur1 (aBatch m c)))) :=
  result_eq m ρ regionVals c

end Cert.KernelIdeal.Fr

end
-- ==== Proof.Ref_Stages.lean ====
/- The reference's value stage by stage, each stage the composition of its printed operations. -/
import proofs.«406896_j45226005626971_1_alg».proof.Proof.Gen.ReferenceIdeal

noncomputable section

namespace Cert.ReferenceIdeal.Stages

open Cert.ReferenceIdeal Cert.ReferenceIdeal.Gen Idealize.ShloMosaic

variable {F : FTy → Type} [FloatOps F]

def src (ei : IVec S2x1000000 32) : IVec S1000000 32 :=
  shapeCast S1000000 (extractStridedSlice S1x1000000 ![0, 0] ei slices_S2x1000000_S1x1000000_0_0)
    shapeCasts_S1x1000000_S1000000

def dst (ei : IVec S2x1000000 32) : IVec S1000000 32 :=
  shapeCast S1000000 (extractStridedSlice S1x1000000 ![1, 0] ei slices_S2x1000000_S1x1000000_1_0)
    shapeCasts_S1x1000000_S1000000

def srcN (ei : IVec S2x1000000 32) : IVec S1000000 32 :=
  select
    (cmpi .slt (src ei) (broadcastInDim S1000000 ![] bcast_S_S1000000 (constantI S_ 32 0#32)))
    (addi (src ei) (broadcastInDim S1000000 ![] bcast_S_S1000000 (constantI S_ 32 100000#32)))
    (src ei)

def rows {α : Type} (v : S64.Idx → α) : S100000x64.Idx → α :=
  broadcastInDim S100000x64 ![0, 1] bcast_S1x64_S100000x64_0_1 (broadcastInDim S1x64 ![1] bcast_S64_S1x64_1 v)

def agg (x : FVec F S100000x64 .f32) (ei : IVec S2x1000000 32) : FVec F S100000x64 .f32 :=
  Host.scatterAdd scatter_S100000x64_S1000000x1_S1000000x64_1_0_0_1
    (broadcastInDim S100000x64 ![] bcast_S_S100000x64 (constant (F := F) S_ .f32 0x00000000#32))
    (broadcastInDim S1000000x1 ![0] bcast_S1000000_S1000000x1_0 (dst ei))
    (Host.gather gather_S100000x64_S1000000x1_S1000000x64_1_0_n_n_0_1_164 x
      (broadcastInDim S1000000x1 ![0] bcast_S1000000_S1000000x1_0 (srcN ei)))

def hid (x : FVec F S100000x64 .f32) (ei : IVec S2x1000000 32) (W1 : FVec F S64x64 .f32) (b1 : FVec F S64 .f32)
    (W2 : FVec F S64x64 .f32) (b2 : FVec F S64 .f32) : FVec F S100000x64 .f32 :=
  Host.tanh
    (addf
      (Host.dotGeneral dot_S100000x64_S64x64_S100000x64_1_0_0_1_n_n none
        (Host.tanh
          (addf
            (Host.dotGeneral dot_S100000x64_S64x64_S100000x64_1_0_0_1_n_n none (addf x (agg x ei)) W1)
            (rows b1)))
        W2)
      (rows b2))

def mu (h : FVec F S100000x64 .f32) : FVec F S64 .f32 :=
  Host.divf
    (Host.reduceAdd h (constant (F := F) S_ .f32 0x00000000#32) reducesTo_S100000x64_S64_d0 h_S_)
    (broadcastInDim S64 ![] bcast_S_S64 (constant (F := F) S_ .f32 0x47C35000#32))

def varMean (h : FVec F S100000x64 .f32) : FVec F S1x64 .f32 :=
  Host.divf
    (broadcastInDim S1x64 ![1] bcast_S64_S1x64_1
      (Host.reduceAdd h (constant (F := F) S_ .f32 0x00000000#32) reducesTo_S100000x64_S64_d0 h_S_))
    (broadcastInDim S1x64 ![] bcast_S_S1x64 (constant (F := F) S_ .f32 0x47C35000#32))

def varDen : FVec F S_ .f32 :=
  subf (constant (F := F) S_ .f32 0x47C35000#32) (sitofp (F := F) .f32 (constantI S_ 32 0#32))

def var (h : FVec F S100000x64 .f32) : FVec F S64 .f32 :=
  select
    (broadcastInDim S64 ![] bcast_S_S64 (cmpf (F := F) .ogt varDen (constant (F := F) S_ .f32 0x00000000#32)))
    (Host.divf
      (Host.reduceAdd
        (mulf
          (subf h (broadcastInDim S100000x64 ![0, 1] bcast_S1x64_S100000x64_0_1 (varMean h)))
          (subf h (broadcastInDim S100000x64 ![0, 1] bcast_S1x64_S100000x64_0_1 (varMean h))))
        (constant (F := F) S_ .f32 0x00000000#32) reducesTo_S100000x64_S64_d0 h_S_)
      (broadcastInDim S64 ![] bcast_S_S64 (varDen (F := F))))
    (broadcastInDim S64 ![] bcast_S_S64 (id (constant (F := F) S_ .f32 0x7FC00000#32)))

def bn (h : FVec F S100000x64 .f32) (γ β : FVec F S64 .f32) : FVec F S100000x64 .f32 :=
  addf
    (mulf
      (subf h (rows (mu h)))
      (rows
        (Host.divf γ
          (Host.sqrt (addf (var h) (broadcastInDim S64 ![] bcast_S_S64 (constant (F := F) S_ .f32 0x3727C5AC#32)))))))
    (rows β)

def layer (x : FVec F S100000x64 .f32) (ei : IVec S2x1000000 32) (W1 : FVec F S64x64 .f32) (b1 : FVec F S64 .f32)
    (W2 : FVec F S64x64 .f32) (b2 : FVec F S64 .f32) (γ β : FVec F S64 .f32) : FVec F S100000x64 .f32 :=
  bn (hid x ei W1 b1 W2 b2) γ β

def pool (y : FVec F S100000x64 .f32) (batch : IVec S100000 32) : FVec F S512x64 .f32 :=
  Host.scatterAdd scatter_S512x64_S100000x1_S100000x64_1_0_0_1
    (broadcastInDim S512x64 ![] bcast_S_S512x64 (constant (F := F) S_ .f32 0x00000000#32))
    (broadcastInDim S100000x1 ![0] bcast_S100000_S100000x1_0 batch)
    y

def out (x : FVec F S100000x64 .f32)
    (W1_0 : FVec F S64x64 .f32) (b1_0 : FVec F S64 .f32) (W2_0 : FVec F S64x64 .f32) (b2_0 : FVec F S64 .f32)
    (γ0 β0 : FVec F S64 .f32)
    (W1_1 : FVec F S64x64 .f32) (b1_1 : FVec F S64 .f32) (W2_1 : FVec F S64x64 .f32) (b2_1 : FVec F S64 .f32)
    (γ1 β1 : FVec F S64 .f32)
    (ei : IVec S2x1000000 32) (batch : IVec S100000 32) : FVec F S512x128 .f32 :=
  concatenate S512x128 1
    [⟨S512x64, pool (layer x ei W1_0 b1_0 W2_0 b2_0 γ0 β0) batch⟩,
     ⟨S512x64, pool (layer (layer x ei W1_0 b1_0 W2_0 b2_0 γ0 β0) ei W1_1 b1_1 W2_1 b2_1 γ1 β1) batch⟩]
    concatenates_S512x64_S512x64_S512x128_d1

end Cert.ReferenceIdeal.Stages

end
-- ==== Proof.Ref_Ops.lean ====
/- The reference program as lists of its operations, cut into stretches; each operation writes the one reference listed for it. -/
import proofs.«406896_j45226005626971_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.SL.Sem Idealize.ShloMosaic.StableHlo

section General

variable {nD : Nat} {τ : Topo} {sig : RefSig} {Val : EltTy → Type} {Λ : Labels}

def seqK : List (HloOp τ sig Val) → Prog (TpuEff nD τ sig Val Λ .tc) PUnit → Prog (TpuEff nD τ sig Val Λ .tc) PUnit
  | [], k => k
  | op :: ops, k => (hlo rfl op fun _ => .ret (⟨⟩ : PUnit)) >>= fun _ => seqK ops k

theorem seqK_eq (ops : List (HloOp τ sig Val)) (k : Prog (TpuEff nD τ sig Val Λ .tc) PUnit) :
    seqK ops k = (seq ops >>= fun _ => k) := by
  induction ops with
  | nil => simp only [seqK, seq, pure_bind]
  | cons op ops ih => simp only [seqK, seq, ih, bind_assoc]

theorem writes_sub_of_mem {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.2 ⟨y, hy, rfl⟩

end General

open Cert.ReferenceIdeal Cert.ReferenceIdeal.Gen Idealize.ShloMosaic.TcCoe

variable {F : FTy → Type} [FloatOps F]

def varOps (arg0 : StableHlo.TRef sig ⟨S100000x64, .f32⟩) (arg1 : StableHlo.TRef sig ⟨S_, .i32⟩) (φ : fn_var.Bufs) :
    List (HloOp τ sig (Elt F)) :=
  [ StableHlo.TRef.nullary φ.cst (constant S_ .f32 0x00000000#32),
    StableHlo.TRef.binary arg0 φ.cst φ.v0 (fun x v => Host.reduceAdd x v reducesTo_S100000x64_S64_d0 h_S_),
    StableHlo.TRef.unary φ.v0 φ.v1 (broadcastInDim S1x64 ![1] bcast_S64_S1x64_1),
    StableHlo.TRef.nullary φ.cst_0 (constant S_ .f32 0x47C35000#32),
    StableHlo.TRef.unary φ.cst_0 φ.v2 (broadcastInDim S1x64 ![] bcast_S_S1x64),
    StableHlo.TRef.binary φ.v1 φ.v2 φ.v3 Host.divf,
    StableHlo.TRef.unary φ.v3 φ.v4 (broadcastInDim S100000x64 ![0, 1] bcast_S1x64_S100000x64_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47C35000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S100000x64_S64_d0 h_S_),
    StableHlo.TRef.unary φ.v8 φ.v10 (broadcastInDim S64 ![] bcast_S_S64),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32),
    StableHlo.TRef.unary φ.cst_4 φ.call0.v0 id,
    StableHlo.TRef.unary φ.call0.v0 φ.call0.v1 (broadcastInDim S64 ![] bcast_S_S64),
    StableHlo.TRef.ternary φ.v12 φ.v11 φ.call0.v1 φ.call0.v2 (fun p a b => select (broadcastInDim S64 ![] bcast_S_S64 p) a b) ]

theorem var_eq (arg0 : StableHlo.TRef sig ⟨S100000x64, .f32⟩) (arg1 : StableHlo.TRef sig ⟨S_, .i32⟩) (φ : fn_var.Bufs) :
    fn_var.body (F := F) arg0 arg1 φ = seq (varOps arg0 arg1 φ) := by
  chain_rfl

theorem varOps_sub (arg0 : StableHlo.TRef sig ⟨S100000x64, .f32⟩) (arg1 : StableHlo.TRef sig ⟨S_, .i32⟩) (φ : fn_var.Bufs) :
    (varOps (F := F) arg0 arg1 φ).Forall fun op => op.bufs ⊆ tcRefs τ sig := by
  unfold varOps
  exact ⟨
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem varOps_fresh (arg0 : StableHlo.TRef sig ⟨S100000x64, .f32⟩) (arg1 : StableHlo.TRef sig ⟨S_, .i32⟩) (φ : fn_var.Bufs) :
    ∀ op ∈ varOps (F := F) arg0 arg1 φ, op.fresh = ∅ :=
  List.forall_iff_forall_mem.1 (by
    unfold varOps
    exact ⟨
      rfl, rfl, rfl, rfl, rfl, rfl, rfl, rfl, rfl, rfl, rfl, rfl, rfl, rfl, rfl, rfl,
      rfl, rfl, rfl, rfl, rfl, rfl⟩)

def c0 : List (HloOp τ sig (Elt F)) :=
  [ StableHlo.unary main_arg13 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg13 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

theorem c0_sub : (c0 (F := F)).Forall fun op => op.bufs ⊆ tcRefs τ sig := by
  unfold c0
  exact ⟨
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩

theorem c0_fresh : ∀ op ∈ c0 (F := F), op.fresh = ∅ :=
  List.forall_iff_forall_mem.1 (by
    unfold c0
    exact ⟨
      rfl, rfl, rfl, rfl, rfl, rfl, rfl, rfl, rfl, rfl, rfl, rfl, rfl, rfl, rfl, rfl,
      rfl⟩)

def c0_W : List (Ref sig .tc) :=
  [ main_v0, main_v1, main_v2, main_v3, main_c, main_v4, main_v5, main_c_0, main_v6, main_v7, main_v8, main_v9, main_v10, main_cst, main_v11, main_v12, main_v13 ]

theorem c0_writes : (c0 (F := F)).Forall fun op => op.writes ⊆ ((c0_W).map (Proc.devRef (τ := τ) .tc)).toFinset := by
  unfold c0
  exact ⟨
    writes_sub_of_mem (y := main_v0) rfl (by decide), writes_sub_of_mem (y := main_v1) rfl (by decide),
    writes_sub_of_mem (y := main_v2) rfl (by decide), writes_sub_of_mem (y := main_v3) rfl (by decide),
    writes_sub_of_mem (y := main_c) rfl (by decide), writes_sub_of_mem (y := main_v4) rfl (by decide),
    writes_sub_of_mem (y := main_v5) rfl (by decide), writes_sub_of_mem (y := main_c_0) rfl (by decide),
    writes_sub_of_mem (y := main_v6) rfl (by decide), writes_sub_of_mem (y := main_v7) rfl (by decide),
    writes_sub_of_mem (y := main_v8) rfl (by decide), writes_sub_of_mem (y := main_v9) rfl (by decide),
    writes_sub_of_mem (y := main_v10) rfl (by decide), writes_sub_of_mem (y := main_cst) rfl (by decide),
    writes_sub_of_mem (y := main_v11) rfl (by decide), writes_sub_of_mem (y := main_v12) rfl (by decide),
    writes_sub_of_mem (y := main_v13) rfl (by decide)⟩

theorem c0_frame (V : Valuation τ sig (Elt F)) {r : Ref sig .tc} (hr : r ∉ c0_W) :
    after c0 V (Proc.devRef .tc r) = V (Proc.devRef .tc r) :=
  after_of_writes_sub c0 V c0_writes hr

def c1 : List (HloOp τ sig (Elt F)) :=
  [ StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg1 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.unary main_v18 main_v19 (Host.tanh : (⟨S100000x64, .f32⟩ : BufTy).Contents (Elt F) → (⟨S100000x64, .f32⟩ : BufTy).Contents (Elt F)),
    StableHlo.binary main_v19 main_arg3 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v22 main_v23 (addf : (⟨S100000x64, .f32⟩ : BufTy).Contents (Elt F) → (⟨S100000x64, .f32⟩ : BufTy).Contents (Elt F) → (⟨S100000x64, .f32⟩ : BufTy).Contents (Elt F)),
    StableHlo.unary main_v23 main_v24 (Host.tanh : (⟨S100000x64, .f32⟩ : BufTy).Contents (Elt F) → (⟨S100000x64, .f32⟩ : BufTy).Contents (Elt F)) ]

theorem c1_sub : (c1 (F := F)).Forall fun op => op.bufs ⊆ tcRefs τ sig := by
  unfold c1
  exact ⟨
    binary_bufs_sub .., binary_bufs_sub .., unary_bufs_sub .., unary_bufs_sub .., binary_bufs_sub .., unary_bufs_sub ..,
    binary_bufs_sub .., unary_bufs_sub .., unary_bufs_sub .., binary_bufs_sub .., unary_bufs_sub ..⟩

theorem c1_fresh : ∀ op ∈ c1 (F := F), op.fresh = ∅ :=
  List.forall_iff_forall_mem.1 (by
    unfold c1
    exact ⟨
      rfl, rfl, rfl, rfl, rfl, rfl, rfl, rfl, rfl, rfl, rfl⟩)

def c1_W : List (Ref sig .tc) :=
  [ main_v14, main_v15, main_v16, main_v17, main_v18, main_v19, main_v20, main_v21, main_v22, main_v23, main_v24 ]

theorem c1_writes : (c1 (F := F)).Forall fun op => op.writes ⊆ ((c1_W).map (Proc.devRef (τ := τ) .tc)).toFinset := by
  unfold c1
  exact ⟨
    writes_sub_of_mem (y := main_v14) rfl (by decide), writes_sub_of_mem (y := main_v15) rfl (by decide),
    writes_sub_of_mem (y := main_v16) rfl (by decide), writes_sub_of_mem (y := main_v17) rfl (by decide),
    writes_sub_of_mem (y := main_v18) rfl (by decide), writes_sub_of_mem (y := main_v19) rfl (by decide),
    writes_sub_of_mem (y := main_v20) rfl (by decide), writes_sub_of_mem (y := main_v21) rfl (by decide),
    writes_sub_of_mem (y := main_v22) rfl (by decide), writes_sub_of_mem (y := main_v23) rfl (by decide),
    writes_sub_of_mem (y := main_v24) rfl (by decide)⟩

theorem c1_frame (V : Valuation τ sig (Elt F)) {r : Ref sig .tc} (hr : r ∉ c1_W) :
    after c1 V (Proc.devRef .tc r) = V (Proc.devRef .tc r) :=
  after_of_writes_sub c1 V c1_writes hr

def c2a : List (HloOp τ sig (Elt F)) :=
  [ StableHlo.nullary main_cst_1 (constant S_ .f32 0x00000000#32),
    StableHlo.binary main_v24 main_cst_1 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32) ]

theorem c2a_sub : (c2a (F := F)).Forall fun op => op.bufs ⊆ tcRefs τ sig := by
  unfold c2a
  exact ⟨
    nullary_bufs_sub .., binary_bufs_sub .., nullary_bufs_sub .., unary_bufs_sub .., binary_bufs_sub .., nullary_bufs_sub ..⟩

theorem c2a_fresh : ∀ op ∈ c2a (F := F), op.fresh = ∅ :=
  List.forall_iff_forall_mem.1 (by
    unfold c2a
    exact ⟨
      rfl, rfl, rfl, rfl, rfl, rfl⟩)

def c2a_W : List (Ref sig .tc) :=
  [ main_cst_1, main_v25, main_cst_2, main_v26, main_v27, main_c_3 ]

theorem c2a_writes : (c2a (F := F)).Forall fun op => op.writes ⊆ ((c2a_W).map (Proc.devRef (τ := τ) .tc)).toFinset := by
  unfold c2a
  exact ⟨
    writes_sub_of_mem (y := main_cst_1) rfl (by decide), writes_sub_of_mem (y := main_v25) rfl (by decide),
    writes_sub_of_mem (y := main_cst_2) rfl (by decide), writes_sub_of_mem (y := main_v26) rfl (by decide),
    writes_sub_of_mem (y := main_v27) rfl (by decide), writes_sub_of_mem (y := main_c_3) rfl (by decide)⟩

theorem c2a_frame (V : Valuation τ sig (Elt F)) {r : Ref sig .tc} (hr : r ∉ c2a_W) :
    after c2a V (Proc.devRef .tc r) = V (Proc.devRef .tc r) :=
  after_of_writes_sub c2a V c2a_writes hr

def call0 : List (HloOp τ sig (Elt F)) := varOps (.of main_v24) (.of main_c_3) main_call0

theorem call0_sub : (call0 (F := F)).Forall fun op => op.bufs ⊆ tcRefs τ sig := varOps_sub ..
theorem call0_fresh : ∀ op ∈ call0 (F := F), op.fresh = ∅ := varOps_fresh _ _ _

def call0_W : List (Ref sig .tc) :=
  [ main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28 ]

theorem call0_writes : (call0 (F := F)).Forall fun op => op.writes ⊆ ((call0_W).map (Proc.devRef (τ := τ) .tc)).toFinset := by
  unfold call0 varOps
  exact ⟨
    writes_sub_of_mem (y := main_call0_cst) rfl (by decide), writes_sub_of_mem (y := main_call0_v0) rfl (by decide),
    writes_sub_of_mem (y := main_call0_v1) rfl (by decide), writes_sub_of_mem (y := main_call0_cst_0) rfl (by decide),
    writes_sub_of_mem (y := main_call0_v2) rfl (by decide), writes_sub_of_mem (y := main_call0_v3) rfl (by decide),
    writes_sub_of_mem (y := main_call0_v4) rfl (by decide), writes_sub_of_mem (y := main_call0_v5) rfl (by decide),
    writes_sub_of_mem (y := main_call0_v6) rfl (by decide), writes_sub_of_mem (y := main_call0_v7) rfl (by decide),
    writes_sub_of_mem (y := main_call0_cst_1) rfl (by decide), writes_sub_of_mem (y := main_call0_v8) rfl (by decide),
    writes_sub_of_mem (y := main_call0_cst_2) rfl (by decide), writes_sub_of_mem (y := main_call0_v9) rfl (by decide),
    writes_sub_of_mem (y := main_call0_v10) rfl (by decide), writes_sub_of_mem (y := main_call0_v11) rfl (by decide),
    writes_sub_of_mem (y := main_call0_cst_3) rfl (by decide), writes_sub_of_mem (y := main_call0_v12) rfl (by decide),
    writes_sub_of_mem (y := main_call0_cst_4) rfl (by decide), writes_sub_of_mem (y := main_call0_call0_v0) rfl (by decide),
    writes_sub_of_mem (y := main_call0_call0_v1) rfl (by decide), writes_sub_of_mem (y := main_v28) rfl (by decide)⟩

theorem call0_frame (V : Valuation τ sig (Elt F)) {r : Ref sig .tc} (hr : r ∉ call0_W) :
    after call0 V (Proc.devRef .tc r) = V (Proc.devRef .tc r) :=
  after_of_writes_sub call0 V call0_writes hr

def c3 : List (HloOp τ sig (Elt F)) :=
  [ StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.sqrt : (⟨S64, .f32⟩ : BufTy).Contents (Elt F) → (⟨S64, .f32⟩ : BufTy).Contents (Elt F)),
    StableHlo.binary main_arg5 main_v34 main_v35 (Host.divf : (⟨S64, .f32⟩ : BufTy).Contents (Elt F) → (⟨S64, .f32⟩ : BufTy).Contents (Elt F) → (⟨S64, .f32⟩ : BufTy).Contents (Elt F)),
    StableHlo.unary main_v35 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v37 main_v38 (mulf : (⟨S100000x64, .f32⟩ : BufTy).Contents (Elt F) → (⟨S100000x64, .f32⟩ : BufTy).Contents (Elt F) → (⟨S100000x64, .f32⟩ : BufTy).Contents (Elt F)),
    StableHlo.unary main_arg6 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v40 main_v41 (addf : (⟨S100000x64, .f32⟩ : BufTy).Contents (Elt F) → (⟨S100000x64, .f32⟩ : BufTy).Contents (Elt F) → (⟨S100000x64, .f32⟩ : BufTy).Contents (Elt F)) ]

theorem c3_sub : (c3 (F := F)).Forall fun op => op.bufs ⊆ tcRefs τ sig := by
  unfold c3
  exact ⟨
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub ..⟩

theorem c3_fresh : ∀ op ∈ c3 (F := F), op.fresh = ∅ :=
  List.forall_iff_forall_mem.1 (by
    unfold c3
    exact ⟨
      rfl, rfl, rfl, rfl, rfl, rfl, rfl, rfl, rfl, rfl, rfl, rfl, rfl, rfl⟩)

def c3_W : List (Ref sig .tc) :=
  [ main_v29, main_v30, main_v31, main_cst_4, main_v32, main_v33, main_v34, main_v35, main_v36, main_v37, main_v38, main_v39, main_v40, main_v41 ]

theorem c3_writes : (c3 (F := F)).Forall fun op => op.writes ⊆ ((c3_W).map (Proc.devRef (τ := τ) .tc)).toFinset := by
  unfold c3
  exact ⟨
    writes_sub_of_mem (y := main_v29) rfl (by decide), writes_sub_of_mem (y := main_v30) rfl (by decide),
    writes_sub_of_mem (y := main_v31) rfl (by decide), writes_sub_of_mem (y := main_cst_4) rfl (by decide),
    writes_sub_of_mem (y := main_v32) rfl (by decide), writes_sub_of_mem (y := main_v33) rfl (by decide),
    writes_sub_of_mem (y := main_v34) rfl (by decide), writes_sub_of_mem (y := main_v35) rfl (by decide),
    writes_sub_of_mem (y := main_v36) rfl (by decide), writes_sub_of_mem (y := main_v37) rfl (by decide),
    writes_sub_of_mem (y := main_v38) rfl (by decide), writes_sub_of_mem (y := main_v39) rfl (by decide),
    writes_sub_of_mem (y := main_v40) rfl (by decide), writes_sub_of_mem (y := main_v41) rfl (by decide)⟩

theorem c3_frame (V : Valuation τ sig (Elt F)) {r : Ref sig .tc} (hr : r ∉ c3_W) :
    after c3 V (Proc.devRef .tc r) = V (Proc.devRef .tc r) :=
  after_of_writes_sub c3 V c3_writes hr

def c4a : List (HloOp τ sig (Elt F)) :=
  [ StableHlo.nullary main_c_5 (constantI S_ 32 0#32),
    StableHlo.unary main_c_5 main_v42 (broadcastInDim S1000000 ![] bcast_S_S1000000 : (⟨S_, .i32⟩ : BufTy).Contents (Elt F) → (⟨S1000000, .i32⟩ : BufTy).Contents (Elt F)),
    StableHlo.binary main_v1 main_v42 main_v43 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v44 (broadcastInDim S1000000 ![] bcast_S_S1000000 : (⟨S_, .i32⟩ : BufTy).Contents (Elt F) → (⟨S1000000, .i32⟩ : BufTy).Contents (Elt F)),
    StableHlo.binary main_v1 main_v44 main_v45 (addi : (⟨S1000000, .i32⟩ : BufTy).Contents (Elt F) → (⟨S1000000, .i32⟩ : BufTy).Contents (Elt F) → (⟨S1000000, .i32⟩ : BufTy).Contents (Elt F)),
    StableHlo.ternary main_v43 main_v45 main_v1 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v46 main_v47 (broadcastInDim S1000000x1 ![0] bcast_S1000000_S1000000x1_0 : (⟨S1000000, .i32⟩ : BufTy).Contents (Elt F) → (⟨S1000000x1, .i32⟩ : BufTy).Contents (Elt F)),
    StableHlo.binary main_v41 main_v47 main_v48 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_7 (constant S_ .f32 0x00000000#32),
    StableHlo.unary main_cst_7 main_v49 (broadcastInDim S100000x64 ![] bcast_S_S100000x64 : (⟨S_, .f32⟩ : BufTy).Contents (Elt F) → (⟨S100000x64, .f32⟩ : BufTy).Contents (Elt F)) ]

theorem c4a_sub : (c4a (F := F)).Forall fun op => op.bufs ⊆ tcRefs τ sig := by
  unfold c4a
  exact ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub ..⟩

theorem c4a_fresh : ∀ op ∈ c4a (F := F), op.fresh = ∅ :=
  List.forall_iff_forall_mem.1 (by
    unfold c4a
    exact ⟨
      rfl, rfl, rfl, rfl, rfl, rfl, rfl, rfl, rfl, rfl, rfl⟩)

def c4a_W : List (Ref sig .tc) :=
  [ main_c_5, main_v42, main_v43, main_c_6, main_v44, main_v45, main_v46, main_v47, main_v48, main_cst_7, main_v49 ]

theorem c4a_writes : (c4a (F := F)).Forall fun op => op.writes ⊆ ((c4a_W).map (Proc.devRef (τ := τ) .tc)).toFinset := by
  unfold c4a
  exact ⟨
    writes_sub_of_mem (y := main_c_5) rfl (by decide), writes_sub_of_mem (y := main_v42) rfl (by decide),
    writes_sub_of_mem (y := main_v43) rfl (by decide), writes_sub_of_mem (y := main_c_6) rfl (by decide),
    writes_sub_of_mem (y := main_v44) rfl (by decide), writes_sub_of_mem (y := main_v45) rfl (by decide),
    writes_sub_of_mem (y := main_v46) rfl (by decide), writes_sub_of_mem (y := main_v47) rfl (by decide),
    writes_sub_of_mem (y := main_v48) rfl (by decide), writes_sub_of_mem (y := main_cst_7) rfl (by decide),
    writes_sub_of_mem (y := main_v49) rfl (by decide)⟩

theorem c4a_frame (V : Valuation τ sig (Elt F)) {r : Ref sig .tc} (hr : r ∉ c4a_W) :
    after c4a V (Proc.devRef .tc r) = V (Proc.devRef .tc r) :=
  after_of_writes_sub c4a V c4a_writes hr

def c4b : List (HloOp τ sig (Elt F)) :=
  [ StableHlo.unary main_v3 main_v50 (broadcastInDim S1000000x1 ![0] bcast_S1000000_S1000000x1_0 : (⟨S1000000, .i32⟩ : BufTy).Contents (Elt F) → (⟨S1000000x1, .i32⟩ : BufTy).Contents (Elt F)),
    StableHlo.ternary main_v49 main_v50 main_v48 main_v51 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

theorem c4b_sub : (c4b (F := F)).Forall fun op => op.bufs ⊆ tcRefs τ sig := by
  unfold c4b
  exact ⟨
    unary_bufs_sub .., ternary_bufs_sub ..⟩

theorem c4b_fresh : ∀ op ∈ c4b (F := F), op.fresh = ∅ :=
  List.forall_iff_forall_mem.1 (by
    unfold c4b
    exact ⟨
      rfl, rfl⟩)

def c4b_W : List (Ref sig .tc) :=
  [ main_v50, main_v51 ]

theorem c4b_writes : (c4b (F := F)).Forall fun op => op.writes ⊆ ((c4b_W).map (Proc.devRef (τ := τ) .tc)).toFinset := by
  unfold c4b
  exact ⟨
    writes_sub_of_mem (y := main_v50) rfl (by decide), writes_sub_of_mem (y := main_v51) rfl (by decide)⟩

theorem c4b_frame (V : Valuation τ sig (Elt F)) {r : Ref sig .tc} (hr : r ∉ c4b_W) :
    after c4b V (Proc.devRef .tc r) = V (Proc.devRef .tc r) :=
  after_of_writes_sub c4b V c4b_writes hr

def c5 : List (HloOp τ sig (Elt F)) :=
  [ StableHlo.binary main_v41 main_v51 main_v52 (addf : (⟨S100000x64, .f32⟩ : BufTy).Contents (Elt F) → (⟨S100000x64, .f32⟩ : BufTy).Contents (Elt F) → (⟨S100000x64, .f32⟩ : BufTy).Contents (Elt F)),
    StableHlo.binary main_v52 main_arg7 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v55 main_v56 (addf : (⟨S100000x64, .f32⟩ : BufTy).Contents (Elt F) → (⟨S100000x64, .f32⟩ : BufTy).Contents (Elt F) → (⟨S100000x64, .f32⟩ : BufTy).Contents (Elt F)),
    StableHlo.unary main_v56 main_v57 (Host.tanh : (⟨S100000x64, .f32⟩ : BufTy).Contents (Elt F) → (⟨S100000x64, .f32⟩ : BufTy).Contents (Elt F)),
    StableHlo.binary main_v57 main_arg9 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v60 main_v61 (addf : (⟨S100000x64, .f32⟩ : BufTy).Contents (Elt F) → (⟨S100000x64, .f32⟩ : BufTy).Contents (Elt F) → (⟨S100000x64, .f32⟩ : BufTy).Contents (Elt F)),
    StableHlo.unary main_v61 main_v62 (Host.tanh : (⟨S100000x64, .f32⟩ : BufTy).Contents (Elt F) → (⟨S100000x64, .f32⟩ : BufTy).Contents (Elt F)) ]

theorem c5_sub : (c5 (F := F)).Forall fun op => op.bufs ⊆ tcRefs τ sig := by
  unfold c5
  exact ⟨
    binary_bufs_sub .., binary_bufs_sub .., unary_bufs_sub .., unary_bufs_sub .., binary_bufs_sub .., unary_bufs_sub ..,
    binary_bufs_sub .., unary_bufs_sub .., unary_bufs_sub .., binary_bufs_sub .., unary_bufs_sub ..⟩

theorem c5_fresh : ∀ op ∈ c5 (F := F), op.fresh = ∅ :=
  List.forall_iff_forall_mem.1 (by
    unfold c5
    exact ⟨
      rfl, rfl, rfl, rfl, rfl, rfl, rfl, rfl, rfl, rfl, rfl⟩)

def c5_W : List (Ref sig .tc) :=
  [ main_v52, main_v53, main_v54, main_v55, main_v56, main_v57, main_v58, main_v59, main_v60, main_v61, main_v62 ]

theorem c5_writes : (c5 (F := F)).Forall fun op => op.writes ⊆ ((c5_W).map (Proc.devRef (τ := τ) .tc)).toFinset := by
  unfold c5
  exact ⟨
    writes_sub_of_mem (y := main_v52) rfl (by decide), writes_sub_of_mem (y := main_v53) rfl (by decide),
    writes_sub_of_mem (y := main_v54) rfl (by decide), writes_sub_of_mem (y := main_v55) rfl (by decide),
    writes_sub_of_mem (y := main_v56) rfl (by decide), writes_sub_of_mem (y := main_v57) rfl (by decide),
    writes_sub_of_mem (y := main_v58) rfl (by decide), writes_sub_of_mem (y := main_v59) rfl (by decide),
    writes_sub_of_mem (y := main_v60) rfl (by decide), writes_sub_of_mem (y := main_v61) rfl (by decide),
    writes_sub_of_mem (y := main_v62) rfl (by decide)⟩

theorem c5_frame (V : Valuation τ sig (Elt F)) {r : Ref sig .tc} (hr : r ∉ c5_W) :
    after c5 V (Proc.devRef .tc r) = V (Proc.devRef .tc r) :=
  after_of_writes_sub c5 V c5_writes hr

def c6a : List (HloOp τ sig (Elt F)) :=
  [ StableHlo.nullary main_cst_8 (constant S_ .f32 0x00000000#32),
    StableHlo.binary main_v62 main_cst_8 main_v63 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v64 (broadcastInDim S64 ![] bcast_S_S64 : (⟨S_, .f32⟩ : BufTy).Contents (Elt F) → (⟨S64, .f32⟩ : BufTy).Contents (Elt F)),
    StableHlo.binary main_v63 main_v64 main_v65 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32) ]

theorem c6a_sub : (c6a (F := F)).Forall fun op => op.bufs ⊆ tcRefs τ sig := by
  unfold c6a
  exact ⟨
    nullary_bufs_sub .., binary_bufs_sub .., nullary_bufs_sub .., unary_bufs_sub .., binary_bufs_sub .., nullary_bufs_sub ..⟩

theorem c6a_fresh : ∀ op ∈ c6a (F := F), op.fresh = ∅ :=
  List.forall_iff_forall_mem.1 (by
    unfold c6a
    exact ⟨
      rfl, rfl, rfl, rfl, rfl, rfl⟩)

def c6a_W : List (Ref sig .tc) :=
  [ main_cst_8, main_v63, main_cst_9, main_v64, main_v65, main_c_10 ]

theorem c6a_writes : (c6a (F := F)).Forall fun op => op.writes ⊆ ((c6a_W).map (Proc.devRef (τ := τ) .tc)).toFinset := by
  unfold c6a
  exact ⟨
    writes_sub_of_mem (y := main_cst_8) rfl (by decide), writes_sub_of_mem (y := main_v63) rfl (by decide),
    writes_sub_of_mem (y := main_cst_9) rfl (by decide), writes_sub_of_mem (y := main_v64) rfl (by decide),
    writes_sub_of_mem (y := main_v65) rfl (by decide), writes_sub_of_mem (y := main_c_10) rfl (by decide)⟩

theorem c6a_frame (V : Valuation τ sig (Elt F)) {r : Ref sig .tc} (hr : r ∉ c6a_W) :
    after c6a V (Proc.devRef .tc r) = V (Proc.devRef .tc r) :=
  after_of_writes_sub c6a V c6a_writes hr

def call1 : List (HloOp τ sig (Elt F)) := varOps (.of main_v62) (.of main_c_10) main_call1

theorem call1_sub : (call1 (F := F)).Forall fun op => op.bufs ⊆ tcRefs τ sig := varOps_sub ..
theorem call1_fresh : ∀ op ∈ call1 (F := F), op.fresh = ∅ := varOps_fresh _ _ _

def call1_W : List (Ref sig .tc) :=
  [ main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v66 ]

theorem call1_writes : (call1 (F := F)).Forall fun op => op.writes ⊆ ((call1_W).map (Proc.devRef (τ := τ) .tc)).toFinset := by
  unfold call1 varOps
  exact ⟨
    writes_sub_of_mem (y := main_call1_cst) rfl (by decide), writes_sub_of_mem (y := main_call1_v0) rfl (by decide),
    writes_sub_of_mem (y := main_call1_v1) rfl (by decide), writes_sub_of_mem (y := main_call1_cst_0) rfl (by decide),
    writes_sub_of_mem (y := main_call1_v2) rfl (by decide), writes_sub_of_mem (y := main_call1_v3) rfl (by decide),
    writes_sub_of_mem (y := main_call1_v4) rfl (by decide), writes_sub_of_mem (y := main_call1_v5) rfl (by decide),
    writes_sub_of_mem (y := main_call1_v6) rfl (by decide), writes_sub_of_mem (y := main_call1_v7) rfl (by decide),
    writes_sub_of_mem (y := main_call1_cst_1) rfl (by decide), writes_sub_of_mem (y := main_call1_v8) rfl (by decide),
    writes_sub_of_mem (y := main_call1_cst_2) rfl (by decide), writes_sub_of_mem (y := main_call1_v9) rfl (by decide),
    writes_sub_of_mem (y := main_call1_v10) rfl (by decide), writes_sub_of_mem (y := main_call1_v11) rfl (by decide),
    writes_sub_of_mem (y := main_call1_cst_3) rfl (by decide), writes_sub_of_mem (y := main_call1_v12) rfl (by decide),
    writes_sub_of_mem (y := main_call1_cst_4) rfl (by decide), writes_sub_of_mem (y := main_call1_call0_v0) rfl (by decide),
    writes_sub_of_mem (y := main_call1_call0_v1) rfl (by decide), writes_sub_of_mem (y := main_v66) rfl (by decide)⟩

theorem call1_frame (V : Valuation τ sig (Elt F)) {r : Ref sig .tc} (hr : r ∉ call1_W) :
    after call1 V (Proc.devRef .tc r) = V (Proc.devRef .tc r) :=
  after_of_writes_sub call1 V call1_writes hr

def c7 : List (HloOp τ sig (Elt F)) :=
  [ StableHlo.unary main_v65 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v68 main_v69 (subf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v70 (broadcastInDim S64 ![] bcast_S_S64 : (⟨S_, .f32⟩ : BufTy).Contents (Elt F) → (⟨S64, .f32⟩ : BufTy).Contents (Elt F)),
    StableHlo.binary main_v66 main_v70 main_v71 (addf : (⟨S64, .f32⟩ : BufTy).Contents (Elt F) → (⟨S64, .f32⟩ : BufTy).Contents (Elt F) → (⟨S64, .f32⟩ : BufTy).Contents (Elt F)),
    StableHlo.unary main_v71 main_v72 (Host.sqrt : (⟨S64, .f32⟩ : BufTy).Contents (Elt F) → (⟨S64, .f32⟩ : BufTy).Contents (Elt F)),
    StableHlo.binary main_arg11 main_v72 main_v73 (Host.divf : (⟨S64, .f32⟩ : BufTy).Contents (Elt F) → (⟨S64, .f32⟩ : BufTy).Contents (Elt F) → (⟨S64, .f32⟩ : BufTy).Contents (Elt F)),
    StableHlo.unary main_v73 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S100000x64 ![0, 1] bcast_S1x64_S100000x64_0_1 : (⟨S1x64, .f32⟩ : BufTy).Contents (Elt F) → (⟨S100000x64, .f32⟩ : BufTy).Contents (Elt F)),
    StableHlo.binary main_v69 main_v75 main_v76 (mulf : (⟨S100000x64, .f32⟩ : BufTy).Contents (Elt F) → (⟨S100000x64, .f32⟩ : BufTy).Contents (Elt F) → (⟨S100000x64, .f32⟩ : BufTy).Contents (Elt F)),
    StableHlo.unary main_arg12 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S100000x64 ![0, 1] bcast_S1x64_S100000x64_0_1 : (⟨S1x64, .f32⟩ : BufTy).Contents (Elt F) → (⟨S100000x64, .f32⟩ : BufTy).Contents (Elt F)),
    StableHlo.binary main_v76 main_v78 main_v79 (addf : (⟨S100000x64, .f32⟩ : BufTy).Contents (Elt F) → (⟨S100000x64, .f32⟩ : BufTy).Contents (Elt F) → (⟨S100000x64, .f32⟩ : BufTy).Contents (Elt F)) ]

theorem c7_sub : (c7 (F := F)).Forall fun op => op.bufs ⊆ tcRefs τ sig := by
  unfold c7
  exact ⟨
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    unary_bufs_sub .., binary_bufs_sub ..⟩

theorem c7_fresh : ∀ op ∈ c7 (F := F), op.fresh = ∅ :=
  List.forall_iff_forall_mem.1 (by
    unfold c7
    exact ⟨
      rfl, rfl, rfl, rfl, rfl, rfl, rfl, rfl, rfl, rfl, rfl, rfl, rfl, rfl⟩)

def c7_W : List (Ref sig .tc) :=
  [ main_v67, main_v68, main_v69, main_cst_11, main_v70, main_v71, main_v72, main_v73, main_v74, main_v75, main_v76, main_v77, main_v78, main_v79 ]

theorem c7_writes : (c7 (F := F)).Forall fun op => op.writes ⊆ ((c7_W).map (Proc.devRef (τ := τ) .tc)).toFinset := by
  unfold c7
  exact ⟨
    writes_sub_of_mem (y := main_v67) rfl (by decide), writes_sub_of_mem (y := main_v68) rfl (by decide),
    writes_sub_of_mem (y := main_v69) rfl (by decide), writes_sub_of_mem (y := main_cst_11) rfl (by decide),
    writes_sub_of_mem (y := main_v70) rfl (by decide), writes_sub_of_mem (y := main_v71) rfl (by decide),
    writes_sub_of_mem (y := main_v72) rfl (by decide), writes_sub_of_mem (y := main_v73) rfl (by decide),
    writes_sub_of_mem (y := main_v74) rfl (by decide), writes_sub_of_mem (y := main_v75) rfl (by decide),
    writes_sub_of_mem (y := main_v76) rfl (by decide), writes_sub_of_mem (y := main_v77) rfl (by decide),
    writes_sub_of_mem (y := main_v78) rfl (by decide), writes_sub_of_mem (y := main_v79) rfl (by decide)⟩

theorem c7_frame (V : Valuation τ sig (Elt F)) {r : Ref sig .tc} (hr : r ∉ c7_W) :
    after c7 V (Proc.devRef .tc r) = V (Proc.devRef .tc r) :=
  after_of_writes_sub c7 V c7_writes hr

def c8 : List (HloOp τ sig (Elt F)) :=
  [ StableHlo.nullary main_cst_12 (constant S_ .f32 0x00000000#32),
    StableHlo.unary main_cst_12 main_v80 (broadcastInDim S512x64 ![] bcast_S_S512x64 : (⟨S_, .f32⟩ : BufTy).Contents (Elt F) → (⟨S512x64, .f32⟩ : BufTy).Contents (Elt F)),
    StableHlo.unary main_arg14 main_v81 (broadcastInDim S100000x1 ![0] bcast_S100000_S100000x1_0 : (⟨S100000, .i32⟩ : BufTy).Contents (Elt F) → (⟨S100000x1, .i32⟩ : BufTy).Contents (Elt F)),
    StableHlo.ternary main_v80 main_v81 main_v41 main_v82 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_13 (constant S_ .f32 0x00000000#32),
    StableHlo.unary main_cst_13 main_v83 (broadcastInDim S512x64 ![] bcast_S_S512x64 : (⟨S_, .f32⟩ : BufTy).Contents (Elt F) → (⟨S512x64, .f32⟩ : BufTy).Contents (Elt F)),
    StableHlo.unary main_arg14 main_v84 (broadcastInDim S100000x1 ![0] bcast_S100000_S100000x1_0 : (⟨S100000, .i32⟩ : BufTy).Contents (Elt F) → (⟨S100000x1, .i32⟩ : BufTy).Contents (Elt F)),
    StableHlo.ternary main_v83 main_v84 main_v79 main_v85 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)) ]

theorem c8_sub : (c8 (F := F)).Forall fun op => op.bufs ⊆ tcRefs τ sig := by
  unfold c8
  exact ⟨
    nullary_bufs_sub .., unary_bufs_sub .., unary_bufs_sub .., ternary_bufs_sub .., nullary_bufs_sub .., unary_bufs_sub ..,
    unary_bufs_sub .., ternary_bufs_sub ..⟩

theorem c8_fresh : ∀ op ∈ c8 (F := F), op.fresh = ∅ :=
  List.forall_iff_forall_mem.1 (by
    unfold c8
    exact ⟨
      rfl, rfl, rfl, rfl, rfl, rfl, rfl, rfl⟩)

def c8_W : List (Ref sig .tc) :=
  [ main_cst_12, main_v80, main_v81, main_v82, main_cst_13, main_v83, main_v84, main_v85 ]

theorem c8_writes : (c8 (F := F)).Forall fun op => op.writes ⊆ ((c8_W).map (Proc.devRef (τ := τ) .tc)).toFinset := by
  unfold c8
  exact ⟨
    writes_sub_of_mem (y := main_cst_12) rfl (by decide), writes_sub_of_mem (y := main_v80) rfl (by decide),
    writes_sub_of_mem (y := main_v81) rfl (by decide), writes_sub_of_mem (y := main_v82) rfl (by decide),
    writes_sub_of_mem (y := main_cst_13) rfl (by decide), writes_sub_of_mem (y := main_v83) rfl (by decide),
    writes_sub_of_mem (y := main_v84) rfl (by decide), writes_sub_of_mem (y := main_v85) rfl (by decide)⟩

theorem c8_frame (V : Valuation τ sig (Elt F)) {r : Ref sig .tc} (hr : r ∉ c8_W) :
    after c8 V (Proc.devRef .tc r) = V (Proc.devRef .tc r) :=
  after_of_writes_sub c8 V c8_writes hr

def c9 : List (HloOp τ sig (Elt F)) :=
  [ StableHlo.binary main_v82 main_v85 main_v86 ((fun a b => concatenate S512x128 1 [⟨S512x64, a⟩, ⟨S512x64, b⟩] concatenates_S512x64_S512x64_S512x128_d1) : (⟨S512x64, .f32⟩ : BufTy).Contents (Elt F) → (⟨S512x64, .f32⟩ : BufTy).Contents (Elt F) → (⟨S512x128, .f32⟩ : BufTy).Contents (Elt F)) ]

theorem c9_sub : (c9 (F := F)).Forall fun op => op.bufs ⊆ tcRefs τ sig := by
  unfold c9
  exact binary_bufs_sub ..

theorem c9_fresh : ∀ op ∈ c9 (F := F), op.fresh = ∅ :=
  List.forall_iff_forall_mem.1 (by
    unfold c9
    exact rfl)

def c9_W : List (Ref sig .tc) :=
  [ main_v86 ]

theorem c9_writes : (c9 (F := F)).Forall fun op => op.writes ⊆ ((c9_W).map (Proc.devRef (τ := τ) .tc)).toFinset := by
  unfold c9
  exact writes_sub_of_mem (y := main_v86) rfl (by decide)

theorem c9_frame (V : Valuation τ sig (Elt F)) {r : Ref sig .tc} (hr : r ∉ c9_W) :
    after c9 V (Proc.devRef .tc r) = V (Proc.devRef .tc r) :=
  after_of_writes_sub c9 V c9_writes hr

def P0 : List (HloOp τ sig (Elt F)) := c0 ++ (c1 ++ (c2a ++ (call0 ++ (c3 ++ (c4a)))))
def P1 : List (HloOp τ sig (Elt F)) := c4b ++ (c5 ++ (c6a ++ (call1 ++ (c7 ++ (c8 ++ (c9))))))
def ops : List (HloOp τ sig (Elt F)) := P0 ++ P1

theorem part0_eq (c : Dev nD) : main_part0 (F := F) c = seq P0 := by
  have h : main_part0 (F := F) c
      = seqK c0 (seqK c1 (seqK c2a ((fn_var.body (.of main_v24) (.of main_c_3) main_call0 >>= fun _ => seqK c3 (seq c4a))))) := by
    chain_rfl
  rw [h]
  simp only [seqK_eq, var_eq, P0, call0, seq_append]

theorem part1_eq (c : Dev nD) : main_part1 (F := F) c = seq P1 := by
  have h : main_part1 (F := F) c
      = seqK c4b (seqK c5 (seqK c6a ((fn_var.body (.of main_v62) (.of main_c_10) main_call1 >>= fun _ => seqK c7 (seqK c8 (seq c9)))))) := by
    chain_rfl
  rw [h]
  simp only [seqK_eq, var_eq, P1, call1, seq_append]

theorem main_eq (c : Dev nD) : main (F := F) c = seq ops := by
  show (main_part0 (F := F) c >>= fun _ => main_part1 c) = _
  rw [part0_eq, part1_eq, ops, seq_append]

theorem ops_sub : (ops (F := F)).Forall fun op => op.bufs ⊆ tcRefs τ sig := by
  unfold ops P0 P1
  simp only [List.forall_append]
  exact ⟨⟨c0_sub, c1_sub, c2a_sub, call0_sub, c3_sub, c4a_sub⟩, c4b_sub, c5_sub, c6a_sub, call1_sub, c7_sub, c8_sub, c9_sub⟩

theorem ops_fresh : ∀ op ∈ ops (F := F), op.fresh = ∅ := by
  intro op h
  unfold ops P0 P1 at h
  simp only [List.mem_append] at h
  rcases h with (h | h | h | h | h | h) | h | h | h | h | h | h | h
  · exact c0_fresh op h
  · exact c1_fresh op h
  · exact c2a_fresh op h
  · exact call0_fresh op h
  · exact c3_fresh op h
  · exact c4a_fresh op h
  · exact c4b_fresh op h
  · exact c5_fresh op h
  · exact c6a_fresh op h
  · exact call1_fresh op h
  · exact c7_fresh op h
  · exact c8_fresh op h
  · exact c9_fresh op h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.Ref_RunV.lean ====
/- What each stretch of the reference leaves at the buffers later stretches read. -/
import proofs.«406896_j45226005626971_1_alg».proof.Proof.Ref_Stages
import proofs.«406896_j45226005626971_1_alg».proof.Proof.Ref_Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd in
theorem val0_agg (V : Valuation τ sig (Elt F)) :
    after c0 V (main_v13 : DevRef τ sig) = Stages.agg (V (main_arg0 : DevRef τ sig)) (V (main_arg13 : DevRef τ sig)) := by
  unfold c0
  after_results
  rfl

theorem val0_src (V : Valuation τ sig (Elt F)) :
    after c0 V (main_v1 : DevRef τ sig) = Stages.src (V (main_arg13 : DevRef τ sig)) := by
  unfold c0
  after_results
  rfl

theorem val0_dst (V : Valuation τ sig (Elt F)) :
    after c0 V (main_v3 : DevRef τ sig) = Stages.dst (V (main_arg13 : DevRef τ sig)) := by
  unfold c0
  after_results
  rfl

attribute [local irreducible] Host.gather Host.scatterAdd Host.reduceAdd in
theorem val1 (V : Valuation τ sig (Elt F)) (x : FVec F S100000x64 .f32) (ei : IVec S2x1000000 32) (W1 : FVec F S64x64 .f32) (b1 : FVec F S64 .f32) (W2 : FVec F S64x64 .f32) (b2 : FVec F S64 .f32)
    (hx : V (main_arg0 : DevRef τ sig) = x) (hagg : V (main_v13 : DevRef τ sig) = Stages.agg x ei)
    (hW1 : V (main_arg1 : DevRef τ sig) = W1) (hb1 : V (main_arg2 : DevRef τ sig) = b1) (hW2 : V (main_arg3 : DevRef τ sig) = W2) (hb2 : V (main_arg4 : DevRef τ sig) = b2) :
    after c1 V (main_v24 : DevRef τ sig) = Stages.hid x ei W1 b1 W2 b2 := by
  unfold c1
  after_results
  rw [hx, hagg, hW1, hb1, hW2, hb2]
  rfl

attribute [local irreducible] Host.gather Host.scatterAdd Host.reduceAdd in
theorem val2_mu (V : Valuation τ sig (Elt F)) (h : FVec F S100000x64 .f32) (hh : V (main_v24 : DevRef τ sig) = h) :
    after c2a V (main_v27 : DevRef τ sig) = Stages.mu h := by
  unfold c2a
  after_results
  rw [hh]
  rfl

theorem val2_ddof (V : Valuation τ sig (Elt F)) :
    after c2a V (main_c_3 : DevRef τ sig) = constantI S_ 32 0#32 := by
  unfold c2a
  after_results

attribute [local irreducible] Host.gather Host.scatterAdd Host.reduceAdd in
set_option maxRecDepth 4096 in
theorem valc0 (V : Valuation τ sig (Elt F)) (h : FVec F S100000x64 .f32) (hh : V (main_v24 : DevRef τ sig) = h)
    (hc : V (main_c_3 : DevRef τ sig) = constantI S_ 32 0#32) :
    after call0 V (main_v28 : DevRef τ sig) = Stages.var h := by
  unfold call0 varOps
  after_results
  rw [hh, hc]
  rfl

attribute [local irreducible] Host.gather Host.scatterAdd Host.reduceAdd in
theorem val3 (V : Valuation τ sig (Elt F)) (h : FVec F S100000x64 .f32) (γ β : FVec F S64 .f32)
    (hh : V (main_v24 : DevRef τ sig) = h) (hmu : V (main_v27 : DevRef τ sig) = Stages.mu h) (hvar : V (main_v28 : DevRef τ sig) = Stages.var h)
    (hγ : V (main_arg5 : DevRef τ sig) = γ) (hβ : V (main_arg6 : DevRef τ sig) = β) :
    after c3 V (main_v41 : DevRef τ sig) = Stages.bn h γ β := by
  unfold c3
  after_results
  rw [hh, hmu, hvar, hγ, hβ]
  rfl

attribute [local irreducible] Host.gather Host.scatterAdd Host.reduceAdd in
theorem val4 (V : Valuation τ sig (Elt F)) (x : FVec F S100000x64 .f32) (ei : IVec S2x1000000 32)
    (hx : V (main_v41 : DevRef τ sig) = x) (hsrc : V (main_v1 : DevRef τ sig) = Stages.src ei) (hdst : V (main_v3 : DevRef τ sig) = Stages.dst ei) :
    after c4b (after c4a V) (main_v51 : DevRef τ sig) = Stages.agg x ei := by
  unfold c4a c4b
  after_results
  rw [hx, hsrc, hdst]
  rfl

attribute [local irreducible] Host.gather Host.scatterAdd Host.reduceAdd in
theorem val5 (V : Valuation τ sig (Elt F)) (x : FVec F S100000x64 .f32) (ei : IVec S2x1000000 32) (W1 : FVec F S64x64 .f32) (b1 : FVec F S64 .f32) (W2 : FVec F S64x64 .f32) (b2 : FVec F S64 .f32)
    (hx : V (main_v41 : DevRef τ sig) = x) (hagg : V (main_v51 : DevRef τ sig) = Stages.agg x ei)
    (hW1 : V (main_arg7 : DevRef τ sig) = W1) (hb1 : V (main_arg8 : DevRef τ sig) = b1) (hW2 : V (main_arg9 : DevRef τ sig) = W2) (hb2 : V (main_arg10 : DevRef τ sig) = b2) :
    after c5 V (main_v62 : DevRef τ sig) = Stages.hid x ei W1 b1 W2 b2 := by
  unfold c5
  after_results
  rw [hx, hagg, hW1, hb1, hW2, hb2]
  rfl

attribute [local irreducible] Host.gather Host.scatterAdd Host.reduceAdd in
theorem val6_mu (V : Valuation τ sig (Elt F)) (h : FVec F S100000x64 .f32) (hh : V (main_v62 : DevRef τ sig) = h) :
    after c6a V (main_v65 : DevRef τ sig) = Stages.mu h := by
  unfold c6a
  after_results
  rw [hh]
  rfl

theorem val6_ddof (V : Valuation τ sig (Elt F)) :
    after c6a V (main_c_10 : DevRef τ sig) = constantI S_ 32 0#32 := by
  unfold c6a
  after_results

attribute [local irreducible] Host.gather Host.scatterAdd Host.reduceAdd in
set_option maxRecDepth 4096 in
theorem valc1 (V : Valuation τ sig (Elt F)) (h : FVec F S100000x64 .f32) (hh : V (main_v62 : DevRef τ sig) = h)
    (hc : V (main_c_10 : DevRef τ sig) = constantI S_ 32 0#32) :
    after call1 V (main_v66 : DevRef τ sig) = Stages.var h := by
  unfold call1 varOps
  after_results
  rw [hh, hc]
  rfl

attribute [local irreducible] Host.gather Host.scatterAdd Host.reduceAdd in
theorem val7 (V : Valuation τ sig (Elt F)) (h : FVec F S100000x64 .f32) (γ β : FVec F S64 .f32)
    (hh : V (main_v62 : DevRef τ sig) = h) (hmu : V (main_v65 : DevRef τ sig) = Stages.mu h) (hvar : V (main_v66 : DevRef τ sig) = Stages.var h)
    (hγ : V (main_arg11 : DevRef τ sig) = γ) (hβ : V (main_arg12 : DevRef τ sig) = β) :
    after c7 V (main_v79 : DevRef τ sig) = Stages.bn h γ β := by
  unfold c7
  after_results
  rw [hh, hmu, hvar, hγ, hβ]
  rfl

attribute [local irreducible] Host.gather Host.scatterAdd Host.reduceAdd in
theorem val8_a (V : Valuation τ sig (Elt F)) (y : FVec F S100000x64 .f32) (b : IVec S100000 32)
    (hy : V (main_v41 : DevRef τ sig) = y) (hb : V (main_arg14 : DevRef τ sig) = b) :
    after c8 V (main_v82 : DevRef τ sig) = Stages.pool y b := by
  unfold c8
  after_results
  rw [hy, hb]
  rfl

attribute [local irreducible] Host.gather Host.scatterAdd Host.reduceAdd in
theorem val8_b (V : Valuation τ sig (Elt F)) (y : FVec F S100000x64 .f32) (b : IVec S100000 32)
    (hy : V (main_v79 : DevRef τ sig) = y) (hb : V (main_arg14 : DevRef τ sig) = b) :
    after c8 V (main_v85 : DevRef τ sig) = Stages.pool y b := by
  unfold c8
  after_results
  rw [hy, hb]
  rfl

theorem val9 (V : Valuation τ sig (Elt F)) (p q : FVec F S512x64 .f32)
    (hp : V (main_v82 : DevRef τ sig) = p) (hq : V (main_v85 : DevRef τ sig) = q) :
    after c9 V (main_v86 : DevRef τ sig)
      = concatenate S512x128 1 [⟨S512x64, p⟩, ⟨S512x64, q⟩] concatenates_S512x64_S512x64_S512x128_d1 := by
  unfold c9
  after_results
  rw [hp, hq]

end Cert.ReferenceIdeal.RefRun

end
-- ==== Proof.Ref_Run.lean ====
/- The reference's run: it terminates with the result at the stages' composition of the arguments, and the arguments unchanged. -/
import proofs.«406896_j45226005626971_1_alg».proof.Proof.Ref_RunV

noncomputable section

namespace Cert.ReferenceIdeal.RefRun

open Idealize.ShloMosaic Idealize.SL.Sem Idealize.ShloMosaic.StableHlo

section General

variable {τ : Topo} {sig : RefSig} {Val : EltTy → Type}

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end General

open Cert.ReferenceIdeal Cert.ReferenceIdeal.Gen Idealize.ShloMosaic.TcCoe

variable {F : FTy → Type} [FloatOps F]

abbrev V0 (V : Valuation τ sig (Elt F)) : Valuation τ sig (Elt F) := after c0 V
abbrev V1 (V : Valuation τ sig (Elt F)) : Valuation τ sig (Elt F) := after c1 (V0 V)
abbrev V2 (V : Valuation τ sig (Elt F)) : Valuation τ sig (Elt F) := after c2a (V1 V)
abbrev V3 (V : Valuation τ sig (Elt F)) : Valuation τ sig (Elt F) := after call0 (V2 V)
abbrev V4 (V : Valuation τ sig (Elt F)) : Valuation τ sig (Elt F) := after c3 (V3 V)
abbrev V5 (V : Valuation τ sig (Elt F)) : Valuation τ sig (Elt F) := after c4a (V4 V)
abbrev V6 (V : Valuation τ sig (Elt F)) : Valuation τ sig (Elt F) := after c4b (V5 V)
abbrev V7 (V : Valuation τ sig (Elt F)) : Valuation τ sig (Elt F) := after c5 (V6 V)
abbrev V8 (V : Valuation τ sig (Elt F)) : Valuation τ sig (Elt F) := after c6a (V7 V)
abbrev V9 (V : Valuation τ sig (Elt F)) : Valuation τ sig (Elt F) := after call1 (V8 V)
abbrev V10 (V : Valuation τ sig (Elt F)) : Valuation τ sig (Elt F) := after c7 (V9 V)
abbrev V11 (V : Valuation τ sig (Elt F)) : Valuation τ sig (Elt F) := after c8 (V10 V)
abbrev V12 (V : Valuation τ sig (Elt F)) : Valuation τ sig (Elt F) := after c9 (V11 V)

theorem after_ops (V : Valuation τ sig (Elt F)) : after (ops (F := F)) V = V12 V := by
  simp only [ops, P0, P1, after_app]

def Args : List (Ref sig .tc) :=
  [ main_arg0, main_arg1, main_arg2, main_arg3, main_arg4, main_arg5, main_arg6, main_arg7, main_arg8, main_arg9, main_arg10, main_arg11, main_arg12, main_arg13, main_arg14 ]

theorem c0_args : ∀ r ∈ Args, r ∉ c0_W := by decide
theorem c1_args : ∀ r ∈ Args, r ∉ c1_W := by decide
theorem c2a_args : ∀ r ∈ Args, r ∉ c2a_W := by decide
theorem call0_args : ∀ r ∈ Args, r ∉ call0_W := by decide
theorem c3_args : ∀ r ∈ Args, r ∉ c3_W := by decide
theorem c4a_args : ∀ r ∈ Args, r ∉ c4a_W := by decide
theorem c4b_args : ∀ r ∈ Args, r ∉ c4b_W := by decide
theorem c5_args : ∀ r ∈ Args, r ∉ c5_W := by decide
theorem c6a_args : ∀ r ∈ Args, r ∉ c6a_W := by decide
theorem call1_args : ∀ r ∈ Args, r ∉ call1_W := by decide
theorem c7_args : ∀ r ∈ Args, r ∉ c7_W := by decide
theorem c8_args : ∀ r ∈ Args, r ∉ c8_W := by decide
theorem c9_args : ∀ r ∈ Args, r ∉ c9_W := by decide

theorem keep0 (V : Valuation τ sig (Elt F)) : ∀ r ∈ Args, V0 V (Proc.devRef .tc r) = V (Proc.devRef .tc r) :=
  fun r hr => c0_frame V (c0_args r hr)
theorem keep1 (V : Valuation τ sig (Elt F)) : ∀ r ∈ Args, V1 V (Proc.devRef .tc r) = V (Proc.devRef .tc r) :=
  fun r hr => (c1_frame (V0 V) (c1_args r hr)).trans (keep0 V r hr)
theorem keep2 (V : Valuation τ sig (Elt F)) : ∀ r ∈ Args, V2 V (Proc.devRef .tc r) = V (Proc.devRef .tc r) :=
  fun r hr => (c2a_frame (V1 V) (c2a_args r hr)).trans (keep1 V r hr)
theorem keep3 (V : Valuation τ sig (Elt F)) : ∀ r ∈ Args, V3 V (Proc.devRef .tc r) = V (Proc.devRef .tc r) :=
  fun r hr => (call0_frame (V2 V) (call0_args r hr)).trans (keep2 V r hr)
theorem keep4 (V : Valuation τ sig (Elt F)) : ∀ r ∈ Args, V4 V (Proc.devRef .tc r) = V (Proc.devRef .tc r) :=
  fun r hr => (c3_frame (V3 V) (c3_args r hr)).trans (keep3 V r hr)
theorem keep5 (V : Valuation τ sig (Elt F)) : ∀ r ∈ Args, V5 V (Proc.devRef .tc r) = V (Proc.devRef .tc r) :=
  fun r hr => (c4a_frame (V4 V) (c4a_args r hr)).trans (keep4 V r hr)
theorem keep6 (V : Valuation τ sig (Elt F)) : ∀ r ∈ Args, V6 V (Proc.devRef .tc r) = V (Proc.devRef .tc r) :=
  fun r hr => (c4b_frame (V5 V) (c4b_args r hr)).trans (keep5 V r hr)
theorem keep7 (V : Valuation τ sig (Elt F)) : ∀ r ∈ Args, V7 V (Proc.devRef .tc r) = V (Proc.devRef .tc r) :=
  fun r hr => (c5_frame (V6 V) (c5_args r hr)).trans (keep6 V r hr)
theorem keep8 (V : Valuation τ sig (Elt F)) : ∀ r ∈ Args, V8 V (Proc.devRef .tc r) = V (Proc.devRef .tc r) :=
  fun r hr => (c6a_frame (V7 V) (c6a_args r hr)).trans (keep7 V r hr)
theorem keep9 (V : Valuation τ sig (Elt F)) : ∀ r ∈ Args, V9 V (Proc.devRef .tc r) = V (Proc.devRef .tc r) :=
  fun r hr => (call1_frame (V8 V) (call1_args r hr)).trans (keep8 V r hr)
theorem keep10 (V : Valuation τ sig (Elt F)) : ∀ r ∈ Args, V10 V (Proc.devRef .tc r) = V (Proc.devRef .tc r) :=
  fun r hr => (c7_frame (V9 V) (c7_args r hr)).trans (keep9 V r hr)
theorem keep11 (V : Valuation τ sig (Elt F)) : ∀ r ∈ Args, V11 V (Proc.devRef .tc r) = V (Proc.devRef .tc r) :=
  fun r hr => (c8_frame (V10 V) (c8_args r hr)).trans (keep10 V r hr)
theorem keep12 (V : Valuation τ sig (Elt F)) : ∀ r ∈ Args, V12 V (Proc.devRef .tc r) = V (Proc.devRef .tc r) :=
  fun r hr => (c9_frame (V11 V) (c9_args r hr)).trans (keep11 V r hr)

theorem args_eq (V : Valuation τ sig (Elt F)) : ∀ r ∈ Args, after (ops (F := F)) V (Proc.devRef .tc r) = V (Proc.devRef .tc r) := by
  rw [after_ops]; exact keep12 V

abbrev H1 (V : Valuation τ sig (Elt F)) : FVec F S100000x64 .f32 :=
  Stages.hid (V (main_arg0 : DevRef τ sig)) (V (main_arg13 : DevRef τ sig)) (V (main_arg1 : DevRef τ sig)) (V (main_arg2 : DevRef τ sig)) (V (main_arg3 : DevRef τ sig)) (V (main_arg4 : DevRef τ sig))
abbrev L1 (V : Valuation τ sig (Elt F)) : FVec F S100000x64 .f32 := Stages.bn (H1 V) (V (main_arg5 : DevRef τ sig)) (V (main_arg6 : DevRef τ sig))
abbrev H2 (V : Valuation τ sig (Elt F)) : FVec F S100000x64 .f32 :=
  Stages.hid (L1 V) (V (main_arg13 : DevRef τ sig)) (V (main_arg7 : DevRef τ sig)) (V (main_arg8 : DevRef τ sig)) (V (main_arg9 : DevRef τ sig)) (V (main_arg10 : DevRef τ sig))
abbrev L2 (V : Valuation τ sig (Elt F)) : FVec F S100000x64 .f32 := Stages.bn (H2 V) (V (main_arg11 : DevRef τ sig)) (V (main_arg12 : DevRef τ sig))

theorem s0_agg (V : Valuation τ sig (Elt F)) : V0 V (main_v13 : DevRef τ sig) = Stages.agg (V (main_arg0 : DevRef τ sig)) (V (main_arg13 : DevRef τ sig)) := val0_agg V
theorem s0_src (V : Valuation τ sig (Elt F)) : V0 V (main_v1 : DevRef τ sig) = Stages.src (V (main_arg13 : DevRef τ sig)) := val0_src V
theorem s0_dst (V : Valuation τ sig (Elt F)) : V0 V (main_v3 : DevRef τ sig) = Stages.dst (V (main_arg13 : DevRef τ sig)) := val0_dst V

theorem s1 (V : Valuation τ sig (Elt F)) : V1 V (main_v24 : DevRef τ sig) = H1 V :=
  val1 (V0 V) _ _ _ _ _ _ (keep0 V main_arg0 (by decide)) (s0_agg V) (keep0 V main_arg1 (by decide)) (keep0 V main_arg2 (by decide))
    (keep0 V main_arg3 (by decide)) (keep0 V main_arg4 (by decide))

theorem s2_h (V : Valuation τ sig (Elt F)) : V2 V (main_v24 : DevRef τ sig) = H1 V := (c2a_frame (V1 V) (r := main_v24) (by decide)).trans (s1 V)
theorem s2_mu (V : Valuation τ sig (Elt F)) : V2 V (main_v27 : DevRef τ sig) = Stages.mu (H1 V) := val2_mu (V1 V) _ (s1 V)
theorem s2_ddof (V : Valuation τ sig (Elt F)) : V2 V (main_c_3 : DevRef τ sig) = constantI S_ 32 0#32 := val2_ddof (V1 V)

theorem s3_h (V : Valuation τ sig (Elt F)) : V3 V (main_v24 : DevRef τ sig) = H1 V := (call0_frame (V2 V) (r := main_v24) (by decide)).trans (s2_h V)
theorem s3_mu (V : Valuation τ sig (Elt F)) : V3 V (main_v27 : DevRef τ sig) = Stages.mu (H1 V) := (call0_frame (V2 V) (r := main_v27) (by decide)).trans (s2_mu V)
theorem s3_var (V : Valuation τ sig (Elt F)) : V3 V (main_v28 : DevRef τ sig) = Stages.var (H1 V) := valc0 (V2 V) _ (s2_h V) (s2_ddof V)

theorem s4 (V : Valuation τ sig (Elt F)) : V4 V (main_v41 : DevRef τ sig) = L1 V :=
  val3 (V3 V) _ _ _ (s3_h V) (s3_mu V) (s3_var V) (keep3 V main_arg5 (by decide)) (keep3 V main_arg6 (by decide))
theorem s4_src (V : Valuation τ sig (Elt F)) : V4 V (main_v1 : DevRef τ sig) = Stages.src (V (main_arg13 : DevRef τ sig)) :=
  (c3_frame (V3 V) (r := main_v1) (by decide)).trans ((call0_frame (V2 V) (r := main_v1) (by decide)).trans ((c2a_frame (V1 V) (r := main_v1) (by decide)).trans ((c1_frame (V0 V) (r := main_v1) (by decide)).trans (s0_src V))))
theorem s4_dst (V : Valuation τ sig (Elt F)) : V4 V (main_v3 : DevRef τ sig) = Stages.dst (V (main_arg13 : DevRef τ sig)) :=
  (c3_frame (V3 V) (r := main_v3) (by decide)).trans ((call0_frame (V2 V) (r := main_v3) (by decide)).trans ((c2a_frame (V1 V) (r := main_v3) (by decide)).trans ((c1_frame (V0 V) (r := main_v3) (by decide)).trans (s0_dst V))))

theorem s6_agg (V : Valuation τ sig (Elt F)) : V6 V (main_v51 : DevRef τ sig) = Stages.agg (L1 V) (V (main_arg13 : DevRef τ sig)) :=
  val4 (V4 V) _ _ (s4 V) (s4_src V) (s4_dst V)
theorem s6_x (V : Valuation τ sig (Elt F)) : V6 V (main_v41 : DevRef τ sig) = L1 V := (c4b_frame (V5 V) (r := main_v41) (by decide)).trans ((c4a_frame (V4 V) (r := main_v41) (by decide)).trans (s4 V))

theorem s7 (V : Valuation τ sig (Elt F)) : V7 V (main_v62 : DevRef τ sig) = H2 V :=
  val5 (V6 V) _ _ _ _ _ _ (s6_x V) (s6_agg V) (keep6 V main_arg7 (by decide)) (keep6 V main_arg8 (by decide))
    (keep6 V main_arg9 (by decide)) (keep6 V main_arg10 (by decide))

theorem s8_h (V : Valuation τ sig (Elt F)) : V8 V (main_v62 : DevRef τ sig) = H2 V := (c6a_frame (V7 V) (r := main_v62) (by decide)).trans (s7 V)
theorem s8_mu (V : Valuation τ sig (Elt F)) : V8 V (main_v65 : DevRef τ sig) = Stages.mu (H2 V) := val6_mu (V7 V) _ (s7 V)
theorem s8_ddof (V : Valuation τ sig (Elt F)) : V8 V (main_c_10 : DevRef τ sig) = constantI S_ 32 0#32 := val6_ddof (V7 V)

theorem s9_h (V : Valuation τ sig (Elt F)) : V9 V (main_v62 : DevRef τ sig) = H2 V := (call1_frame (V8 V) (r := main_v62) (by decide)).trans (s8_h V)
theorem s9_mu (V : Valuation τ sig (Elt F)) : V9 V (main_v65 : DevRef τ sig) = Stages.mu (H2 V) := (call1_frame (V8 V) (r := main_v65) (by decide)).trans (s8_mu V)
theorem s9_var (V : Valuation τ sig (Elt F)) : V9 V (main_v66 : DevRef τ sig) = Stages.var (H2 V) := valc1 (V8 V) _ (s8_h V) (s8_ddof V)

theorem s10 (V : Valuation τ sig (Elt F)) : V10 V (main_v79 : DevRef τ sig) = L2 V :=
  val7 (V9 V) _ _ _ (s9_h V) (s9_mu V) (s9_var V) (keep9 V main_arg11 (by decide)) (keep9 V main_arg12 (by decide))
theorem s10_x (V : Valuation τ sig (Elt F)) : V10 V (main_v41 : DevRef τ sig) = L1 V :=
  (c7_frame (V9 V) (r := main_v41) (by decide)).trans ((call1_frame (V8 V) (r := main_v41) (by decide)).trans ((c6a_frame (V7 V) (r := main_v41) (by decide)).trans ((c5_frame (V6 V) (r := main_v41) (by decide)).trans (s6_x V))))

theorem s11_a (V : Valuation τ sig (Elt F)) : V11 V (main_v82 : DevRef τ sig) = Stages.pool (L1 V) (V (main_arg14 : DevRef τ sig)) :=
  val8_a (V10 V) _ _ (s10_x V) (keep10 V main_arg14 (by decide))
theorem s11_b (V : Valuation τ sig (Elt F)) : V11 V (main_v85 : DevRef τ sig) = Stages.pool (L2 V) (V (main_arg14 : DevRef τ sig)) :=
  val8_b (V10 V) _ _ (s10 V) (keep10 V main_arg14 (by decide))

theorem out_eq (V : Valuation τ sig (Elt F)) :
    after (ops (F := F)) V (main_v86 : DevRef τ sig)
      = Stages.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_ops]
  exact val9 (V11 V) _ _ (s11_a V) (s11_b V)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v86).trans (out_eq (launchContents m c)),
      (h c main_arg0).trans (args_eq (launchContents m c) main_arg0 (by decide)),
      (h c main_arg1).trans (args_eq (launchContents m c) main_arg1 (by decide)),
      (h c main_arg2).trans (args_eq (launchContents m c) main_arg2 (by decide)),
      (h c main_arg3).trans (args_eq (launchContents m c) main_arg3 (by decide)),
      (h c main_arg4).trans (args_eq (launchContents m c) main_arg4 (by decide)),
      (h c main_arg5).trans (args_eq (launchContents m c) main_arg5 (by decide)),
      (h c main_arg6).trans (args_eq (launchContents m c) main_arg6 (by decide)),
      (h c main_arg7).trans (args_eq (launchContents m c) main_arg7 (by decide)),
      (h c main_arg8).trans (args_eq (launchContents m c) main_arg8 (by decide)),
      (h c main_arg9).trans (args_eq (launchContents m c) main_arg9 (by decide)),
      (h c main_arg10).trans (args_eq (launchContents m c) main_arg10 (by decide)),
      (h c main_arg11).trans (args_eq (launchContents m c) main_arg11 (by decide)),
      (h c main_arg12).trans (args_eq (launchContents m c) main_arg12 (by decide)),
      (h c main_arg13).trans (args_eq (launchContents m c) main_arg13 (by decide)),
      (h c main_arg14).trans (args_eq (launchContents m c) main_arg14 (by decide))⟩)
    (run_seq scopedRefs_eq scopedSems_eq defs main (fun _ => ops) main_eq (fun _ => ops_sub) m ρ (fun _ => ops_fresh))

end Cert.ReferenceIdeal.RefRun

end
-- ==== Proof.LibSegmentSum.lean ====
/- A row scatter-add at an index: row r of the result is the operand's row plus the update rows whose index is r; an index out of range drops its row. -/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.Ref_Value.lean ====
/- The reference's stages at an index are the specification's functions. -/
import proofs.«406896_j45226005626971_1_alg».proof.Proof.Ref_Stages
import proofs.«406896_j45226005626971_1_alg».proof.Proof.SpecArr
import proofs.«406896_j45226005626971_1_alg».proof.Proof.SpecLaws
import proofs.«406896_j45226005626971_1_alg».proof.Proof.LibSegmentSum
import proofs.«406896_j45226005626971_1_alg».proof.Proof.LibIdealReal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

noncomputable section

open scoped BigOperators

namespace Cert.ReferenceIdeal.RefValue

open Cert.ReferenceIdeal Cert.ReferenceIdeal.Gen Cert.ReferenceIdeal.Stages Cert.Spec
open Idealize.ShloMosaic Idealize.ShloMosaic.ValueIdx

def AggR (ei : IVec S2x1000000 32) : (Fin 100000 → Fin 64 → EReal) → (Fin 100000 → Fin 64 → EReal) :=
  fun X => cur2 (Stages.agg (F := Ideal) (unc2 X) ei)

theorem rows_apply (v : FVec Ideal S64 .f32) (r : Fin 100000) (d : Fin 64) : Stages.rows v (ix2 r d) = v (ix1 d) := by
  unfold Stages.rows
  refine (broadcastInDim_apply _ _ _ (ix2 r d) (ix2 (0 : Fin 1) d) ?_).trans ?_
  · intro a
    match a with
    | ⟨0, _⟩ => rfl
    | ⟨1, _⟩ => rfl
  · refine broadcastInDim_apply _ _ _ (ix2 (0 : Fin 1) d) (ix1 d) ?_
    intro a
    match a with
    | ⟨0, _⟩ => rfl

theorem bcast64_apply {α : Type} (c : S_.Idx → α) (d : Fin 64) :
    broadcastInDim S64 ![] bcast_S_S64 c (ix1 d) = c ix0 :=
  broadcastInDim_scalar_apply _ _ _

theorem colsum_apply (h : FVec Ideal S100000x64 .f32) (d : Fin 64) :
    Host.reduceAdd h (constant (F := Ideal) S_ .f32 0x00000000#32) reducesTo_S100000x64_S64_d0 h_S_ (ix1 d)
      = ∑ r : Fin 100000, h (ix2 r d) := by
  have hR : S100000x64.Reduces [0] S64 := by decide
  refine (hostReduceAdd_apply h _ reducesTo_S100000x64_S64_d0 h_S_ (ix1 d)).trans ?_
  refine (Ideal.hostReduceAdd_single reducesTo_S100000x64_S64_d0 hR h _ (ix1 d)).trans ?_
  rw [constant_apply, Ideal.ofBits_zero_f32, zero_add]
  refine Finset.sum_congr rfl fun k _ => congrArg h ?_
  funext a
  refine Fin.ext ?_
  match a with
  | ⟨0, _⟩ => rfl
  | ⟨1, _⟩ => rfl

theorem mu_eq (h : FVec Ideal S100000x64 .f32) : cur1 (Stages.mu (F := Ideal) h) = Spec.mean (cur2 h) := by
  funext d
  unfold cur1 Stages.mu Spec.mean Spec.colsum
  rw [hostDivf_apply, colsum_apply, bcast64_apply, constant_apply]
  rfl

theorem pool_eq (y : FVec Ideal S100000x64 .f32) (batch : IVec S100000 32) :
    cur2 (Stages.pool (F := Ideal) y batch) = Spec.pool (cur2 y) (cur1 batch) := by
  funext g d
  unfold cur2 Stages.pool Spec.pool
  have hd : scatter_S512x64_S100000x1_S100000x64_1_0_0_1
      = LibSegmentSum.rowScatterDims 512 64 100000 scatter_S512x64_S100000x1_S100000x64_1_0_0_1_wf := rfl
  show Ideal.hostScatterAdd scatter_S512x64_S100000x1_S100000x64_1_0_0_1 _ _ y (ix2 g d) = _
  rw [hd, LibSegmentSum.rowScatterAdd_apply, broadcastInDim_scalar_apply, constant_apply, Ideal.ofBits_zero_f32, zero_add]
  refine Finset.sum_congr rfl fun e _ => ?_
  have hb : broadcastInDim S100000x1 ![0] bcast_S100000_S100000x1_0 batch (ix2 e (0 : Fin 1)) = batch (ix1 e) := by
    refine broadcastInDim_apply _ _ _ (ix2 e (0 : Fin 1)) (ix1 e) ?_
    intro a
    match a with
    | ⟨0, _⟩ => rfl
  rw [hb]
  rfl

theorem dot_apply (A : FVec Ideal S100000x64 .f32) (W : FVec Ideal S64x64 .f32) (r : Fin 100000) (d : Fin 64) :
    Host.dotGeneral dot_S100000x64_S64x64_S100000x64_1_0_0_1_n_n none A W (ix2 r d)
      = ∑ k : Fin 64, A (ix2 r k) * W (ix2 k d) := by
  have hd : dot_S100000x64_S64x64_S100000x64_1_0_0_1_n_n = DotDims.plain 100000 64 64 := rfl
  rw [hd]
  exact StackMember.dotGeneral_plain_apply none A W r d

theorem hid_eq (x : FVec Ideal S100000x64 .f32) (ei : IVec S2x1000000 32) (W1 : FVec Ideal S64x64 .f32)
    (b1 : FVec Ideal S64 .f32) (W2 : FVec Ideal S64x64 .f32) (b2 : FVec Ideal S64 .f32) :
    cur2 (Stages.hid (F := Ideal) x ei W1 b1 W2 b2)
      = Spec.mlp (cur2 x) (AggR ei (cur2 x)) (cur2 W1) (cur1 b1) (cur2 W2) (cur1 b2) := by
  funext r d
  unfold AggR
  rw [unc2_cur2]
  show Stages.hid (F := Ideal) x ei W1 b1 W2 b2 (ix2 r d) = _
  unfold Stages.hid Spec.mlp
  generalize Stages.agg (F := Ideal) x ei = A
  show Ideal.tanh (Host.dotGeneral dot_S100000x64_S64x64_S100000x64_1_0_0_1_n_n none
      (Host.tanh (addf (Host.dotGeneral dot_S100000x64_S64x64_S100000x64_1_0_0_1_n_n none (addf x A) W1) (Stages.rows b1)))
      W2 (ix2 r d) + Stages.rows b2 (ix2 r d)) = _
  rw [dot_apply, rows_apply]
  refine congrArg (fun s => Ideal.tanh (s + b2 (ix1 d))) ?_
  refine Finset.sum_congr rfl fun k _ => ?_
  show Ideal.tanh (Host.dotGeneral dot_S100000x64_S64x64_S100000x64_1_0_0_1_n_n none (addf x A) W1 (ix2 r k)
      + Stages.rows b1 (ix2 r k)) * W2 (ix2 k d) = _
  rw [dot_apply, rows_apply]
  rfl

theorem varDen_apply : Stages.varDen (F := Ideal) ix0 = Spec.nN := by
  unfold Stages.varDen Spec.nN
  rw [subf_apply, constant_apply, sitofp_apply]
  show Ideal.ofBits .f32 0x47C35000#32 - (((constantI S_ 32 0#32 ix0).toInt : ℝ) : EReal) = _
  show Ideal.ofBits .f32 0x47C35000#32 - ((((0#32 : BitVec 32)).toInt : ℝ) : EReal) = _
  rw [BitVec.toInt_zero, Int.cast_zero, EReal.coe_zero, sub_zero]

theorem varMean_apply (h : FVec Ideal S100000x64 .f32) (d : Fin 64) :
    Stages.varMean (F := Ideal) h (ix2 (0 : Fin 1) d) = Spec.mean (cur2 h) d := by
  unfold Stages.varMean Spec.mean Spec.colsum
  have hb : broadcastInDim S1x64 ![1] bcast_S64_S1x64_1
      (Host.reduceAdd h (constant (F := Ideal) S_ .f32 0x00000000#32) reducesTo_S100000x64_S64_d0 h_S_) (ix2 (0 : Fin 1) d)
      = Host.reduceAdd h (constant (F := Ideal) S_ .f32 0x00000000#32) reducesTo_S100000x64_S64_d0 h_S_ (ix1 d) := by
    refine broadcastInDim_apply _ _ _ (ix2 (0 : Fin 1) d) (ix1 d) ?_
    intro a
    match a with
    | ⟨0, _⟩ => rfl
  rw [hostDivf_apply, hb, colsum_apply, broadcastInDim_scalar_apply, constant_apply]
  rfl

theorem bcastRow_apply (v : FVec Ideal S1x64 .f32) (r : Fin 100000) (d : Fin 64) :
    broadcastInDim S100000x64 ![0, 1] bcast_S1x64_S100000x64_0_1 v (ix2 r d) = v (ix2 (0 : Fin 1) d) := by
  refine broadcastInDim_apply _ _ _ (ix2 r d) (ix2 (0 : Fin 1) d) ?_
  intro a
  match a with
  | ⟨0, _⟩ => rfl
  | ⟨1, _⟩ => rfl

theorem cmp_nN_pos : Ideal.cmp .ogt Spec.nN 0 = 1#1 := by
  rw [nN_eq, ← EReal.coe_zero, IdealReal.cmp_ogt_coe, if_pos (by norm_num)]

theorem var_eq (h : FVec Ideal S100000x64 .f32) : cur1 (Stages.var (F := Ideal) h) = Spec.varR (cur2 h) := by
  funext d
  show Stages.var (F := Ideal) h (ix1 d) = _
  unfold Stages.var Spec.varR Spec.colsum
  rw [select_apply, bcast64_apply, cmpf_apply, varDen_apply, constant_apply, Ideal.ofBits_zero_f32, Ideal.cmpf_def,
    cmp_nN_pos, select_one, hostDivf_apply, colsum_apply, bcast64_apply, varDen_apply]
  refine congrArg (fun s => Ideal.div s Spec.nN) ?_
  refine Finset.sum_congr rfl fun r _ => ?_
  rw [mulf_apply, subf_apply, bcastRow_apply, varMean_apply]
  rfl

theorem bn_eq (h : FVec Ideal S100000x64 .f32) (γ β : FVec Ideal S64 .f32) :
    cur2 (Stages.bn (F := Ideal) h γ β) = Spec.bnR (cur2 h) (cur1 γ) (cur1 β) := by
  funext r d
  have hm : Stages.mu (F := Ideal) h (ix1 d) = Spec.mean (cur2 h) d := congrFun (mu_eq h) d
  have hv : Stages.var (F := Ideal) h (ix1 d) = Spec.varR (cur2 h) d := congrFun (var_eq h) d
  show Stages.bn (F := Ideal) h γ β (ix2 r d) = _
  unfold Stages.bn Spec.bnR
  rw [addf_apply, mulf_apply, subf_apply, rows_apply, rows_apply, rows_apply, hm, hostDivf_apply]
  show (h (ix2 r d) - Spec.mean (cur2 h) d)
      * Ideal.div (γ (ix1 d)) (Ideal.sqrt (Stages.var (F := Ideal) h (ix1 d)
          + broadcastInDim S64 ![] bcast_S_S64 (constant (F := Ideal) S_ .f32 0x3727C5AC#32) (ix1 d))) + β (ix1 d) = _
  rw [hv, bcast64_apply, constant_apply]
  rfl

theorem layer_eq (x : FVec Ideal S100000x64 .f32) (ei : IVec S2x1000000 32) (W1 : FVec Ideal S64x64 .f32)
    (b1 : FVec Ideal S64 .f32) (W2 : FVec Ideal S64x64 .f32) (b2 : FVec Ideal S64 .f32) (γ β : FVec Ideal S64 .f32) :
    cur2 (Stages.layer (F := Ideal) x ei W1 b1 W2 b2 γ β)
      = Spec.layerR (AggR ei) (cur2 x) (cur2 W1) (cur1 b1) (cur2 W2) (cur1 b2) (cur1 γ) (cur1 β) := by
  unfold Stages.layer Spec.layerR
  rw [bn_eq, hid_eq]

theorem out_eq (x : FVec Ideal S100000x64 .f32)
    (W1_0 : FVec Ideal S64x64 .f32) (b1_0 : FVec Ideal S64 .f32) (W2_0 : FVec Ideal S64x64 .f32) (b2_0 : FVec Ideal S64 .f32)
    (γ0 β0 : FVec Ideal S64 .f32)
    (W1_1 : FVec Ideal S64x64 .f32) (b1_1 : FVec Ideal S64 .f32) (W2_1 : FVec Ideal S64x64 .f32) (b2_1 : FVec Ideal S64 .f32)
    (γ1 β1 : FVec Ideal S64 .f32)
    (ei : IVec S2x1000000 32) (batch : IVec S100000 32) :
    Stages.out (F := Ideal) x W1_0 b1_0 W2_0 b2_0 γ0 β0 W1_1 b1_1 W2_1 b2_1 γ1 β1 ei batch
      = unc2 (Spec.sideBySide
          (Spec.pool (Spec.layerR (AggR ei) (cur2 x) (cur2 W1_0) (cur1 b1_0) (cur2 W2_0) (cur1 b2_0) (cur1 γ0) (cur1 β0))
            (cur1 batch))
          (Spec.pool (Spec.layerR (AggR ei)
              (Spec.layerR (AggR ei) (cur2 x) (cur2 W1_0) (cur1 b1_0) (cur2 W2_0) (cur1 b2_0) (cur1 γ0) (cur1 β0))
              (cur2 W1_1) (cur1 b1_1) (cur2 W2_1) (cur1 b2_1) (cur1 γ1) (cur1 β1))
            (cur1 batch))) := by
  rw [← layer_eq x ei W1_0 b1_0 W2_0 b2_0 γ0 β0,
    ← layer_eq (Stages.layer (F := Ideal) x ei W1_0 b1_0 W2_0 b2_0 γ0 β0) ei W1_1 b1_1 W2_1 b2_1 γ1 β1,
    ← pool_eq (Stages.layer (F := Ideal) x ei W1_0 b1_0 W2_0 b2_0 γ0 β0) batch,
    ← pool_eq (Stages.layer (F := Ideal) (Stages.layer (F := Ideal) x ei W1_0 b1_0 W2_0 b2_0 γ0 β0) ei W1_1 b1_1 W2_1 b2_1 γ1 β1)
      batch]
  unfold Stages.out
  generalize Stages.pool (F := Ideal) (Stages.layer (F := Ideal) x ei W1_0 b1_0 W2_0 b2_0 γ0 β0) batch = P0
  generalize Stages.pool (F := Ideal)
    (Stages.layer (F := Ideal) (Stages.layer (F := Ideal) x ei W1_0 b1_0 W2_0 b2_0 γ0 β0) ei W1_1 b1_1 W2_1 b2_1 γ1 β1) batch = P1
  funext i
  obtain ⟨g, e, rfl⟩ : ∃ (g : Fin 512) (e : Fin 128), i = ix2 g e := ⟨i 0, i 1, eq_ix2 i⟩
  rw [unc2_apply]
  unfold Spec.sideBySide
  by_cases he : e.val < 64
  · rw [dif_pos he]
    refine (concatenate_pair_apply_left (1 : Fin S512x128.rank) P0 P1 concatenates_S512x64_S512x64_S512x128_d1 (ix2 g e) rfl
      (ix2 g (⟨e.val, he⟩ : Fin 64)) ?_).trans rfl
    intro b
    match b with
    | ⟨0, _⟩ => rfl
    | ⟨1, _⟩ => rfl
  · rw [dif_neg he]
    have he' : e.val - 64 < 64 := by have := e.isLt; omega
    refine (concatenate_pair_apply_right (1 : Fin S512x128.rank) P0 P1 concatenates_S512x64_S512x64_S512x128_d1 (ix2 g e) rfl rfl
      (ix2 g (⟨e.val - 64, he'⟩ : Fin 64)) ?_ ?_).trans rfl
    · intro b
      match b with
      | ⟨0, _⟩ => exact fun _ => rfl
      | ⟨1, _⟩ => exact fun hb => absurd rfl hb
    · show e.val - 64 + 64 = e.val
      omega

end Cert.ReferenceIdeal.RefValue

end
-- ==== Proof.Bridge.lean ====
/- The reference's result on the launch arrays is what the kernel program leaves in its result array. -/
import proofs.«406896_j45226005626971_1_alg».proof.Proof.KI_Value
import proofs.«406896_j45226005626971_1_alg».proof.Proof.Ref_Value
import proofs.«406896_j45226005626971_1_alg».proof.Proof.SpecLaws

set_option maxRecDepth 16384

noncomputable section

namespace Cert.Bridge

open Idealize.ShloMosaic Idealize.ShloMosaic.TcCoe Idealize.ShloMosaic.ValueIdx
open Cert.Spec
open Cert.KernelIdeal.Fr
open Cert.ReferenceIdeal.RefValue (AggR)

theorem agg_same (x : FVec Ideal Cert.KernelIdeal.S100000x64 .f32) (ei : IVec Cert.KernelIdeal.S2x1000000 32) :
    Cert.KernelIdeal.Fr.aggK x ei = Cert.ReferenceIdeal.Stages.agg (F := Ideal) x ei := rfl

theorem Agg_same (ei : IVec Cert.KernelIdeal.S2x1000000 32) :
    Cert.KernelIdeal.Fr.AggK ei = Cert.ReferenceIdeal.RefValue.AggR ei := by
  funext X
  exact congrArg cur2 (agg_same (unc2 X) ei)

variable (m : (ℓ : Loc Cert.KernelIdeal.nD Cert.KernelIdeal.τ Cert.KernelIdeal.sig) → Buf (Elt Ideal) ℓ)
  (ρ : Dev Cert.KernelIdeal.nD → PrngReg)

theorem layer0_same (c : Dev Cert.KernelIdeal.nD) :
    Spec.layerR (AggR (aEi m c)) (cur2 (aX m c)) (cur2 (aW1_0 m c)) (cur1 (ab1_0 m c)) (cur2 (aW2_0 m c)) (cur1 (ab2_0 m c))
        (cur1 (aγ0 m c)) (cur1 (aβ0 m c))
      = L0 m c := by
  unfold L0
  rw [Agg_same]
  exact (layerK_eq_layerR _ _ _ _ _ _ _ _).symm

theorem layer1_same (c : Dev Cert.KernelIdeal.nD) :
    Spec.layerR (AggR (aEi m c))
        (Spec.layerR (AggR (aEi m c)) (cur2 (aX m c)) (cur2 (aW1_0 m c)) (cur1 (ab1_0 m c)) (cur2 (aW2_0 m c)) (cur1 (ab2_0 m c))
          (cur1 (aγ0 m c)) (cur1 (aβ0 m c)))
        (cur2 (aW1_1 m c)) (cur1 (ab1_1 m c)) (cur2 (aW2_1 m c)) (cur1 (ab2_1 m c)) (cur1 (aγ1 m c)) (cur1 (aβ1 m c))
      = L1 m c := by
  rw [layer0_same]
  unfold L1
  rw [Agg_same]
  exact (layerK_eq_layerR _ _ _ _ _ _ _ _).symm

theorem out_bridge (R : Cert.KernelIdeal.Fr.RegionVals) (c : Dev Cert.KernelIdeal.nD) :
    Cert.ReferenceIdeal.Stages.out (F := Ideal) (aX m c) (aW1_0 m c) (ab1_0 m c) (aW2_0 m c) (ab2_0 m c) (aγ0 m c) (aβ0 m c)
        (aW1_1 m c) (ab1_1 m c) (aW2_1 m c) (ab2_1 m c) (aγ1 m c) (aβ1 m c) (aEi m c) (aBatch m c)
      = (Cert.KernelIdeal.Fr.W9 m ρ c (Proc.devRef .tc Cert.KernelIdeal.main_v49) : FVec Ideal Cert.KernelIdeal.S512x128 .f32) :=
  (Cert.ReferenceIdeal.RefValue.out_eq (aX m c) (aW1_0 m c) (ab1_0 m c) (aW2_0 m c) (ab2_0 m c) (aγ0 m c) (aβ0 m c)
      (aW1_1 m c) (ab1_1 m c) (aW2_1 m c) (ab2_1 m c) (aγ1 m c) (aβ1 m c) (aEi m c) (aBatch m c)).trans
    ((congrArg₂ (fun (P0 P1 : Fin 100000 → Fin 64 → EReal) =>
        unc2 (Spec.sideBySide (Spec.pool P0 (cur1 (aBatch m c))) (Spec.pool P1 (cur1 (aBatch m c)))))
      (layer0_same m c) (layer1_same m c)).trans (result_eq m ρ R c).symm)

end Cert.Bridge

end
-- ==== Proof.lean ====
/- The five claims. The kernel program's frame is proved once, for every float instance; the program as printed and
   its idealization are the same text, so that one proof serves both. The two programs
   compute two graph layers and their per-graph row sums; they differ in the spelling of the variance, of the scale by
   a root, and in summing tile by tile, each an identity on the real values of tanh. -/
import proofs.«406896_j45226005626971_1_alg».proof.Defs
import proofs.«406896_j45226005626971_1_alg».proof.Proof.Gen.Kernel
import proofs.«406896_j45226005626971_1_alg».proof.Proof.Gen.KernelIdeal
import proofs.«406896_j45226005626971_1_alg».proof.Proof.Gen.ReferenceIdeal
import proofs.«406896_j45226005626971_1_alg».proof.Proof.Gen.Pre_finite_inputs
import proofs.«406896_j45226005626971_1_alg».proof.Proof.KI_Final
import proofs.«406896_j45226005626971_1_alg».proof.Proof.Ref_Run
import proofs.«406896_j45226005626971_1_alg».proof.Proof.Ref_Value
import proofs.«406896_j45226005626971_1_alg».proof.Proof.Bridge

noncomputable section

namespace Cert.Proof

open Idealize.ShloMosaic Idealize.ShloMosaic.TcCoe Idealize.SL.Sem Cert.Spec

set_option smartUnfolding false in
set_option maxHeartbeats 20000000 in
/-- The printed program and its idealization are one term once their names are unfolded, so the frame proved for every
    float instance is the printed program's frame. -/
theorem frame_k : Cert.frame_Kernel := fun m g _ => Cert.KernelIdeal.Fr.frame (F := Bits) m g

theorem frame_ki : Cert.frame_KernelIdeal := fun m g _ => Cert.KernelIdeal.Fr.frame m g

theorem frame_ri : Cert.frame_ReferenceIdeal := fun m g _ =>
  (θ_run Cert.ReferenceIdeal.defs _ _).mono (fun _ h c => (h c).2) (Cert.ReferenceIdeal.RefRun.run (F := Ideal) m g)

theorem preserves : Cert.preserves_Kernel_KernelIdeal := trivial

theorem algebraic : Cert.algebraic_KernelIdeal_ReferenceIdeal := by
  intro m g m' g' _ hagree
  refine ⟨fun c => Cert.KernelIdeal.Fr.W9 (F := Ideal) m g c (Proc.devRef .tc Cert.KernelIdeal.main_v49), ?_, ?_⟩
  · refine (θ_run Cert.KernelIdeal.defs _ _).mono (fun r h c => ?_) (Cert.KernelIdeal.Fr.run_all (F := Ideal) m g)
    exact ⟨h c _ (Cert.KernelIdeal.Fr.mem_uc Cert.KernelIdeal.main_v49 (by decide)),
      (h c _ (Cert.KernelIdeal.Fr.mem_uc Cert.KernelIdeal.main_arg0 (by decide))).trans (Cert.KernelIdeal.Fr.W9_main_arg0 m g c),
      (h c _ (Cert.KernelIdeal.Fr.mem_uc Cert.KernelIdeal.main_arg1 (by decide))).trans (Cert.KernelIdeal.Fr.W9_main_arg1 m g c),
      (h c _ (Cert.KernelIdeal.Fr.mem_uc Cert.KernelIdeal.main_arg2 (by decide))).trans (Cert.KernelIdeal.Fr.W9_main_arg2 m g c),
      (h c _ (Cert.KernelIdeal.Fr.mem_uc Cert.KernelIdeal.main_arg3 (by decide))).trans (Cert.KernelIdeal.Fr.W9_main_arg3 m g c),
      (h c _ (Cert.KernelIdeal.Fr.mem_uc Cert.KernelIdeal.main_arg4 (by decide))).trans (Cert.KernelIdeal.Fr.W9_main_arg4 m g c),
      (h c _ (Cert.KernelIdeal.Fr.mem_uc Cert.KernelIdeal.main_arg5 (by decide))).trans (Cert.KernelIdeal.Fr.W9_main_arg5 m g c),
      (h c _ (Cert.KernelIdeal.Fr.mem_uc Cert.KernelIdeal.main_arg6 (by decide))).trans (Cert.KernelIdeal.Fr.W9_main_arg6 m g c),
      (h c _ (Cert.KernelIdeal.Fr.mem_uc Cert.KernelIdeal.main_arg7 (by decide))).trans (Cert.KernelIdeal.Fr.W9_main_arg7 m g c),
      (h c _ (Cert.KernelIdeal.Fr.mem_uc Cert.KernelIdeal.main_arg8 (by decide))).trans (Cert.KernelIdeal.Fr.W9_main_arg8 m g c),
      (h c _ (Cert.KernelIdeal.Fr.mem_uc Cert.KernelIdeal.main_arg9 (by decide))).trans (Cert.KernelIdeal.Fr.W9_main_arg9 m g c),
      (h c _ (Cert.KernelIdeal.Fr.mem_uc Cert.KernelIdeal.main_arg10 (by decide))).trans (Cert.KernelIdeal.Fr.W9_main_arg10 m g c),
      (h c _ (Cert.KernelIdeal.Fr.mem_uc Cert.KernelIdeal.main_arg11 (by decide))).trans (Cert.KernelIdeal.Fr.W9_main_arg11 m g c),
      (h c _ (Cert.KernelIdeal.Fr.mem_uc Cert.KernelIdeal.main_arg12 (by decide))).trans (Cert.KernelIdeal.Fr.W9_main_arg12 m g c),
      (h c _ (Cert.KernelIdeal.Fr.mem_uc Cert.KernelIdeal.main_arg13 (by decide))).trans (Cert.KernelIdeal.Fr.W9_main_arg13 m g c),
      (h c _ (Cert.KernelIdeal.Fr.mem_uc Cert.KernelIdeal.main_arg14 (by decide))).trans (Cert.KernelIdeal.Fr.W9_main_arg14 m g c)⟩
  · refine (θ_run Cert.ReferenceIdeal.defs _ _).mono (fun r h c => ⟨(h c).1.trans ?_, (h c).2⟩)
      (Cert.ReferenceIdeal.RefRun.run (F := Ideal) m' g')
    obtain ⟨h0, h1, h2, h3, h4, h5, h6, h7, h8, h9, h10, h11, h12, h13, h14⟩ := hagree c
    rw [h0, h1, h2, h3, h4, h5, h6, h7, h8, h9, h10, h11, h12, h13, h14]
    exact Cert.Bridge.out_bridge m g Cert.KernelIdeal.Fr.regionVals c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
